-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x128 : Shape := ⟨3, ![2, 2048, 128]⟩
abbrev S2x64x128 : Shape := ⟨3, ![2, 64, 128]⟩
abbrev S128x256 : Shape := ⟨2, ![128, 256]⟩
abbrev S128 : Shape := ⟨1, ![128]⟩
abbrev S256x128 : Shape := ⟨2, ![256, 128]⟩
abbrev S256 : Shape := ⟨1, ![256]⟩
abbrev S256x256 : Shape := ⟨2, ![256, 256]⟩
abbrev S64x128 : Shape := ⟨2, ![64, 128]⟩
abbrev S64 : Shape := ⟨1, ![64]⟩
abbrev S_ : Shape := ⟨0, ![]⟩

class Facts : Prop where
  bcast_S_S2x2048x128 : S_.BroadcastsInDim S2x2048x128 (![] : Fin 0 → Fin S2x2048x128.rank)
  reducesTo_S2x2048x128_S_d0_1_2 : S2x2048x128.ReducesTo [0, 1, 2] S_
  h_S_ : 0 < S_.numel
  bcast_S_S2x64x128 : S_.BroadcastsInDim S2x64x128 (![] : Fin 0 → Fin S2x64x128.rank)
  reducesTo_S2x64x128_S_d0_1_2 : S2x64x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg14 : FVec F S128 .f32) (main_arg15 : FVec F S64x128 .f32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x256 .f32) (main_arg12 : FVec F S128 .f32) (main_arg13 : FVec F S128 .f32) (main_arg14 : FVec F S128 .f32) (main_arg15 : FVec F S64x128 .f32) (main_arg16 : FVec F S64 .f32) (main_arg17 : FVec F S64 .f32) (main_arg18 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S128x256 .f32) (main_arg12 : FVec F S128 .f32) (main_arg13 : FVec F S128 .f32) (main_arg14 : FVec F S128 .f32) (main_arg15 : FVec F S64x128 .f32) (main_arg16 : FVec F S64 .f32) (main_arg17 : FVec F S64 .f32) (main_arg18 : FVec F S64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S256x128 .f32) (main_arg6 : FVec F S256 .f32) (main_arg7 : FVec F S256 .f32) (main_arg8 : FVec F S256x256 .f32) (main_arg9 : FVec F S256 .f32) (main_arg10 : FVec F S256 .f32) (main_arg11 : FVec F S128x256 .f32) (main_arg12 : FVec F S128 .f32) (main_arg13 : FVec F S128 .f32) (main_arg14 : FVec F S128 .f32) (main_arg15 : FVec F S64x128 .f32) (main_arg16 : FVec F S64 .f32) (main_arg17 : FVec F S64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2x2048x128 .f32) (main_arg1 : FVec F S2x64x128 .f32) (main_arg2 : FVec F S128x256 .f32) (main_arg3 : FVec F S128 .f32) (main_arg4 : FVec F S128 .f32) (main_arg5 : FVec F S256x128 .f32) (main_arg6 : FVec F S256 .f32) (main_arg7 : FVec F S256 .f32) (main_arg8 : FVec F S256x256 .f32) (main_arg9 : FVec F S256 .f32) (main_arg10 : FVec F S256 .f32) (main_arg11 : FVec F S128x256 .f32) (main_arg12 : FVec F S128 .f32) (main_arg13 : FVec F S128 .f32) (main_arg14 : FVec F S128 .f32) (main_arg15 : FVec F S64x128 .f32) (main_arg16 : FVec F S64 .f32) (main_arg17 : FVec F S64 .f32) (main_arg18 : FVec F S64 .f32) : IVec S_ 1 :=
  let main_v0 : FVec F S2x2048x128 .f32 := Host.absf main_arg0
  let main_cst : FVec F S_ .f32 := constant S_ .f32 0x7F800000#32
  let main_v1 : FVec F S2x2048x128 .f32 := broadcastInDim S2x2048x128 ![] bcast_S_S2x2048x128 main_cst
  let main_v2 : IVec S2x2048x128 1 := cmpf .olt main_v0 main_v1
  let main_c : IVec S_ 1 := constantI S_ 1 1#1
  let main_v3 : IVec S_ 1 := (fun x v => Host.reduce IntOp.andi x v reducesTo_S2x2048x128_S_d0_1_2 h_S_) main_v2 main_c
  let main_v4 : FVec F S2x64x128 .f32 := Host.absf main_arg1
  let main_cst_0 : FVec F S_ .f32 := constant S_ .f32 0x7F800000#32
  let main_v5 : FVec F S2x64x128 .f32 := broadcastInDim S2x64x128 ![] bcast_S_S2x64x128 main_cst_0
  let main_v6 : IVec S2x64x128 1 := cmpf .olt main_v4 main_v5
  let main_c_1 : IVec S_ 1 := constantI S_ 1 1#1
  let main_v7 : IVec S_ 1 := (fun x v => Host.reduce IntOp.andi x v reducesTo_S2x64x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2x2048x128 : Shape := ⟨3, ![2, 2048, 128]⟩
abbrev S2x64x128 : Shape := ⟨3, ![2, 64, 128]⟩
abbrev S128x256 : Shape := ⟨2, ![128, 256]⟩
abbrev S128 : Shape := ⟨1, ![128]⟩
abbrev S256x128 : Shape := ⟨2, ![256, 128]⟩
abbrev S256 : Shape := ⟨1, ![256]⟩
abbrev S256x256 : Shape := ⟨2, ![256, 256]⟩
abbrev S64x128 : Shape := ⟨2, ![64, 128]⟩
abbrev S64 : Shape := ⟨1, ![64]⟩
abbrev S128x128 : Shape := ⟨2, ![128, 128]⟩
abbrev S4096x128 : Shape := ⟨2, ![4096, 128]⟩
abbrev S_ : Shape := ⟨0, ![]⟩
abbrev S2x128 : Shape := ⟨2, ![2, 128]⟩
abbrev S1x1x1x128 : Shape := ⟨4, ![1, 1, 1, 128]⟩
abbrev S2x2048x64x128 : Shape := ⟨4, ![2, 2048, 64, 128]⟩
abbrev S1x128x128 : Shape := ⟨3, ![1, 128, 128]⟩
abbrev S1x64x128 : Shape := ⟨3, ![1, 64, 128]⟩
abbrev S1x128x64x128 : Shape := ⟨4, ![1, 128, 64, 128]⟩
abbrev S1x128x1x128 : Shape := ⟨4, ![1, 128, 1, 128]⟩
abbrev S1x1x64x128 : Shape := ⟨4, ![1, 1, 64, 128]⟩
abbrev S262144x128 : Shape := ⟨2, ![262144, 128]⟩
abbrev S262144x256 : Shape := ⟨2, ![262144, 256]⟩
abbrev S64x8x256 : Shape := ⟨3, ![64, 8, 256]⟩
abbrev S4096x256 : Shape := ⟨2, ![4096, 256]⟩
abbrev S1x8x256 : Shape := ⟨3, ![1, 8, 256]⟩
abbrev S1x256 : Shape := ⟨2, ![1, 256]⟩
abbrev S8x256 : Shape := ⟨2, ![8, 256]⟩
abbrev S2x2048x64x256 : Shape := ⟨4, ![2, 2048, 64, 256]⟩
abbrev S1x1x1x256 : Shape := ⟨4, ![1, 1, 1, 256]⟩
abbrev S2x2048x256 : Shape := ⟨3, ![2, 2048, 256]⟩
abbrev S1x128x64x256 : Shape := ⟨4, ![1, 128, 64, 256]⟩
abbrev S1x128x256 : Shape := ⟨3, ![1, 128, 256]⟩
abbrev S1x128 : Shape := ⟨2, ![1, 128]⟩
abbrev S2x8x128 : Shape := ⟨3, ![2, 8, 128]⟩
abbrev S2048x256 : Shape := ⟨2, ![2048, 256]⟩
abbrev S2048x128 : Shape := ⟨2, ![2048, 128]⟩
abbrev S1x8x128 : Shape := ⟨3, ![1, 8, 128]⟩
abbrev S8x128 : Shape := ⟨2, ![8, 128]⟩
abbrev S128x64 : Shape := ⟨2, ![128, 64]⟩
abbrev S1x64 : Shape := ⟨2, ![1, 64]⟩
abbrev S4096x64 : Shape := ⟨2, ![4096, 64]⟩
abbrev S2x8x64 : Shape := ⟨3, ![2, 8, 64]⟩
abbrev S2048x64 : Shape := ⟨2, ![2048, 64]⟩
abbrev S1x8x64 : Shape := ⟨3, ![1, 8, 64]⟩
abbrev S8x64 : Shape := ⟨2, ![8, 64]⟩
abbrev S2x2048x64 : Shape := ⟨3, ![2, 2048, 64]⟩

abbrev nBuf : Space → Nat
  | .hbm => 203
  | .vmem => 82
  | .smem => 0
  | _ => 0

abbrev hbmTy0_0 (i : Nat) : BufTy := match i % 128 with
  | 0 => ⟨S2x2048x128, .f32⟩
  | 1 => ⟨S2x64x128, .f32⟩
  | 2 => ⟨S128x256, .f32⟩
  | 3 => ⟨S128, .f32⟩
  | 4 => ⟨S128, .f32⟩
  | 5 => ⟨S256x128, .f32⟩
  | 6 => ⟨S256, .f32⟩
  | 7 => ⟨S256, .f32⟩
  | 8 => ⟨S256x256, .f32⟩
  | 9 => ⟨S256, .f32⟩
  | 10 => ⟨S256, .f32⟩
  | 11 => ⟨S128x256, .f32⟩
  | 12 => ⟨S128, .f32⟩
  | 13 => ⟨S128, .f32⟩
  | 14 => ⟨S128, .f32⟩
  | 15 => ⟨S64x128, .f32⟩
  | 16 => ⟨S64, .f32⟩
  | 17 => ⟨S64, .f32⟩
  | 18 => ⟨S64, .f32⟩
  | 19 => ⟨S128x128, .f32⟩
  | 20 => ⟨S128x128, .f32⟩
  | 21 => ⟨S4096x128, .f32⟩
  | 22 => ⟨S128x128, .f32⟩
  | 23 => ⟨S128x128, .f32⟩
  | 24 => ⟨S4096x128, .f32⟩
  | 25 => ⟨S2x2048x128, .f32⟩
  | 26 => ⟨S128x128, .f32⟩
  | 27 => ⟨S128x128, .f32⟩
  | 28 => ⟨S2x64x128, .f32⟩
  | 29 => ⟨S_, .f32⟩
  | 30 => ⟨S2x128, .f32⟩
  | 31 => ⟨S2x2048x128, .f32⟩
  | 32 => ⟨S_, .f32⟩
  | 33 => ⟨S2x128, .f32⟩
  | 34 => ⟨S_, .f32⟩
  | 35 => ⟨S2x128, .f32⟩
  | 36 => ⟨S2x64x128, .f32⟩
  | 37 => ⟨S_, .f32⟩
  | 38 => ⟨S2x128, .f32⟩
  | 39 => ⟨S_, .f32⟩
  | 40 => ⟨S2x128, .f32⟩
  | 41 => ⟨S2x128, .f32⟩
  | 42 => ⟨S_, .f32⟩
  | 43 => ⟨S2x128, .f32⟩
  | 44 => ⟨S2x128, .f32⟩
  | 45 => ⟨S2x128, .f32⟩
  | 46 => ⟨S_, .f32⟩
  | 47 => ⟨S128, .f32⟩
  | 48 => ⟨S_, .f32⟩
  | 49 => ⟨S2x128, .f32⟩
  | 50 => ⟨S2x128, .f32⟩
  | 51 => ⟨S_, .f32⟩
  | 52 => ⟨S2x128, .f32⟩
  | 53 => ⟨S2x128, .f32⟩
  | 54 => ⟨S2x128, .f32⟩
  | 55 => ⟨S2x128, .f32⟩
  | 56 => ⟨S_, .f32⟩
  | 57 => ⟨S2x128, .f32⟩
  | 58 => ⟨S2x128, .f32⟩
  | 59 => ⟨S2x128, .f32⟩
  | 60 => ⟨S_, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S1x1x1x128, .f32⟩
  | 74 => ⟨S1x1x1x128, .f32⟩
  | 75 => ⟨S1x1x1x128, .f32⟩
  | 76 => ⟨S1x1x1x128, .f32⟩
  | 77 => ⟨S2x2048x64x128, .bf16⟩
  | 78 => ⟨S262144x128, .bf16⟩
  | 79 => ⟨S128x256, .f32⟩
  | 80 => ⟨S262144x256, .bf16⟩
  | 81 => ⟨S64x8x256, .f32⟩
  | 82 => ⟨S64x8x256, .f32⟩
  | 83 => ⟨S_, .f32⟩
  | 84 => ⟨S256, .f32⟩
  | 85 => ⟨S_, .f32⟩
  | 86 => ⟨S256, .f32⟩
  | 87 => ⟨S256, .f32⟩
  | 88 => ⟨S_, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S_, .f32⟩
  | 97 => ⟨S256, .f32⟩
  | 98 => ⟨S256, .f32⟩
  | 99 => ⟨S256, .f32⟩
  | 100 => ⟨S256, .f32⟩
  | 101 => ⟨S_, .f32⟩
  | 102 => ⟨S256, .f32⟩
  | 103 => ⟨S256, .f32⟩
  | 104 => ⟨S256x256, .f32⟩
  | 105 => ⟨S1x256, .f32⟩
  | 106 => ⟨S1x256, .f32⟩
  | 107 => ⟨S1x256, .f32⟩
  | 108 => ⟨S1x256, .f32⟩
  | 109 => ⟨S262144x256, .bf16⟩
  | 110 => ⟨S64x8x256, .f32⟩
  | 111 => ⟨S64x8x256, .f32⟩
  | 112 => ⟨S_, .f32⟩
  | 113 => ⟨S256, .f32⟩
  | 114 => ⟨S_, .f32⟩
  | 115 => ⟨S256, .f32⟩
  | 116 => ⟨S256, .f32⟩
  | 117 => ⟨S_, .f32⟩
  | 118 => ⟨S256, .f32⟩
  | 119 => ⟨S_, .f32⟩
  | 120 => ⟨S256, .f32⟩
  | 121 => ⟨S256, .f32⟩
  | 122 => ⟨S_, .f32⟩
  | 123 => ⟨S256, .f32⟩
  | 124 => ⟨S256, .f32⟩
  | 125 => ⟨S_, .f32⟩
  | 126 => ⟨S256, .f32⟩
  | 127 => ⟨S256, .f32⟩
  | _ => ⟨S2x2048x128, .f32⟩

abbrev hbmTy0_1 (i : Nat) : BufTy := match i % 128 with
  | 0 => ⟨S256, .f32⟩
  | 1 => ⟨S256, .f32⟩
  | 2 => ⟨S_, .f32⟩
  | 3 => ⟨S256, .f32⟩
  | 4 => ⟨S256, .f32⟩
  | 5 => ⟨S2x2048x64x256, .bf16⟩
  | 6 => ⟨S1x1x1x256, .f32⟩
  | 7 => ⟨S1x1x1x256, .f32⟩
  | 8 => ⟨S1x1x1x256, .f32⟩
  | 9 => ⟨S1x1x1x256, .f32⟩
  | 10 => ⟨S2x2048x256, .f32⟩
  | 11 => ⟨S4096x256, .f32⟩
  | 12 => ⟨S256x128, .f32⟩
  | 13 => ⟨S1x128, .f32⟩
  | 14 => ⟨S4096x128, .f32⟩
  | 15 => ⟨S2x8x128, .f32⟩
  | 16 => ⟨S2x8x128, .f32⟩
  | 17 => ⟨S_, .f32⟩
  | 18 => ⟨S128, .f32⟩
  | 19 => ⟨S_, .f32⟩
  | 20 => ⟨S128, .f32⟩
  | 21 => ⟨S128, .f32⟩
  | 22 => ⟨S_, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S128, .f32⟩
  | 35 => ⟨S_, .f32⟩
  | 36 => ⟨S128, .f32⟩
  | 37 => ⟨S128, .f32⟩
  | 38 => ⟨S1x128, .f32⟩
  | 39 => ⟨S1x128, .f32⟩
  | 40 => ⟨S1x128, .f32⟩
  | 41 => ⟨S1x128, .f32⟩
  | 42 => ⟨S4096x128, .f32⟩
  | 43 => ⟨S128x64, .f32⟩
  | 44 => ⟨S1x64, .f32⟩
  | 45 => ⟨S4096x64, .f32⟩
  | 46 => ⟨S2x8x64, .f32⟩
  | 47 => ⟨S2x8x64, .f32⟩
  | 48 => ⟨S_, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S64, .f32⟩
  | 65 => ⟨S64, .f32⟩
  | 66 => ⟨S_, .f32⟩
  | 67 => ⟨S64, .f32⟩
  | 68 => ⟨S64, .f32⟩
  | 69 => ⟨S1x64, .f32⟩
  | 70 => ⟨S1x64, .f32⟩
  | 71 => ⟨S1x64, .f32⟩
  | 72 => ⟨S1x64, .f32⟩
  | 73 => ⟨S4096x64, .f32⟩
  | 74 => ⟨S2x2048x64, .f32⟩
  | _ => ⟨S2x2048x128, .f32⟩

abbrev hbmTy (i : Nat) : BufTy := match i / 128 with
  | 0 => hbmTy0_0 i
  | 1 => hbmTy0_1 i
  | _ => ⟨S2x2048x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S128x128, .f32⟩
  | .local _ .vmem, ⟨2, _⟩ => ⟨S4096x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128x128, .f32⟩
  | .local _ .vmem, ⟨7, _⟩ => ⟨S1x128x128, .f32⟩
  | .local _ .vmem, ⟨8, _⟩ => ⟨S1x64x128, .f32⟩
  | .local _ .vmem, ⟨9, _⟩ => ⟨S1x64x128, .f32⟩
  | .local _ .vmem, ⟨10, _⟩ => ⟨S1x1x1x128, .f32⟩
  | .local _ .vmem, ⟨11, _⟩ => ⟨S1x1x1x128, .f32⟩
  | .local _ .vmem, ⟨12, _⟩ => ⟨S1x1x1x128, .f32⟩
  | .local _ .vmem, ⟨13, _⟩ => ⟨S1x1x1x128, .f32⟩
  | .local _ .vmem, ⟨14, _⟩ => ⟨S1x128x64x128, .bf16⟩
  | .local _ .vmem, ⟨15, _⟩ => ⟨S1x128x64x128, .bf16⟩
  | .local _ .vmem, ⟨16, _⟩ => ⟨S4096x128, .bf16⟩
  | .local _ .vmem, ⟨17, _⟩ => ⟨S4096x128, .bf16⟩
  | .local _ .vmem, ⟨18, _⟩ => ⟨S128x256, .f32⟩
  | .local _ .vmem, ⟨19, _⟩ => ⟨S4096x256, .bf16⟩
  | .local _ .vmem, ⟨20, _⟩ => ⟨S4096x256, .bf16⟩
  | .local _ .vmem, ⟨21, _⟩ => ⟨S1x8x256, .f32⟩
  | .local _ .vmem, ⟨22, _⟩ => ⟨S1x8x256, .f32⟩
  | .local _ .vmem, ⟨23, _⟩ => ⟨S1x8x256, .f32⟩
  | .local _ .vmem, ⟨24, _⟩ => ⟨S1x8x256, .f32⟩
  | .local _ .vmem, ⟨25, _⟩ => ⟨S4096x256, .bf16⟩
  | .local _ .vmem, ⟨26, _⟩ => ⟨S4096x256, .bf16⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S256x256, .f32⟩
  | .local _ .vmem, ⟨32, _⟩ => ⟨S4096x256, .bf16⟩
  | .local _ .vmem, ⟨33, _⟩ => ⟨S4096x256, .bf16⟩
  | .local _ .vmem, ⟨34, _⟩ => ⟨S1x8x256, .f32⟩
  | .local _ .vmem, ⟨35, _⟩ => ⟨S1x8x256, .f32⟩
  | .local _ .vmem, ⟨36, _⟩ => ⟨S1x8x256, .f32⟩
  | .local _ .vmem, ⟨37, _⟩ => ⟨S1x8x256, .f32⟩
  | .local _ .vmem, ⟨38, _⟩ => ⟨S1x128x64x256, .bf16⟩
  | .local _ .vmem, ⟨39, _⟩ => ⟨S1x128x64x256, .bf16⟩
  | .local _ .vmem, ⟨40, _⟩ => ⟨S1x1x1x256, .f32⟩
  | .local _ .vmem, ⟨41, _⟩ => ⟨S1x1x1x256, .f32⟩
  | .local _ .vmem, ⟨42, _⟩ => ⟨S1x1x1x256, .f32⟩
  | .local _ .vmem, ⟨43, _⟩ => ⟨S1x1x1x256, .f32⟩
  | .local _ .vmem, ⟨44, _⟩ => ⟨S1x128x256, .f32⟩
  | .local _ .vmem, ⟨45, _⟩ => ⟨S1x128x256, .f32⟩
  | .local _ .vmem, ⟨46, _⟩ => ⟨S2048x256, .f32⟩
  | .local _ .vmem, ⟨47, _⟩ => ⟨S2048x256, .f32⟩
  | .local _ .vmem, ⟨48, _⟩ => ⟨S256x128, .f32⟩
  | .local _ .vmem, ⟨49, _⟩ => ⟨S1x128, .f32⟩
  | .local _ .vmem, ⟨50, _⟩ => ⟨S2048x128, .f32⟩
  | .local _ .vmem, ⟨51, _⟩ => ⟨S2048x128, .f32⟩
  | .local _ .vmem, ⟨52, _⟩ => ⟨S1x8x128, .f32⟩
  | .local _ .vmem, ⟨53, _⟩ => ⟨S1x8x128, .f32⟩
  | .local _ .vmem, ⟨54, _⟩ => ⟨S1x8x128, .f32⟩
  | .local _ .vmem, ⟨55, _⟩ => ⟨S1x8x128, .f32⟩
  | .local _ .vmem, ⟨56, _⟩ => ⟨S2048x128, .f32⟩
  | .local _ .vmem, ⟨57, _⟩ => ⟨S2048x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2048x128, .f32⟩
  | .local _ .vmem, ⟨63, _⟩ => ⟨S2048x128, .f32⟩
  | .local _ .vmem, ⟨64, _⟩ => ⟨S2048x128, .f32⟩
  | .local _ .vmem, ⟨65, _⟩ => ⟨S2048x128, .f32⟩
  | .local _ .vmem, ⟨66, _⟩ => ⟨S128x64, .f32⟩
  | .local _ .vmem, ⟨67, _⟩ => ⟨S1x64, .f32⟩
  | .local _ .vmem, ⟨68, _⟩ => ⟨S2048x64, .f32⟩
  | .local _ .vmem, ⟨69, _⟩ => ⟨S2048x64, .f32⟩
  | .local _ .vmem, ⟨70, _⟩ => ⟨S1x8x64, .f32⟩
  | .local _ .vmem, ⟨71, _⟩ => ⟨S1x8x64, .f32⟩
  | .local _ .vmem, ⟨72, _⟩ => ⟨S1x8x64, .f32⟩
  | .local _ .vmem, ⟨73, _⟩ => ⟨S1x8x64, .f32⟩
  | .local _ .vmem, ⟨74, _⟩ => ⟨S2048x64, .f32⟩
  | .local _ .vmem, ⟨75, _⟩ => ⟨S2048x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S2048x64, .f32⟩
  | .local _ .vmem, ⟨81, _⟩ => ⟨S2048x64, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_v33 : Ref sig .tc := ⟨.hbm, 64, rfl⟩
abbrev main_cst_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47_0 : Ref sig .tc := ⟨.hbm, 80, rfl⟩
abbrev main_v47_1 : Ref sig .tc := ⟨.hbm, 81, rfl⟩
abbrev main_v47_2 : Ref sig .tc := ⟨.hbm, 82, rfl⟩
abbrev main_cst_13 : Ref sig .tc := ⟨.hbm, 83, rfl⟩
abbrev main_v48 : Ref sig .tc := ⟨.hbm, 84, rfl⟩
abbrev main_cst_14 : Ref sig .tc := ⟨.hbm, 85, rfl⟩
abbrev main_v49 : Ref sig .tc := ⟨.hbm, 86, rfl⟩
abbrev main_v50 : Ref sig .tc := ⟨.hbm, 87, rfl⟩
abbrev main_cst_15 : Ref sig .tc := ⟨.hbm, 88, rfl⟩
abbrev main_v51 : Ref sig .tc := ⟨.hbm, 89, rfl⟩
abbrev main_cst_16 : Ref sig .tc := ⟨.hbm, 90, rfl⟩
abbrev main_v52 : Ref sig .tc := ⟨.hbm, 91, rfl⟩
abbrev main_v53 : Ref sig .tc := ⟨.hbm, 92, rfl⟩
abbrev main_cst_17 : Ref sig .tc := ⟨.hbm, 93, rfl⟩
abbrev main_v54 : Ref sig .tc := ⟨.hbm, 94, rfl⟩
abbrev main_v55 : Ref sig .tc := ⟨.hbm, 95, rfl⟩
abbrev main_cst_18 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_19 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67_0 : Ref sig .tc := ⟨.hbm, 109, rfl⟩
abbrev main_v67_1 : Ref sig .tc := ⟨.hbm, 110, rfl⟩
abbrev main_v67_2 : Ref sig .tc := ⟨.hbm, 111, rfl⟩
abbrev main_cst_20 : Ref sig .tc := ⟨.hbm, 112, rfl⟩
abbrev main_v68 : Ref sig .tc := ⟨.hbm, 113, rfl⟩
abbrev main_cst_21 : Ref sig .tc := ⟨.hbm, 114, rfl⟩
abbrev main_v69 : Ref sig .tc := ⟨.hbm, 115, rfl⟩
abbrev main_v70 : Ref sig .tc := ⟨.hbm, 116, rfl⟩
abbrev main_cst_22 : Ref sig .tc := ⟨.hbm, 117, rfl⟩
abbrev main_v71 : Ref sig .tc := ⟨.hbm, 118, rfl⟩
abbrev main_cst_23 : Ref sig .tc := ⟨.hbm, 119, rfl⟩
abbrev main_v72 : Ref sig .tc := ⟨.hbm, 120, rfl⟩
abbrev main_v73 : Ref sig .tc := ⟨.hbm, 121, rfl⟩
abbrev main_cst_24 : Ref sig .tc := ⟨.hbm, 122, rfl⟩
abbrev main_v74 : Ref sig .tc := ⟨.hbm, 123, rfl⟩
abbrev main_v75 : Ref sig .tc := ⟨.hbm, 124, rfl⟩
abbrev main_cst_25 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_26 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91_0 : Ref sig .tc := ⟨.hbm, 142, rfl⟩
abbrev main_v91_1 : Ref sig .tc := ⟨.hbm, 143, rfl⟩
abbrev main_v91_2 : Ref sig .tc := ⟨.hbm, 144, rfl⟩
abbrev main_cst_27 : Ref sig .tc := ⟨.hbm, 145, rfl⟩
abbrev main_v92 : Ref sig .tc := ⟨.hbm, 146, rfl⟩
abbrev main_cst_28 : Ref sig .tc := ⟨.hbm, 147, rfl⟩
abbrev main_v93 : Ref sig .tc := ⟨.hbm, 148, rfl⟩
abbrev main_v94 : Ref sig .tc := ⟨.hbm, 149, rfl⟩
abbrev main_cst_29 : Ref sig .tc := ⟨.hbm, 150, rfl⟩
abbrev main_v95 : Ref sig .tc := ⟨.hbm, 151, rfl⟩
abbrev main_cst_30 : Ref sig .tc := ⟨.hbm, 152, rfl⟩
abbrev main_v96 : Ref sig .tc := ⟨.hbm, 153, rfl⟩
abbrev main_v97 : Ref sig .tc := ⟨.hbm, 154, rfl⟩
abbrev main_cst_31 : Ref sig .tc := ⟨.hbm, 155, rfl⟩
abbrev main_v98 : Ref sig .tc := ⟨.hbm, 156, rfl⟩
abbrev main_v99 : Ref sig .tc := ⟨.hbm, 157, rfl⟩
abbrev main_cst_32 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_33 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113_0 : Ref sig .tc := ⟨.hbm, 173, rfl⟩
abbrev main_v113_1 : Ref sig .tc := ⟨.hbm, 174, rfl⟩
abbrev main_v113_2 : Ref sig .tc := ⟨.hbm, 175, rfl⟩
abbrev main_cst_34 : Ref sig .tc := ⟨.hbm, 176, rfl⟩
abbrev main_v114 : Ref sig .tc := ⟨.hbm, 177, rfl⟩
abbrev main_cst_35 : Ref sig .tc := ⟨.hbm, 178, rfl⟩
abbrev main_v115 : Ref sig .tc := ⟨.hbm, 179, rfl⟩
abbrev main_v116 : Ref sig .tc := ⟨.hbm, 180, rfl⟩
abbrev main_cst_36 : Ref sig .tc := ⟨.hbm, 181, rfl⟩
abbrev main_v117 : Ref sig .tc := ⟨.hbm, 182, rfl⟩
abbrev main_cst_37 : Ref sig .tc := ⟨.hbm, 183, rfl⟩
abbrev main_v118 : Ref sig .tc := ⟨.hbm, 184, rfl⟩
abbrev main_v119 : Ref sig .tc := ⟨.hbm, 185, rfl⟩
abbrev main_cst_38 : Ref sig .tc := ⟨.hbm, 186, rfl⟩
abbrev main_v120 : Ref sig .tc := ⟨.hbm, 187, rfl⟩
abbrev main_v121 : Ref sig .tc := ⟨.hbm, 188, rfl⟩
abbrev main_cst_39 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_40 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg6_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg7_1 : Ref sig .tc := ⟨.vmem, 35, rfl⟩
abbrev cc4_stg8_0 : Ref sig .tc := ⟨.vmem, 36, rfl⟩
abbrev cc4_stg8_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc8_stg5_0 : Ref sig .tc := ⟨.vmem, 72, rfl⟩
abbrev cc8_stg5_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg4_0 : Ref sig .tc := ⟨.vmem, 79, rfl⟩
abbrev cc9_stg5_0 : Ref sig .tc := ⟨.vmem, 80, rfl⟩
abbrev cc9_stg5_1 : Ref sig .tc := ⟨.vmem, 81, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem6_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc4_sem7_0 : DmaSem sig := 34
abbrev cc4_sem7_1 : DmaSem sig := 35
abbrev cc4_sem8_0 : DmaSem sig := 36
abbrev cc4_sem8_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc6_sem4_0 : DmaSem sig := 52
abbrev cc6_sem4_1 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc8_sem4_0 : DmaSem sig := 70
abbrev cc8_sem4_1 : DmaSem sig := 71
abbrev cc8_sem5_0 : DmaSem sig := 72
abbrev cc8_sem5_1 : DmaSem sig := 73
abbrev cc9_sem0_0 : DmaSem sig := 74
abbrev cc9_sem0_1 : DmaSem sig := 75
abbrev cc9_sem1_0 : DmaSem sig := 76
abbrev cc9_sem2_0 : DmaSem sig := 77
abbrev cc9_sem3_0 : DmaSem sig := 78
abbrev cc9_sem4_0 : DmaSem sig := 79
abbrev cc9_sem5_0 : DmaSem sig := 80
abbrev cc9_sem5_1 : DmaSem sig := 81

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1x1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1x1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1x1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x128x64x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x8x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨2, ![2, 16], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_4 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x128x64x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x1x1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x1x1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x1x1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1x1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x128x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x8x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x8x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2048x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x8x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1x8x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2048x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S128x256_S128x128_0_0 : S128x256.Slices ![0, 0] S128x128
  slices_S128x256_S128x128_0_128 : S128x256.Slices ![0, 128] S128x128
  shapeCasts_S2x2048x128_S4096x128 : S2x2048x128.ShapeCasts S4096x128
  shapeCasts_S2x64x128_S128x128 : S2x64x128.ShapeCasts S128x128
  transposes_S128x128_S128x128_1_0 : S128x128.Transposes [1, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S2x2048x128 : S4096x128.ShapeCasts S2x2048x128
  shapeCasts_S128x128_S2x64x128 : S128x128.ShapeCasts S2x64x128
  reducesTo_S2x2048x128_S2x128_d1 : S2x2048x128.ReducesTo [1] S2x128
  h_S_ : 0 < S_.numel
  reducesTo_S2x64x128_S2x128_d1 : S2x64x128.ReducesTo [1] S2x128
  bcast_S_S2x128 : S_.BroadcastsInDim S2x128 (![] : Fin 0 → Fin S2x128.rank)
  reducesTo_S2x128_S128_d0 : S2x128.ReducesTo [0] S128
  bcast_S_S128 : S_.BroadcastsInDim S128 (![] : Fin 0 → Fin S128.rank)
  shapeCasts_S128_S1x1x1x128 : S128.ShapeCasts S1x1x1x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  inb_S1x64x128_S1x64x128_0_0_0 : ∀ a, (![0, 0, 0] : Fin 3 → Nat) a + S1x64x128.size a ≤ S1x64x128.size a
  h_S1x64x128 : 0 < S1x64x128.numel
  shapeCasts_S1x64x128_S1x64x128 : S1x64x128.ShapeCasts S1x64x128
  shapeCasts_S1x128x128_S1x128x1x128 : S1x128x128.ShapeCasts S1x128x1x128
  shapeCasts_S1x64x128_S1x1x64x128 : S1x64x128.ShapeCasts S1x1x64x128
  broadcasts_S1x128x1x128_S1x128x64x128 : S1x128x1x128.Broadcasts S1x128x64x128
  broadcasts_S1x1x64x128_S1x128x64x128 : S1x1x64x128.Broadcasts S1x128x64x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x1x1x128 : S1x1x1x128.ShapeCasts S1x1x1x128
  broadcasts_S1x1x1x128_S1x128x64x128 : S1x1x1x128.Broadcasts S1x128x64x128
  inb_S1x128x64x128_S1x128x64x128_0_0_0_0 : ∀ a, (![0, 0, 0, 0] : Fin 4 → Nat) a + S1x128x64x128.size a ≤ S1x128x64x128.size a
  h_S1x128x64x128 : 0 < S1x128x64x128.numel
  packedbf16_S1x128x64x128_S1x128x64x128_0_0_0_0 : (Rect.unit (s := S1x128x64x128) ![0, 0, 0, 0] S1x128x64x128.size inb_S1x128x64x128_S1x128x64x128_0_0_0_0).PackedRows (EltTy.packing .bf16)
  shapeCasts_S2x2048x64x128_S262144x128 : S2x2048x64x128.ShapeCasts S262144x128
  transposes_S256x128_S128x256_1_0 : S256x128.Transposes [1, 0] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S4096x256_S256 : S4096x256.Reduces [0] S256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S256_S1x256 : S256.ShapeCasts S1x256
  shapeCasts_S1x256_S1x256 : S1x256.ShapeCasts S1x256
  broadcasts_S1x256_S8x256 : S1x256.Broadcasts S8x256
  shapeCasts_S8x256_S1x8x256 : S8x256.ShapeCasts S1x8x256
  inb_S1x8x256_S1x8x256_0_0_0 : ∀ a, (![0, 0, 0] : Fin 3 → Nat) a + S1x8x256.size a ≤ S1x8x256.size a
  h_S1x8x256 : 0 < S1x8x256.numel
  reducesTo_S64x8x256_S256_d0_1 : S64x8x256.ReducesTo [0, 1] S256
  bcast_S_S256 : S_.BroadcastsInDim S256 (![] : Fin 0 → Fin S256.rank)
  transposes_S256x256_S256x256_1_0 : S256x256.Transposes [1, 0] S256x256
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S262144x256_S2x2048x64x256 : S262144x256.ShapeCasts S2x2048x64x256
  shapeCasts_S256_S1x1x1x256 : S256.ShapeCasts S1x1x1x256
  inb_S1x128x64x256_S1x128x64x256_0_0_0_0 : ∀ a, (![0, 0, 0, 0] : Fin 4 → Nat) a + S1x128x64x256.size a ≤ S1x128x64x256.size a
  h_S1x128x64x256 : 0 < S1x128x64x256.numel
  shapeCasts_S1x128x64x256_S1x128x64x256 : S1x128x64x256.ShapeCasts S1x128x64x256
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  broadcasts_S1x1x1x256_S1x128x64x256 : S1x1x1x256.Broadcasts S1x128x64x256
  reduces_S1x128x64x256_S1x128x256 : S1x128x64x256.Reduces [2] S1x128x256
  inb_S1x128x256_S1x128x256_0_0_0 : ∀ a, (![0, 0, 0] : Fin 3 → Nat) a + S1x128x256.size a ≤ S1x128x256.size a
  h_S1x128x256 : 0 < S1x128x256.numel
  shapeCasts_S2x2048x256_S4096x256 : S2x2048x256.ShapeCasts S4096x256
  transposes_S128x256_S256x128_1_0 : S128x256.Transposes [1, 0] S256x128
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S128 : S2048x128.Reduces [0] S128
  inb_S2048x128_S2048x128_0_0 : ∀ a, (![0, 0] : Fin 2 → Nat) a + S2048x128.size a ≤ S2048x128.size a
  h_S2048x128 : 0 < S2048x128.numel
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S128_d0_1 : S2x8x128.ReducesTo [0, 1] S128
  shapeCasts_S2048x128_S2048x128 : S2048x128.ShapeCasts S2048x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S64 : S2048x64.Reduces [0] S64
  inb_S2048x64_S2048x64_0_0 : ∀ a, (![0, 0] : Fin 2 → Nat) a + S2048x64.size a ≤ S2048x64.size a
  h_S2048x64 : 0 < S2048x64.numel
  broadcasts_S1x64_S8x64 : S1x64.Broadcasts S8x64
  shapeCasts_S8x64_S1x8x64 : S8x64.ShapeCasts S1x8x64
  inb_S1x8x64_S1x8x64_0_0_0 : ∀ a, (![0, 0, 0] : Fin 3 → Nat) a + S1x8x64.size a ≤ S1x8x64.size a
  h_S1x8x64 : 0 < S1x8x64.numel
  reducesTo_S2x8x64_S64_d0_1 : S2x8x64.ReducesTo [0, 1] S64
  bcast_S_S64 : S_.BroadcastsInDim S64 (![] : Fin 0 → Fin S64.rank)
  shapeCasts_S2048x64_S2048x64 : S2048x64.ShapeCasts S2048x64
  shapeCasts_S4096x64_S2x2048x64 : S4096x64.ShapeCasts S2x2048x64
  dot_S4096x128_S128x128_S4096x128_1_0_0_1_n_n_wf : DotDims.WF S4096x128 S128x128 S4096x128 [1] [0] [0] [1] [] []
  dot_S128x128_S128x128_S128x128_1_0_0_1_n_n_wf : DotDims.WF S128x128 S128x128 S128x128 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x128.size a ≤ S2x2048x128.size a
  hwx2_0 : ∀ i : grid2.Coords, EltTy.bits .f32 = 32 ∨ (Rect.block (s := S2x2048x128) S1x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x128.size a ≤ S2x64x128.size a
  hwx2_1 : ∀ i : grid2.Coords, EltTy.bits .f32 = 32 ∨ (Rect.block (s := S2x64x128) S1x64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1x1x128.size a ≤ S1x1x1x128.size a
  hwx2_2 : ∀ i : grid2.Coords, EltTy.bits .f32 = 32 ∨ (Rect.block (s := S1x1x1x128) S1x1x1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1x1x128.size a ≤ S1x1x1x128.size a
  hwx2_3 : ∀ i : grid2.Coords, EltTy.bits .f32 = 32 ∨ (Rect.block (s := S1x1x1x128) S1x1x1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1x1x128.size a ≤ S1x1x1x128.size a
  hwx2_4 : ∀ i : grid2.Coords, EltTy.bits .f32 = 32 ∨ (Rect.block (s := S1x1x1x128) S1x1x1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1x1x128.size a ≤ S1x1x1x128.size a
  hwx2_5 : ∀ i : grid2.Coords, EltTy.bits .f32 = 32 ∨ (Rect.block (s := S1x1x1x128) S1x1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x128x64x128.size a ≤ S2x2048x64x128.size a
  hwx2_6 : ∀ i : grid2.Coords, EltTy.bits .bf16 = 32 ∨ (Rect.block (s := S2x2048x64x128) S1x128x64x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S262144x128.size a
  hwx3_0 : ∀ i : grid3.Coords, EltTy.bits .bf16 = 32 ∨ (Rect.block (s := S262144x128) S4096x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S262144x256.size a
  hwx3_2 : ∀ i : grid3.Coords, EltTy.bits .bf16 = 32 ∨ (Rect.block (s := S262144x256) S4096x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x8x256.size a ≤ S64x8x256.size a
  hwx3_3 : ∀ i : grid3.Coords, EltTy.bits .f32 = 32 ∨ (Rect.block (s := S64x8x256) S1x8x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x8x256.size a ≤ S64x8x256.size a
  hwx3_4 : ∀ i : grid3.Coords, EltTy.bits .f32 = 32 ∨ (Rect.block (s := S64x8x256) S1x8x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S262144x256.size a
  hwx4_0 : ∀ i : grid4.Coords, EltTy.bits .bf16 = 32 ∨ (Rect.block (s := S262144x256) S4096x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4096x256.size a ≤ S262144x256.size a
  hwx4_6 : ∀ i : grid4.Coords, EltTy.bits .bf16 = 32 ∨ (Rect.block (s := S262144x256) S4096x256.size (cc4_transform_6 i) (hinb4_6 i)).WholeWords (EltTy.packing .bf16)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x256.size a ≤ S64x8x256.size a
  hwx4_7 : ∀ i : grid4.Coords, EltTy.bits .f32 = 32 ∨ (Rect.block (s := S64x8x256) S1x8x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x256.size a ≤ S64x8x256.size a
  hwx4_8 : ∀ i : grid4.Coords, EltTy.bits .f32 = 32 ∨ (Rect.block (s := S64x8x256) S1x8x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x128x64x256.size a ≤ S2x2048x64x256.size a
  hwx5_0 : ∀ i : grid5.Coords, EltTy.bits .bf16 = 32 ∨ (Rect.block (s := S2x2048x64x256) S1x128x64x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1x1x256.size a ≤ S1x1x1x256.size a
  hwx5_1 : ∀ i : grid5.Coords, EltTy.bits .f32 = 32 ∨ (Rect.block (s := S1x1x1x256) S1x1x1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1x1x256.size a ≤ S1x1x1x256.size a
  hwx5_2 : ∀ i : grid5.Coords, EltTy.bits .f32 = 32 ∨ (Rect.block (s := S1x1x1x256) S1x1x1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1x1x256.size a ≤ S1x1x1x256.size a
  hwx5_3 : ∀ i : grid5.Coords, EltTy.bits .f32 = 32 ∨ (Rect.block (s := S1x1x1x256) S1x1x1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1x1x256.size a ≤ S1x1x1x256.size a
  hwx5_4 : ∀ i : grid5.Coords, EltTy.bits .f32 = 32 ∨ (Rect.block (s := S1x1x1x256) S1x1x1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x128x256.size a ≤ S2x2048x256.size a
  hwx5_5 : ∀ i : grid5.Coords, EltTy.bits .f32 = 32 ∨ (Rect.block (s := S2x2048x256) S1x128x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S4096x256.size a
  hwx6_0 : ∀ i : grid6.Coords, EltTy.bits .f32 = 32 ∨ (Rect.block (s := S4096x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S4096x128.size a
  hwx6_3 : ∀ i : grid6.Coords, EltTy.bits .f32 = 32 ∨ (Rect.block (s := S4096x128) S2048x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x8x128.size a ≤ S2x8x128.size a
  hwx6_4 : ∀ i : grid6.Coords, EltTy.bits .f32 = 32 ∨ (Rect.block (s := S2x8x128) S1x8x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x8x128.size a ≤ S2x8x128.size a
  hwx6_5 : ∀ i : grid6.Coords, EltTy.bits .f32 = 32 ∨ (Rect.block (s := S2x8x128) S1x8x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S4096x128.size a
  hwx7_0 : ∀ i : grid7.Coords, EltTy.bits .f32 = 32 ∨ (Rect.block (s := S4096x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2048x128.size a ≤ S4096x128.size a
  hwx7_5 : ∀ i : grid7.Coords, EltTy.bits .f32 = 32 ∨ (Rect.block (s := S4096x128) S2048x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S4096x128.size a
  hwx8_0 : ∀ i : grid8.Coords, EltTy.bits .f32 = 32 ∨ (Rect.block (s := S4096x128) S2048x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x64.size a ≤ S4096x64.size a
  hwx8_3 : ∀ i : grid8.Coords, EltTy.bits .f32 = 32 ∨ (Rect.block (s := S4096x64) S2048x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x8x64.size a ≤ S2x8x64.size a
  hwx8_4 : ∀ i : grid8.Coords, EltTy.bits .f32 = 32 ∨ (Rect.block (s := S2x8x64) S1x8x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1x8x64.size a ≤ S2x8x64.size a
  hwx8_5 : ∀ i : grid8.Coords, EltTy.bits .f32 = 32 ∨ (Rect.block (s := S2x8x64) S1x8x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x64.size a ≤ S4096x64.size a
  hwx9_0 : ∀ i : grid9.Coords, EltTy.bits .f32 = 32 ∨ (Rect.block (s := S4096x64) S2048x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2048x64.size a ≤ S4096x64.size a
  hwx9_5 : ∀ i : grid9.Coords, EltTy.bits .f32 = 32 ∨ (Rect.block (s := S4096x64) S2048x64.size (cc9_transform_5 i) (hinb9_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_v2) S4096x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x128.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x64x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x1x1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x1x1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x1x1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x1x1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x128x64x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47_0) S4096x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47_1) S1x8x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47_2) S1x8x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v47_0) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67_0) S4096x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v67_1) S1x8x256.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v67_2) S1x8x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v82) S1x128x64x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x1x1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x1x1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x1x1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x1x1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S1x128x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91_0) S2048x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v91_1) S1x8x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v91_2) S1x8x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v91_0) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v106) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v107) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v110) S2048x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v110) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v112) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113_0) S2048x64.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v113_1) S1x8x64.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v113_2) S1x8x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v113_0) S2048x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v129) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v130) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v131) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v132) S2048x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S2x2048x128 : Shape := ⟨3, ![2, 2048, 128]⟩
abbrev S2x64x128 : Shape := ⟨3, ![2, 64, 128]⟩
abbrev S128x256 : Shape := ⟨2, ![128, 256]⟩
abbrev S128 : Shape := ⟨1, ![128]⟩
abbrev S256x128 : Shape := ⟨2, ![256, 128]⟩
abbrev S256 : Shape := ⟨1, ![256]⟩
abbrev S256x256 : Shape := ⟨2, ![256, 256]⟩
abbrev S64x128 : Shape := ⟨2, ![64, 128]⟩
abbrev S64 : Shape := ⟨1, ![64]⟩
abbrev S128x128 : Shape := ⟨2, ![128, 128]⟩
abbrev S2x2048x1x128 : Shape := ⟨4, ![2, 2048, 1, 128]⟩
abbrev S2x1x64x128 : Shape := ⟨4, ![2, 1, 64, 128]⟩
abbrev S2x2048x64x128 : Shape := ⟨4, ![2, 2048, 64, 128]⟩
abbrev S_ : Shape := ⟨0, ![]⟩
abbrev S1x1x1x128 : Shape := ⟨4, ![1, 1, 1, 128]⟩
abbrev S2x2048x64x256 : Shape := ⟨4, ![2, 2048, 64, 256]⟩
abbrev S1x1x1x256 : Shape := ⟨4, ![1, 1, 1, 256]⟩
abbrev S2x2048x256 : Shape := ⟨3, ![2, 2048, 256]⟩
abbrev S1x1x128 : Shape := ⟨3, ![1, 1, 128]⟩
abbrev S2x2048x64 : Shape := ⟨3, ![2, 2048, 64]⟩
abbrev S1x1x64 : Shape := ⟨3, ![1, 1, 64]⟩

abbrev nBuf : Space → Nat
  | .hbm => 287
  | .vmem => 0
  | .smem => 0
  | _ => 0

abbrev hbmTy0_0 (i : Nat) : BufTy := match i % 128 with
  | 0 => ⟨S2x2048x128, .f32⟩
  | 1 => ⟨S2x64x128, .f32⟩
  | 2 => ⟨S128x256, .f32⟩
  | 3 => ⟨S128, .f32⟩
  | 4 => ⟨S128, .f32⟩
  | 5 => ⟨S256x128, .f32⟩
  | 6 => ⟨S256, .f32⟩
  | 7 => ⟨S256, .f32⟩
  | 8 => ⟨S256x256, .f32⟩
  | 9 => ⟨S256, .f32⟩
  | 10 => ⟨S256, .f32⟩
  | 11 => ⟨S128x256, .f32⟩
  | 12 => ⟨S128, .f32⟩
  | 13 => ⟨S128, .f32⟩
  | 14 => ⟨S128, .f32⟩
  | 15 => ⟨S64x128, .f32⟩
  | 16 => ⟨S64, .f32⟩
  | 17 => ⟨S64, .f32⟩
  | 18 => ⟨S64, .f32⟩
  | 19 => ⟨S128x128, .f32⟩
  | 20 => ⟨S128x128, .f32⟩
  | 21 => ⟨S2x2048x128, .f32⟩
  | 22 => ⟨S2x2048x1x128, .f32⟩
  | 23 => ⟨S2x64x128, .f32⟩
  | 24 => ⟨S2x1x64x128, .f32⟩
  | 25 => ⟨S2x2048x64x128, .f32⟩
  | 26 => ⟨S2x2048x64x128, .f32⟩
  | 27 => ⟨S2x2048x64x128, .f32⟩
  | 28 => ⟨S_, .f32⟩
  | 29 => ⟨S128, .f32⟩
  | 30 => ⟨S1x1x1x128, .f32⟩
  | 31 => ⟨S_, .f32⟩
  | 32 => ⟨S1x1x1x128, .f32⟩
  | 33 => ⟨S1x1x1x128, .f32⟩
  | 34 => ⟨S_, .i32⟩
  | 35 => ⟨S_, .f32⟩
  | 36 => ⟨S128, .f32⟩
  | 37 => ⟨S1x1x1x128, .f32⟩
  | 38 => ⟨S_, .f32⟩
  | 39 => ⟨S1x1x1x128, .f32⟩
  | 40 => ⟨S1x1x1x128, .f32⟩
  | 41 => ⟨S2x2048x64x128, .f32⟩
  | 42 => ⟨S2x2048x64x128, .f32⟩
  | 43 => ⟨S2x2048x64x128, .f32⟩
  | 44 => ⟨S_, .f32⟩
  | 45 => ⟨S_, .f32⟩
  | 46 => ⟨S_, .f32⟩
  | 47 => ⟨S_, .f32⟩
  | 48 => ⟨S128, .f32⟩
  | 49 => ⟨S1x1x1x128, .f32⟩
  | 50 => ⟨S1x1x1x128, .f32⟩
  | 51 => ⟨S1x1x1x128, .f32⟩
  | 52 => ⟨S_, .f32⟩
  | 53 => ⟨S_, .i1⟩
  | 54 => ⟨S_, .f32⟩
  | 55 => ⟨S_, .f32⟩
  | 56 => ⟨S1x1x1x128, .f32⟩
  | 57 => ⟨S1x1x1x128, .f32⟩
  | 58 => ⟨S2x2048x64x128, .f32⟩
  | 59 => ⟨S2x2048x64x128, .f32⟩
  | 60 => ⟨S1x1x1x128, .f32⟩
  | 61 => ⟨S2x2048x64x128, .f32⟩
  | 62 => ⟨S2x2048x64x128, .f32⟩
  | 63 => ⟨S_, .f32⟩
  | 64 => ⟨S1x1x1x128, .f32⟩
  | 65 => ⟨S1x1x1x128, .f32⟩
  | 66 => ⟨S1x1x1x128, .f32⟩
  | 67 => ⟨S2x2048x64x128, .f32⟩
  | 68 => ⟨S2x2048x64x128, .f32⟩
  | 69 => ⟨S1x1x1x128, .f32⟩
  | 70 => ⟨S2x2048x64x128, .f32⟩
  | 71 => ⟨S2x2048x64x128, .f32⟩
  | 72 => ⟨S_, .f32⟩
  | 73 => ⟨S2x2048x64x128, .f32⟩
  | 74 => ⟨S2x2048x64x128, .i1⟩
  | 75 => ⟨S_, .f32⟩
  | 76 => ⟨S2x2048x64x128, .f32⟩
  | 77 => ⟨S2x2048x64x128, .f32⟩
  | 78 => ⟨S2x2048x64x128, .f32⟩
  | 79 => ⟨S2x2048x64x256, .f32⟩
  | 80 => ⟨S_, .f32⟩
  | 81 => ⟨S256, .f32⟩
  | 82 => ⟨S1x1x1x256, .f32⟩
  | 83 => ⟨S_, .f32⟩
  | 84 => ⟨S1x1x1x256, .f32⟩
  | 85 => ⟨S1x1x1x256, .f32⟩
  | 86 => ⟨S_, .i32⟩
  | 87 => ⟨S_, .f32⟩
  | 88 => ⟨S256, .f32⟩
  | 89 => ⟨S1x1x1x256, .f32⟩
  | 90 => ⟨S_, .f32⟩
  | 91 => ⟨S1x1x1x256, .f32⟩
  | 92 => ⟨S1x1x1x256, .f32⟩
  | 93 => ⟨S2x2048x64x256, .f32⟩
  | 94 => ⟨S2x2048x64x256, .f32⟩
  | 95 => ⟨S2x2048x64x256, .f32⟩
  | 96 => ⟨S_, .f32⟩
  | 97 => ⟨S_, .f32⟩
  | 98 => ⟨S_, .f32⟩
  | 99 => ⟨S_, .f32⟩
  | 100 => ⟨S256, .f32⟩
  | 101 => ⟨S1x1x1x256, .f32⟩
  | 102 => ⟨S1x1x1x256, .f32⟩
  | 103 => ⟨S1x1x1x256, .f32⟩
  | 104 => ⟨S_, .f32⟩
  | 105 => ⟨S_, .i1⟩
  | 106 => ⟨S_, .f32⟩
  | 107 => ⟨S_, .f32⟩
  | 108 => ⟨S1x1x1x256, .f32⟩
  | 109 => ⟨S1x1x1x256, .f32⟩
  | 110 => ⟨S2x2048x64x256, .f32⟩
  | 111 => ⟨S2x2048x64x256, .f32⟩
  | 112 => ⟨S1x1x1x256, .f32⟩
  | 113 => ⟨S2x2048x64x256, .f32⟩
  | 114 => ⟨S2x2048x64x256, .f32⟩
  | 115 => ⟨S_, .f32⟩
  | 116 => ⟨S1x1x1x256, .f32⟩
  | 117 => ⟨S1x1x1x256, .f32⟩
  | 118 => ⟨S1x1x1x256, .f32⟩
  | 119 => ⟨S2x2048x64x256, .f32⟩
  | 120 => ⟨S2x2048x64x256, .f32⟩
  | 121 => ⟨S1x1x1x256, .f32⟩
  | 122 => ⟨S2x2048x64x256, .f32⟩
  | 123 => ⟨S2x2048x64x256, .f32⟩
  | 124 => ⟨S_, .f32⟩
  | 125 => ⟨S2x2048x64x256, .f32⟩
  | 126 => ⟨S2x2048x64x256, .i1⟩
  | 127 => ⟨S_, .f32⟩
  | _ => ⟨S2x2048x128, .f32⟩

abbrev hbmTy0_1 (i : Nat) : BufTy := match i % 128 with
  | 0 => ⟨S2x2048x64x256, .f32⟩
  | 1 => ⟨S2x2048x64x256, .f32⟩
  | 2 => ⟨S2x2048x64x256, .f32⟩
  | 3 => ⟨S2x2048x64x256, .f32⟩
  | 4 => ⟨S_, .f32⟩
  | 5 => ⟨S256, .f32⟩
  | 6 => ⟨S1x1x1x256, .f32⟩
  | 7 => ⟨S_, .f32⟩
  | 8 => ⟨S1x1x1x256, .f32⟩
  | 9 => ⟨S1x1x1x256, .f32⟩
  | 10 => ⟨S_, .i32⟩
  | 11 => ⟨S_, .f32⟩
  | 12 => ⟨S256, .f32⟩
  | 13 => ⟨S1x1x1x256, .f32⟩
  | 14 => ⟨S_, .f32⟩
  | 15 => ⟨S1x1x1x256, .f32⟩
  | 16 => ⟨S1x1x1x256, .f32⟩
  | 17 => ⟨S2x2048x64x256, .f32⟩
  | 18 => ⟨S2x2048x64x256, .f32⟩
  | 19 => ⟨S2x2048x64x256, .f32⟩
  | 20 => ⟨S_, .f32⟩
  | 21 => ⟨S_, .f32⟩
  | 22 => ⟨S_, .f32⟩
  | 23 => ⟨S_, .f32⟩
  | 24 => ⟨S256, .f32⟩
  | 25 => ⟨S1x1x1x256, .f32⟩
  | 26 => ⟨S1x1x1x256, .f32⟩
  | 27 => ⟨S1x1x1x256, .f32⟩
  | 28 => ⟨S_, .f32⟩
  | 29 => ⟨S_, .i1⟩
  | 30 => ⟨S_, .f32⟩
  | 31 => ⟨S_, .f32⟩
  | 32 => ⟨S1x1x1x256, .f32⟩
  | 33 => ⟨S1x1x1x256, .f32⟩
  | 34 => ⟨S2x2048x64x256, .f32⟩
  | 35 => ⟨S2x2048x64x256, .f32⟩
  | 36 => ⟨S1x1x1x256, .f32⟩
  | 37 => ⟨S2x2048x64x256, .f32⟩
  | 38 => ⟨S2x2048x64x256, .f32⟩
  | 39 => ⟨S_, .f32⟩
  | 40 => ⟨S1x1x1x256, .f32⟩
  | 41 => ⟨S1x1x1x256, .f32⟩
  | 42 => ⟨S1x1x1x256, .f32⟩
  | 43 => ⟨S2x2048x64x256, .f32⟩
  | 44 => ⟨S2x2048x64x256, .f32⟩
  | 45 => ⟨S1x1x1x256, .f32⟩
  | 46 => ⟨S2x2048x64x256, .f32⟩
  | 47 => ⟨S2x2048x64x256, .f32⟩
  | 48 => ⟨S_, .f32⟩
  | 49 => ⟨S2x2048x64x256, .f32⟩
  | 50 => ⟨S2x2048x64x256, .i1⟩
  | 51 => ⟨S_, .f32⟩
  | 52 => ⟨S2x2048x64x256, .f32⟩
  | 53 => ⟨S2x2048x64x256, .f32⟩
  | 54 => ⟨S2x2048x64x256, .f32⟩
  | 55 => ⟨S_, .f32⟩
  | 56 => ⟨S2x2048x256, .f32⟩
  | 57 => ⟨S2x2048x128, .f32⟩
  | 58 => ⟨S1x1x128, .f32⟩
  | 59 => ⟨S2x2048x128, .f32⟩
  | 60 => ⟨S2x2048x128, .f32⟩
  | 61 => ⟨S_, .f32⟩
  | 62 => ⟨S128, .f32⟩
  | 63 => ⟨S1x1x128, .f32⟩
  | 64 => ⟨S_, .f32⟩
  | 65 => ⟨S1x1x128, .f32⟩
  | 66 => ⟨S1x1x128, .f32⟩
  | 67 => ⟨S_, .i32⟩
  | 68 => ⟨S_, .f32⟩
  | 69 => ⟨S128, .f32⟩
  | 70 => ⟨S1x1x128, .f32⟩
  | 71 => ⟨S_, .f32⟩
  | 72 => ⟨S1x1x128, .f32⟩
  | 73 => ⟨S1x1x128, .f32⟩
  | 74 => ⟨S2x2048x128, .f32⟩
  | 75 => ⟨S2x2048x128, .f32⟩
  | 76 => ⟨S2x2048x128, .f32⟩
  | 77 => ⟨S_, .f32⟩
  | 78 => ⟨S_, .f32⟩
  | 79 => ⟨S_, .f32⟩
  | 80 => ⟨S_, .f32⟩
  | 81 => ⟨S128, .f32⟩
  | 82 => ⟨S1x1x128, .f32⟩
  | 83 => ⟨S1x1x128, .f32⟩
  | 84 => ⟨S1x1x128, .f32⟩
  | 85 => ⟨S_, .f32⟩
  | 86 => ⟨S_, .i1⟩
  | 87 => ⟨S_, .f32⟩
  | 88 => ⟨S_, .f32⟩
  | 89 => ⟨S1x1x128, .f32⟩
  | 90 => ⟨S1x1x128, .f32⟩
  | 91 => ⟨S2x2048x128, .f32⟩
  | 92 => ⟨S2x2048x128, .f32⟩
  | 93 => ⟨S1x1x128, .f32⟩
  | 94 => ⟨S2x2048x128, .f32⟩
  | 95 => ⟨S2x2048x128, .f32⟩
  | 96 => ⟨S_, .f32⟩
  | 97 => ⟨S1x1x128, .f32⟩
  | 98 => ⟨S1x1x128, .f32⟩
  | 99 => ⟨S1x1x128, .f32⟩
  | 100 => ⟨S2x2048x128, .f32⟩
  | 101 => ⟨S2x2048x128, .f32⟩
  | 102 => ⟨S1x1x128, .f32⟩
  | 103 => ⟨S2x2048x128, .f32⟩
  | 104 => ⟨S2x2048x128, .f32⟩
  | 105 => ⟨S_, .f32⟩
  | 106 => ⟨S2x2048x128, .f32⟩
  | 107 => ⟨S2x2048x128, .f32⟩
  | 108 => ⟨S2x2048x64, .f32⟩
  | 109 => ⟨S1x1x64, .f32⟩
  | 110 => ⟨S2x2048x64, .f32⟩
  | 111 => ⟨S2x2048x64, .f32⟩
  | 112 => ⟨S_, .f32⟩
  | 113 => ⟨S64, .f32⟩
  | 114 => ⟨S1x1x64, .f32⟩
  | 115 => ⟨S_, .f32⟩
  | 116 => ⟨S1x1x64, .f32⟩
  | 117 => ⟨S1x1x64, .f32⟩
  | 118 => ⟨S_, .i32⟩
  | 119 => ⟨S_, .f32⟩
  | 120 => ⟨S64, .f32⟩
  | 121 => ⟨S1x1x64, .f32⟩
  | 122 => ⟨S_, .f32⟩
  | 123 => ⟨S1x1x64, .f32⟩
  | 124 => ⟨S1x1x64, .f32⟩
  | 125 => ⟨S2x2048x64, .f32⟩
  | 126 => ⟨S2x2048x64, .f32⟩
  | 127 => ⟨S2x2048x64, .f32⟩
  | _ => ⟨S2x2048x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S64, .f32⟩
  | 5 => ⟨S1x1x64, .f32⟩
  | 6 => ⟨S1x1x64, .f32⟩
  | 7 => ⟨S1x1x64, .f32⟩
  | 8 => ⟨S_, .f32⟩
  | 9 => ⟨S_, .i1⟩
  | 10 => ⟨S_, .f32⟩
  | 11 => ⟨S_, .f32⟩
  | 12 => ⟨S1x1x64, .f32⟩
  | 13 => ⟨S1x1x64, .f32⟩
  | 14 => ⟨S2x2048x64, .f32⟩
  | 15 => ⟨S2x2048x64, .f32⟩
  | 16 => ⟨S1x1x64, .f32⟩
  | 17 => ⟨S2x2048x64, .f32⟩
  | 18 => ⟨S2x2048x64, .f32⟩
  | 19 => ⟨S_, .f32⟩
  | 20 => ⟨S1x1x64, .f32⟩
  | 21 => ⟨S1x1x64, .f32⟩
  | 22 => ⟨S1x1x64, .f32⟩
  | 23 => ⟨S2x2048x64, .f32⟩
  | 24 => ⟨S2x2048x64, .f32⟩
  | 25 => ⟨S1x1x64, .f32⟩
  | 26 => ⟨S2x2048x64, .f32⟩
  | 27 => ⟨S2x2048x64, .f32⟩
  | 28 => ⟨S_, .f32⟩
  | 29 => ⟨S2x2048x64, .f32⟩
  | 30 => ⟨S2x2048x64, .f32⟩
  | _ => ⟨S2x2048x128, .f32⟩

abbrev hbmTy (i : Nat) : BufTy := match i / 128 with
  | 0 => hbmTy0_0 i
  | 1 => hbmTy0_1 i
  | 2 => hbmTy0_2 i
  | _ => ⟨S2x2048x128, .f32⟩

abbrev bufTy : (tb : Table) → Fin (tcTables nBuf tb) → BufTy
  | .hbm, ⟨i, _⟩ => hbmTy i
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_cst_3 : Ref sig .tc := ⟨.hbm, 52, rfl⟩
abbrev main_call0_v13 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_1 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_2 : Ref sig .tc := ⟨.hbm, 72, rfl⟩
abbrev main_v27 : Ref sig .tc := ⟨.hbm, 73, rfl⟩
abbrev main_v28 : Ref sig .tc := ⟨.hbm, 74, rfl⟩
abbrev main_cst_3 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_4 : Ref sig .tc := ⟨.hbm, 80, rfl⟩
abbrev main_v33 : Ref sig .tc := ⟨.hbm, 81, rfl⟩
abbrev main_v34 : Ref sig .tc := ⟨.hbm, 82, rfl⟩
abbrev main_cst_5 : Ref sig .tc := ⟨.hbm, 83, rfl⟩
abbrev main_v35 : Ref sig .tc := ⟨.hbm, 84, rfl⟩
abbrev main_v36 : Ref sig .tc := ⟨.hbm, 85, rfl⟩
abbrev main_c_6 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_cst_3 : Ref sig .tc := ⟨.hbm, 104, rfl⟩
abbrev main_call2_v13 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_7 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_cst_8 : Ref sig .tc := ⟨.hbm, 124, rfl⟩
abbrev main_v51 : Ref sig .tc := ⟨.hbm, 125, rfl⟩
abbrev main_v52 : Ref sig .tc := ⟨.hbm, 126, rfl⟩
abbrev main_cst_9 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_cst_10 : Ref sig .tc := ⟨.hbm, 132, rfl⟩
abbrev main_v57 : Ref sig .tc := ⟨.hbm, 133, rfl⟩
abbrev main_v58 : Ref sig .tc := ⟨.hbm, 134, rfl⟩
abbrev main_cst_11 : Ref sig .tc := ⟨.hbm, 135, rfl⟩
abbrev main_v59 : Ref sig .tc := ⟨.hbm, 136, rfl⟩
abbrev main_v60 : Ref sig .tc := ⟨.hbm, 137, rfl⟩
abbrev main_c_12 : Ref sig .tc := ⟨.hbm, 138, rfl⟩
abbrev main_call4_cst : Ref sig .tc := ⟨.hbm, 139, rfl⟩
abbrev main_call4_v0 : Ref sig .tc := ⟨.hbm, 140, rfl⟩
abbrev main_call4_v1 : Ref sig .tc := ⟨.hbm, 141, rfl⟩
abbrev main_call4_cst_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_cst_1 : Ref sig .tc := ⟨.hbm, 149, rfl⟩
abbrev main_call4_v8 : Ref sig .tc := ⟨.hbm, 150, rfl⟩
abbrev main_call4_cst_2 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_v12 : Ref sig .tc := ⟨.hbm, 155, rfl⟩
abbrev main_call4_cst_3 : Ref sig .tc := ⟨.hbm, 156, rfl⟩
abbrev main_call4_v13 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_cst_13 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_cst_14 : Ref sig .tc := ⟨.hbm, 176, rfl⟩
abbrev main_v75 : Ref sig .tc := ⟨.hbm, 177, rfl⟩
abbrev main_v76 : Ref sig .tc := ⟨.hbm, 178, rfl⟩
abbrev main_cst_15 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_cst_16 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_cst_17 : Ref sig .tc := ⟨.hbm, 189, rfl⟩
abbrev main_v85 : Ref sig .tc := ⟨.hbm, 190, rfl⟩
abbrev main_v86 : Ref sig .tc := ⟨.hbm, 191, rfl⟩
abbrev main_cst_18 : Ref sig .tc := ⟨.hbm, 192, rfl⟩
abbrev main_v87 : Ref sig .tc := ⟨.hbm, 193, rfl⟩
abbrev main_v88 : Ref sig .tc := ⟨.hbm, 194, rfl⟩
abbrev main_c_19 : Ref sig .tc := ⟨.hbm, 195, rfl⟩
abbrev main_call6_cst : Ref sig .tc := ⟨.hbm, 196, rfl⟩
abbrev main_call6_v0 : Ref sig .tc := ⟨.hbm, 197, rfl⟩
abbrev main_call6_v1 : Ref sig .tc := ⟨.hbm, 198, rfl⟩
abbrev main_call6_cst_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_v7 : Ref sig .tc := ⟨.hbm, 205, rfl⟩
abbrev main_call6_cst_1 : Ref sig .tc := ⟨.hbm, 206, rfl⟩
abbrev main_call6_v8 : Ref sig .tc := ⟨.hbm, 207, rfl⟩
abbrev main_call6_cst_2 : Ref sig .tc := ⟨.hbm, 208, rfl⟩
abbrev main_call6_v9 : Ref sig .tc := ⟨.hbm, 209, rfl⟩
abbrev main_call6_v10 : Ref sig .tc := ⟨.hbm, 210, rfl⟩
abbrev main_call6_v11 : Ref sig .tc := ⟨.hbm, 211, rfl⟩
abbrev main_call6_v12 : Ref sig .tc := ⟨.hbm, 212, rfl⟩
abbrev main_call6_cst_3 : Ref sig .tc := ⟨.hbm, 213, rfl⟩
abbrev main_call6_v13 : Ref sig .tc := ⟨.hbm, 214, rfl⟩
abbrev main_call6_cst_4 : Ref sig .tc := ⟨.hbm, 215, rfl⟩
abbrev main_call6_call0_v0 : Ref sig .tc := ⟨.hbm, 216, rfl⟩
abbrev main_call6_call0_v1 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_cst_20 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_call7_cst : Ref sig .tc := ⟨.hbm, 233, rfl⟩
abbrev main_call7_v0 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_cst_21 : Ref sig .tc := ⟨.hbm, 240, rfl⟩
abbrev main_v108 : Ref sig .tc := ⟨.hbm, 241, rfl⟩
abbrev main_v109 : Ref sig .tc := ⟨.hbm, 242, rfl⟩
abbrev main_cst_22 : Ref sig .tc := ⟨.hbm, 243, rfl⟩
abbrev main_v110 : Ref sig .tc := ⟨.hbm, 244, rfl⟩
abbrev main_v111 : Ref sig .tc := ⟨.hbm, 245, rfl⟩
abbrev main_c_23 : Ref sig .tc := ⟨.hbm, 246, rfl⟩
abbrev main_call8_cst : Ref sig .tc := ⟨.hbm, 247, rfl⟩
abbrev main_call8_v0 : Ref sig .tc := ⟨.hbm, 248, rfl⟩
abbrev main_call8_v1 : Ref sig .tc := ⟨.hbm, 249, rfl⟩
abbrev main_call8_cst_0 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_call8_v5 : Ref sig .tc := ⟨.hbm, 254, rfl⟩
abbrev main_call8_v6 : Ref sig .tc := ⟨.hbm, 255, rfl⟩
abbrev main_call8_v7 : Ref sig .tc := ⟨.hbm, 256, rfl⟩
abbrev main_call8_cst_1 : Ref sig .tc := ⟨.hbm, 257, rfl⟩
abbrev main_call8_v8 : Ref sig .tc := ⟨.hbm, 258, rfl⟩
abbrev main_call8_cst_2 : Ref sig .tc := ⟨.hbm, 259, rfl⟩
abbrev main_call8_v9 : Ref sig .tc := ⟨.hbm, 260, rfl⟩
abbrev main_call8_v10 : Ref sig .tc := ⟨.hbm, 261, rfl⟩
abbrev main_call8_v11 : Ref sig .tc := ⟨.hbm, 262, rfl⟩
abbrev main_call8_v12 : Ref sig .tc := ⟨.hbm, 263, rfl⟩
abbrev main_call8_cst_3 : Ref sig .tc := ⟨.hbm, 264, rfl⟩
abbrev main_call8_v13 : Ref sig .tc := ⟨.hbm, 265, rfl⟩
abbrev main_call8_cst_4 : Ref sig .tc := ⟨.hbm, 266, rfl⟩
abbrev main_call8_call0_v0 : Ref sig .tc := ⟨.hbm, 267, rfl⟩
abbrev main_call8_call0_v1 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_cst_24 : Ref sig .tc := ⟨.hbm, 275, rfl⟩
abbrev main_v118 : Ref sig .tc := ⟨.hbm, 276, rfl⟩
abbrev main_v119 : Ref sig .tc := ⟨.hbm, 277, rfl⟩
abbrev main_v120 : Ref sig .tc := ⟨.hbm, 278, rfl⟩
abbrev main_v121 : Ref sig .tc := ⟨.hbm, 279, rfl⟩
abbrev main_v122 : Ref sig .tc := ⟨.hbm, 280, rfl⟩
abbrev main_v123 : Ref sig .tc := ⟨.hbm, 281, rfl⟩
abbrev main_v124 : Ref sig .tc := ⟨.hbm, 282, rfl⟩
abbrev main_v125 : Ref sig .tc := ⟨.hbm, 283, rfl⟩
abbrev main_call9_cst : Ref sig .tc := ⟨.hbm, 284, rfl⟩
abbrev main_call9_v0 : Ref sig .tc := ⟨.hbm, 285, rfl⟩
abbrev main_v126 : Ref sig .tc := ⟨.hbm, 286, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S2x2048x128_S2x2048x1x128_0_1_3 : S2x2048x128.BroadcastsInDim S2x2048x1x128 (![0, 1, 3] : Fin 3 → Fin S2x2048x1x128.rank)
  bcast_S2x64x128_S2x1x64x128_0_2_3 : S2x64x128.BroadcastsInDim S2x1x64x128 (![0, 2, 3] : Fin 3 → Fin S2x1x64x128.rank)
  bcast_S2x2048x1x128_S2x2048x64x128_0_1_2_3 : S2x2048x1x128.BroadcastsInDim S2x2048x64x128 (![0, 1, 2, 3] : Fin 4 → Fin S2x2048x64x128.rank)
  bcast_S2x1x64x128_S2x2048x64x128_0_1_2_3 : S2x1x64x128.BroadcastsInDim S2x2048x64x128 (![0, 1, 2, 3] : Fin 4 → Fin S2x2048x64x128.rank)
  reducesTo_S2x2048x64x128_S128_d0_1_2 : S2x2048x64x128.ReducesTo [0, 1, 2] S128
  h_S_ : 0 < S_.numel
  bcast_S128_S1x1x1x128_3 : S128.BroadcastsInDim S1x1x1x128 (![3] : Fin 1 → Fin S1x1x1x128.rank)
  bcast_S_S1x1x1x128 : S_.BroadcastsInDim S1x1x1x128 (![] : Fin 0 → Fin S1x1x1x128.rank)
  bcast_S1x1x1x128_S2x2048x64x128_0_1_2_3 : S1x1x1x128.BroadcastsInDim S2x2048x64x128 (![0, 1, 2, 3] : Fin 4 → Fin S2x2048x64x128.rank)
  bcast_S_S2x2048x64x128 : S_.BroadcastsInDim S2x2048x64x128 (![] : Fin 0 → Fin S2x2048x64x128.rank)
  reducesTo_S2x2048x64x256_S256_d0_1_2 : S2x2048x64x256.ReducesTo [0, 1, 2] S256
  bcast_S256_S1x1x1x256_3 : S256.BroadcastsInDim S1x1x1x256 (![3] : Fin 1 → Fin S1x1x1x256.rank)
  bcast_S_S1x1x1x256 : S_.BroadcastsInDim S1x1x1x256 (![] : Fin 0 → Fin S1x1x1x256.rank)
  bcast_S1x1x1x256_S2x2048x64x256_0_1_2_3 : S1x1x1x256.BroadcastsInDim S2x2048x64x256 (![0, 1, 2, 3] : Fin 4 → Fin S2x2048x64x256.rank)
  bcast_S_S2x2048x64x256 : S_.BroadcastsInDim S2x2048x64x256 (![] : Fin 0 → Fin S2x2048x64x256.rank)
  reducesTo_S2x2048x64x256_S2x2048x256_d2 : S2x2048x64x256.ReducesTo [2] S2x2048x256
  bcast_S128_S1x1x128_2 : S128.BroadcastsInDim S1x1x128 (![2] : Fin 1 → Fin S1x1x128.rank)
  bcast_S1x1x128_S2x2048x128_0_1_2 : S1x1x128.BroadcastsInDim S2x2048x128 (![0, 1, 2] : Fin 3 → Fin S2x2048x128.rank)
  reducesTo_S2x2048x128_S128_d0_1 : S2x2048x128.ReducesTo [0, 1] S128
  bcast_S_S1x1x128 : S_.BroadcastsInDim S1x1x128 (![] : Fin 0 → Fin S1x1x128.rank)
  bcast_S_S2x2048x128 : S_.BroadcastsInDim S2x2048x128 (![] : Fin 0 → Fin S2x2048x128.rank)
  bcast_S64_S1x1x64_2 : S64.BroadcastsInDim S1x1x64 (![2] : Fin 1 → Fin S1x1x64.rank)
  bcast_S1x1x64_S2x2048x64_0_1_2 : S1x1x64.BroadcastsInDim S2x2048x64 (![0, 1, 2] : Fin 3 → Fin S2x2048x64.rank)
  reducesTo_S2x2048x64_S64_d0_1 : S2x2048x64.ReducesTo [0, 1] S64
  bcast_S_S1x1x64 : S_.BroadcastsInDim S1x1x64 (![] : Fin 0 → Fin S1x1x64.rank)
  bcast_S_S2x2048x64 : S_.BroadcastsInDim S2x2048x64 (![] : Fin 0 → Fin S2x2048x64.rank)
  dot_S2x2048x128_S128x128_S2x2048x128_2_1_01_0_n_n_wf : DotDims.WF S2x2048x128 S128x128 S2x2048x128 [2] [1] [0, 1] [0] [] []
  dot_S2x64x128_S128x128_S2x64x128_2_1_01_0_n_n_wf : DotDims.WF S2x64x128 S128x128 S2x64x128 [2] [1] [0, 1] [0] [] []
  dot_S2x2048x64x128_S256x128_S2x2048x64x256_3_1_012_0_n_n_wf : DotDims.WF S2x2048x64x128 S256x128 S2x2048x64x256 [3] [1] [0, 1, 2] [0] [] []
  dot_S2x2048x64x256_S256x256_S2x2048x64x256_3_1_012_0_n_n_wf : DotDims.WF S2x2048x64x256 S256x256 S2x2048x64x256 [3] [1] [0, 1, 2] [0] [] []
  dot_S2x2048x256_S128x256_S2x2048x128_2_1_01_0_n_n_wf : DotDims.WF S2x2048x256 S128x256 S2x2048x128 [2] [1] [0, 1] [0] [] []
  dot_S2x2048x128_S64x128_S2x2048x64_2_1_01_0_n_n_wf : DotDims.WF S2x2048x128 S64x128 S2x2048x64 [2] [1] [0, 1] [0] [] []

variable [Facts₀]

def dot_S2x2048x128_S128x128_S2x2048x128_2_1_01_0_n_n : DotDims S2x2048x128 S128x128 S2x2048x128 where
  lhsContracting := [2]
  rhsContracting := [1]
  lhsNonContracting := [0, 1]
  rhsNonContracting := [0]
  lhsBatch := []
  rhsBatch := []
  wf := dot_S2x2048x128_S128x128_S2x2048x128_2_1_01_0_n_n_wf
def dot_S2x64x128_S128x128_S2x64x128_2_1_01_0_n_n : DotDims S2x64x128 S128x128 S2x64x128 where
  lhsContracting := [2]
  rhsContracting := [1]
  lhsNonContracting := [0, 1]
  rhsNonContracting := [0]
  lhsBatch := []
  rhsBatch := []
  wf := dot_S2x64x128_S128x128_S2x64x128_2_1_01_0_n_n_wf
def dot_S2x2048x64x128_S256x128_S2x2048x64x256_3_1_012_0_n_n : DotDims S2x2048x64x128 S256x128 S2x2048x64x256 where
  lhsContracting := [3]
  rhsContracting := [1]
  lhsNonContracting := [0, 1, 2]
  rhsNonContracting := [0]
  lhsBatch := []
  rhsBatch := []
  wf := dot_S2x2048x64x128_S256x128_S2x2048x64x256_3_1_012_0_n_n_wf
def dot_S2x2048x64x256_S256x256_S2x2048x64x256_3_1_012_0_n_n : DotDims S2x2048x64x256 S256x256 S2x2048x64x256 where
  lhsContracting := [3]
  rhsContracting := [1]
  lhsNonContracting := [0, 1, 2]
  rhsNonContracting := [0]
  lhsBatch := []
  rhsBatch := []
  wf := dot_S2x2048x64x256_S256x256_S2x2048x64x256_3_1_012_0_n_n_wf
def dot_S2x2048x256_S128x256_S2x2048x128_2_1_01_0_n_n : DotDims S2x2048x256 S128x256 S2x2048x128 where
  lhsContracting := [2]
  rhsContracting := [1]
  lhsNonContracting := [0, 1]
  rhsNonContracting := [0]
  lhsBatch := []
  rhsBatch := []
  wf := dot_S2x2048x256_S128x256_S2x2048x128_2_1_01_0_n_n_wf
def dot_S2x2048x128_S64x128_S2x2048x64_2_1_01_0_n_n : DotDims S2x2048x128 S64x128 S2x2048x64 where
  lhsContracting := [2]
  rhsContracting := [1]
  lhsNonContracting := [0, 1]
  rhsNonContracting := [0]
  lhsBatch := []
  rhsBatch := []
  wf := dot_S2x2048x128_S64x128_S2x2048x64_2_1_01_0_n_n_wf

class Facts : Prop extends Facts₀ where

variable [Facts]
-- ==== Proof.Spec.lean ====
import Idealize.ShloMosaic.PureOps.Ideal
import Idealize.ShloMosaic.Lib.ValueIdx

noncomputable section

namespace Cert.RN

open Idealize.ShloMosaic

structure Inp where
  x : Fin 2 → Fin 2048 → Fin 128 → ℝ
  ce : Fin 2 → Fin 64 → Fin 128 → ℝ
  W1 : Fin 128 → Fin 256 → ℝ
  g1 : Fin 128 → ℝ
  b1 : Fin 128 → ℝ
  W2 : Fin 256 → Fin 128 → ℝ
  g2 : Fin 256 → ℝ
  b2 : Fin 256 → ℝ
  W3 : Fin 256 → Fin 256 → ℝ
  g3 : Fin 256 → ℝ
  b3 : Fin 256 → ℝ
  F1 : Fin 128 → Fin 256 → ℝ
  f1b : Fin 128 → ℝ
  g4 : Fin 128 → ℝ
  b4 : Fin 128 → ℝ
  F2 : Fin 64 → Fin 128 → ℝ
  f2b : Fin 64 → ℝ
  g5 : Fin 64 → ℝ
  b5 : Fin 64 → ℝ

def Is1 {a : Nat} (A : (⟨1, ![a]⟩ : Shape).Idx → EReal) (f : Fin a → ℝ) : Prop :=
  ∀ i, A (ValueIdx.ix1 i) = ((f i : ℝ) : EReal)
def Is2 {a b : Nat} (A : (⟨2, ![a, b]⟩ : Shape).Idx → EReal) (f : Fin a → Fin b → ℝ) : Prop :=
  ∀ i j, A (ValueIdx.ix2 i j) = ((f i j : ℝ) : EReal)
def Is3 {a b c : Nat} (A : (⟨3, ![a, b, c]⟩ : Shape).Idx → EReal) (f : Fin a → Fin b → Fin c → ℝ) : Prop :=
  ∀ i j k, A (ValueIdx.ix3 i j k) = ((f i j k : ℝ) : EReal)
def Is4 {a b c d : Nat} (A : (⟨4, ![a, b, c, d]⟩ : Shape).Idx → EReal) (f : Fin a → Fin b → Fin c → Fin d → ℝ) : Prop :=
  ∀ i j k l, A (ValueIdx.ix4 i j k l) = ((f i j k l : ℝ) : EReal)

def rowB (r : Fin 262144) : Fin 2 := ⟨r.val / 131072, by have := r.isLt; omega⟩
def rowN (r : Fin 262144) : Fin 2048 := ⟨r.val / 64 % 2048, by omega⟩
def rowM (r : Fin 262144) : Fin 64 := ⟨r.val % 64, by omega⟩
def rB (r : Fin 4096) : Fin 2 := ⟨r.val / 2048, by have := r.isLt; omega⟩
def rN (r : Fin 4096) : Fin 2048 := ⟨r.val % 2048, by omega⟩

variable (ε σ : ℝ) (I : Inp)

def bnv (g β μ v x : ℝ) : ℝ := g * (x - μ) * (Real.sqrt (v + ε))⁻¹ + β

def lrelu (z : ℝ) : ℝ := if 0 ≤ z then z else σ * z

def mean3 {C : Nat} (X : Fin 2 → Fin 2048 → Fin 64 → Fin C → ℝ) (c : Fin C) : ℝ :=
  (∑ b, ∑ n, ∑ m, X b n m c) / 262144
def var3 {C : Nat} (X : Fin 2 → Fin 2048 → Fin 64 → Fin C → ℝ) (c : Fin C) : ℝ :=
  (∑ b, ∑ n, ∑ m, (X b n m c - mean3 X c) ^ 2) / 262144

def mean2 {C : Nat} (X : Fin 2 → Fin 2048 → Fin C → ℝ) (c : Fin C) : ℝ :=
  (∑ b, ∑ n, X b n c) / 4096
def var2 {C : Nat} (X : Fin 2 → Fin 2048 → Fin C → ℝ) (c : Fin C) : ℝ :=
  (∑ b, ∑ n, (X b n c - mean2 X c) ^ 2) / 4096

def pp (b : Fin 2) (n : Fin 2048) (o : Fin 128) : ℝ := ∑ k : Fin 128, I.x b n k * I.W1 o ⟨k.val, by omega⟩
def cp (b : Fin 2) (m : Fin 64) (o : Fin 128) : ℝ := ∑ k : Fin 128, I.ce b m k * I.W1 o ⟨k.val + 128, by omega⟩
def h0 (b : Fin 2) (n : Fin 2048) (m : Fin 64) (c : Fin 128) : ℝ := pp I b n c + cp I b m c
def h1 (b : Fin 2) (n : Fin 2048) (m : Fin 64) (c : Fin 128) : ℝ :=
  lrelu σ (bnv ε (I.g1 c) (I.b1 c) (mean3 (h0 I) c) (var3 (h0 I) c) (h0 I b n m c))
def y2 (b : Fin 2) (n : Fin 2048) (m : Fin 64) (o : Fin 256) : ℝ := ∑ k : Fin 128, h1 ε σ I b n m k * I.W2 o k
def h2 (b : Fin 2) (n : Fin 2048) (m : Fin 64) (c : Fin 256) : ℝ :=
  lrelu σ (bnv ε (I.g2 c) (I.b2 c) (mean3 (y2 ε σ I) c) (var3 (y2 ε σ I) c) (y2 ε σ I b n m c))
def y3 (b : Fin 2) (n : Fin 2048) (m : Fin 64) (o : Fin 256) : ℝ := ∑ k : Fin 256, h2 ε σ I b n m k * I.W3 o k
def h3 (b : Fin 2) (n : Fin 2048) (m : Fin 64) (c : Fin 256) : ℝ :=
  lrelu σ (bnv ε (I.g3 c) (I.b3 c) (mean3 (y3 ε σ I) c) (var3 (y3 ε σ I) c) (y3 ε σ I b n m c))

def hmax (b : Fin 2) (n : Fin 2048) (c : Fin 256) : ℝ :=
  Finset.univ.sup' Finset.univ_nonempty fun m : Fin 64 => h3 ε σ I b n m c
def y4 (b : Fin 2) (n : Fin 2048) (o : Fin 128) : ℝ := (∑ k : Fin 256, hmax ε σ I b n k * I.F1 o k) + I.f1b o
def h4 (b : Fin 2) (n : Fin 2048) (o : Fin 128) : ℝ :=
  max (bnv ε (I.g4 o) (I.b4 o) (mean2 (y4 ε σ I) o) (var2 (y4 ε σ I) o) (y4 ε σ I b n o)) 0
def y5 (b : Fin 2) (n : Fin 2048) (o : Fin 64) : ℝ := (∑ k : Fin 128, h4 ε σ I b n k * I.F2 o k) + I.f2b o
def h5 (b : Fin 2) (n : Fin 2048) (o : Fin 64) : ℝ :=
  max (bnv ε (I.g5 o) (I.b5 o) (mean2 (y5 ε σ I) o) (var2 (y5 ε σ I) o) (y5 ε σ I b n o)) 0

def cpf (r : Fin 128) (o : Fin 128) : ℝ := cp I ⟨r.val / 64, by have := r.isLt; omega⟩ ⟨r.val % 64, by omega⟩ o
def ppf (r : Fin 4096) (o : Fin 128) : ℝ := pp I (rB r) (rN r) o
def y2f (r : Fin 262144) (o : Fin 256) : ℝ := y2 ε σ I (rowB r) (rowN r) (rowM r) o
def y3f (r : Fin 262144) (o : Fin 256) : ℝ := y3 ε σ I (rowB r) (rowN r) (rowM r) o
def y4f (r : Fin 4096) (o : Fin 128) : ℝ := y4 ε σ I (rB r) (rN r) o
def h4f (r : Fin 4096) (o : Fin 128) : ℝ := h4 ε σ I (rB r) (rN r) o
def y5f (r : Fin 4096) (o : Fin 64) : ℝ := y5 ε σ I (rB r) (rN r) o

def tsum3 {C : Nat} (f : Fin 262144 → Fin C → ℝ) (t : Fin 64) (o : Fin C) : ℝ :=
  ∑ r : Fin 4096, f ⟨4096 * t.val + r.val, by have := t.isLt; have := r.isLt; omega⟩ o
def tsum2 {C : Nat} (f : Fin 4096 → Fin C → ℝ) (t : Fin 2) (o : Fin C) : ℝ :=
  ∑ r : Fin 2048, f ⟨2048 * t.val + r.val, by have := t.isLt; have := r.isLt; omega⟩ o

end Cert.RN

end
-- ==== Proof.LibReal.lean ====
import Idealize.ShloMosaic.PureOps.Ideal
import Idealize.ShloMosaic.PureOps.Ideal.Laws
import Idealize.ShloMosaic.Lib.ValueIdx
import proofs.«428405_j30648886624750_3_alg».proof.Proof.Spec

noncomputable section

namespace Cert.RN

open Idealize.ShloMosaic

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by

  rw [Ideal.div_coe hy, ← EReal.coe_mul, mul_one_div]

theorem rsqrt_coe_pos (r : ℝ) (h : 0 < r) : Ideal.rsqrt (r : EReal) = (((Real.sqrt r)⁻¹ : ℝ) : EReal) := by

  rw [Ideal.rsqrt_coe, if_neg (not_lt.mpr h.le), if_neg h.ne']

theorem bnv_coe (ε g β μ v x : ℝ) (h : 0 < v + ε) :
    (g : EReal) * ((x : EReal) - (μ : EReal)) * Ideal.rsqrt ((v : EReal) + (ε : EReal)) + (β : EReal)
      = ((bnv ε g β μ v x : ℝ) : EReal) := by

  rw [← EReal.coe_add v ε, rsqrt_coe_pos _ h, ← EReal.coe_sub, ← EReal.coe_mul, ← EReal.coe_mul, ← EReal.coe_add]
  rfl

theorem lrelu_coe (σ z : ℝ) :
    Scalar.select (Ideal.cmp .oge (z : EReal) 0) (z : EReal) ((σ : EReal) * (z : EReal)) = ((lrelu σ z : ℝ) : EReal) := by
  unfold Ideal.cmp lrelu

  by_cases hz : 0 ≤ z
  · have h' : (0 : EReal) ≤ (z : EReal) := EReal.coe_nonneg.mpr hz
    simp only [h', decide_true, BitVec.ofBool_true, hz, if_true]
    exact if_pos rfl
  · have h' : ¬ (0 : EReal) ≤ (z : EReal) := fun hh => hz (EReal.coe_nonneg.mp hh)
    simp only [h', decide_false, BitVec.ofBool_false, hz, if_false, EReal.coe_mul]
    exact if_neg (by decide)

theorem relu_coe (z : ℝ) : max (z : EReal) 0 = ((max z 0 : ℝ) : EReal) := by

  rw [← EReal.coe_zero]
  exact (EReal.coe_strictMono.monotone.map_max).symm

theorem fold_max_coe {n : Nat} (hn : (Finset.univ : Finset (Fin n)).Nonempty) (f : Fin n → ℝ) :
    (Finset.univ : Finset (Fin n)).fold max (⊥ : EReal) (fun m => ((f m : ℝ) : EReal))
      = ((Finset.univ.sup' hn f : ℝ) : EReal) := by
  apply le_antisymm
  ·
    rw [Finset.fold_max_le]
    exact ⟨bot_le, fun m hm => EReal.coe_le_coe_iff.mpr (Finset.le_sup' f hm)⟩
  ·
    obtain ⟨m, hm, hmax⟩ := Finset.exists_mem_eq_sup' hn f
    rw [hmax, Finset.le_fold_max]
    exact Or.inr ⟨m, hm, le_refl _⟩

theorem var_clip_eq {ι : Type*} [Fintype ι] (x : ι → ℝ) (N : ℝ) (hN : N = (Fintype.card ι : ℝ)) (h0 : N ≠ 0) :
    max ((∑ i, x i * x i) / N - ((∑ i, x i) / N) * ((∑ i, x i) / N)) 0
      = (∑ i, (x i - (∑ j, x j) / N) ^ 2) / N := by
  have hN0 : 0 < N := by
    rw [hN] at h0 ⊢
    exact lt_of_le_of_ne (Nat.cast_nonneg _) (Ne.symm h0)
  generalize hS : (∑ i, x i) = S

  have key : (∑ i, (x i - S / N) ^ 2) = (∑ i, x i * x i) - 2 * (S / N) * S + N * (S / N) ^ 2 := by
    have h1 : ∀ i, (x i - S / N) ^ 2 = x i * x i - 2 * (S / N) * x i + (S / N) ^ 2 := fun i => by ring
    simp only [h1]
    rw [Finset.sum_add_distrib, Finset.sum_sub_distrib, ← Finset.mul_sum, hS, Finset.sum_const, Finset.card_univ,
      nsmul_eq_mul, ← hN]

  have eq : (∑ i, x i * x i) / N - (S / N) * (S / N) = (∑ i, (x i - S / N) ^ 2) / N := by
    rw [key]; field_simp; ring
  rw [eq]

  exact max_eq_left (div_nonneg (Finset.sum_nonneg fun i _ => sq_nonneg _) hN0.le)

theorem var3_nonneg {C : Nat} (X : Fin 2 → Fin 2048 → Fin 64 → Fin C → ℝ) (c : Fin C) : 0 ≤ var3 X c := by
  unfold var3
  exact div_nonneg (Finset.sum_nonneg fun b _ => Finset.sum_nonneg fun n _ => Finset.sum_nonneg fun m _ => sq_nonneg _)
    (by norm_num)
theorem var2_nonneg {C : Nat} (X : Fin 2 → Fin 2048 → Fin C → ℝ) (c : Fin C) : 0 ≤ var2 X c := by
  unfold var2
  exact div_nonneg (Finset.sum_nonneg fun b _ => Finset.sum_nonneg fun n _ => sq_nonneg _) (by norm_num)

theorem var3_clip {C : Nat} (X : Fin 2 → Fin 2048 → Fin 64 → Fin C → ℝ) (c : Fin C) :
    max ((∑ b, ∑ n, ∑ m, X b n m c * X b n m c) / 262144 - mean3 X c * mean3 X c) 0 = var3 X c := by

  have h := var_clip_eq (ι := Fin 2 × Fin 2048 × Fin 64) (fun p => X p.1 p.2.1 p.2.2 c) 262144
    (by simp [Fintype.card_prod]) (by norm_num)
  simp only [Fintype.sum_prod_type] at h
  unfold var3 mean3
  exact h

theorem var2_clip {C : Nat} (X : Fin 2 → Fin 2048 → Fin C → ℝ) (c : Fin C) :
    max ((∑ b, ∑ n, X b n c * X b n c) / 4096 - mean2 X c * mean2 X c) 0 = var2 X c := by

  have h := var_clip_eq (ι := Fin 2 × Fin 2048) (fun p => X p.1 p.2 c) 4096
    (by simp [Fintype.card_prod]) (by norm_num)
  simp only [Fintype.sum_prod_type] at h
  unfold var2 mean2
  exact h

theorem sum_tiles (T R : Nat) (f : Fin (T * R) → ℝ) :
    ∑ i, f i = ∑ t : Fin T, ∑ r : Fin R, f ⟨R * t.val + r.val, by
      have := t.isLt; have := r.isLt; nlinarith [Nat.mul_le_mul_left R (Nat.succ_le_of_lt t.isLt)]⟩ := by

  rw [← (finProdFinEquiv (m := T) (n := R)).sum_comp, Fintype.sum_prod_type]
  refine Finset.sum_congr rfl fun t _ => Finset.sum_congr rfl fun r _ => ?_
  congr 1
  apply Fin.ext
  simp only [finProdFinEquiv_apply_val]
  exact Nat.add_comm _ _

theorem sum_tiles_of_eq (T R N : Nat) (h : N = T * R) (f : Fin N → ℝ) :
    ∑ i, f i = ∑ t : Fin T, ∑ r : Fin R, f ⟨R * t.val + r.val, by
      have := t.isLt; have := r.isLt; rw [h]; nlinarith [Nat.mul_le_mul_left R (Nat.succ_le_of_lt t.isLt)]⟩ := by
  subst h
  exact sum_tiles T R f

theorem sum_rows3 (f : Fin 262144 → ℝ) :
    ∑ r, f r = ∑ b : Fin 2, ∑ n : Fin 2048, ∑ m : Fin 64, f ⟨(b.val * 2048 + n.val) * 64 + m.val, by omega⟩ := by

  rw [sum_tiles_of_eq 4096 64 262144 (by norm_num) f,
    sum_tiles_of_eq 2 2048 4096 (by norm_num)
      (fun t : Fin 4096 => ∑ m : Fin 64, f ⟨64 * t.val + m.val, by have := t.isLt; have := m.isLt; omega⟩)]
  refine Finset.sum_congr rfl fun b _ => Finset.sum_congr rfl fun n _ => Finset.sum_congr rfl fun m _ => ?_
  congr 1
  apply Fin.ext
  show 64 * (2048 * b.val + n.val) + m.val = (b.val * 2048 + n.val) * 64 + m.val
  ring

theorem sum_rows2 (f : Fin 4096 → ℝ) :
    ∑ r, f r = ∑ b : Fin 2, ∑ n : Fin 2048, f ⟨b.val * 2048 + n.val, by omega⟩ := by
  rw [sum_tiles_of_eq 2 2048 4096 (by norm_num) f]
  refine Finset.sum_congr rfl fun b _ => Finset.sum_congr rfl fun n _ => ?_
  congr 1
  apply Fin.ext
  show 2048 * b.val + n.val = b.val * 2048 + n.val
  ring

end Cert.RN

end
-- ==== Proof.LibReduce.lean ====
import Idealize.ShloMosaic.PureOps.Ideal
import Idealize.ShloMosaic.PureOps.Ideal.Laws
import Idealize.ShloMosaic.PureOps.Reduce
import Idealize.ShloMosaic.Lib.ValueIdx

noncomputable section

namespace Cert.RN

open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem hostReduceAdd_012 {a b c d : Nat} (h : (⟨4, ![a, b, c, d]⟩ : Shape).ReducesTo [0, 1, 2] ⟨1, ![d]⟩)
    (x : (⟨4, ![a, b, c, d]⟩ : Shape).Idx → EReal) (init : EReal) (j : Fin d) :
    Ideal.hostReduceAdd h x init (ix1 j) = init + ∑ i : Fin a, ∑ k : Fin b, ∑ l : Fin c, x (ix4 i k l j) := by
  unfold Ideal.hostReduceAdd
  congr 1
  rw [Finset.sum_filter, sum_idx4]
  refine Finset.sum_congr rfl fun i _ => Finset.sum_congr rfl fun k _ => Finset.sum_congr rfl fun l _ => ?_

  have key : ∀ j' : Fin d, h.drop (ix4 i k l j') = ix1 j ↔ j' = j := by
    intro j'
    constructor
    · intro e
      have e0 := congrFun e 0
      exact Fin.ext (congrArg Fin.val e0)
    · rintro rfl
      funext q
      match q with
      | ⟨0, _⟩ => exact Fin.ext rfl
  simp only [key]
  rw [Finset.sum_ite_eq']
  simp

theorem hostReduceAdd_01 {a b d : Nat} (h : (⟨3, ![a, b, d]⟩ : Shape).ReducesTo [0, 1] ⟨1, ![d]⟩)
    (x : (⟨3, ![a, b, d]⟩ : Shape).Idx → EReal) (init : EReal) (j : Fin d) :
    Ideal.hostReduceAdd h x init (ix1 j) = init + ∑ i : Fin a, ∑ k : Fin b, x (ix3 i k j) := by
  unfold Ideal.hostReduceAdd
  congr 1
  rw [Finset.sum_filter, sum_idx3]
  refine Finset.sum_congr rfl fun i _ => Finset.sum_congr rfl fun k _ => ?_

  have key : ∀ j' : Fin d, h.drop (ix3 i k j') = ix1 j ↔ j' = j := by
    intro j'
    constructor
    · intro e
      have e0 := congrFun e 0
      exact Fin.ext (congrArg Fin.val e0)
    · rintro rfl
      funext q
      match q with
      | ⟨0, _⟩ => exact Fin.ext rfl
  simp only [key]
  rw [Finset.sum_ite_eq']
  simp

theorem hostReduceAdd_1of3 {a b d : Nat} (h : (⟨3, ![a, b, d]⟩ : Shape).ReducesTo [1] ⟨2, ![a, d]⟩)
    (x : (⟨3, ![a, b, d]⟩ : Shape).Idx → EReal) (init : EReal) (i : Fin a) (j : Fin d) :
    Ideal.hostReduceAdd h x init (ix2 i j) = init + ∑ k : Fin b, x (ix3 i k j) := by
  unfold Ideal.hostReduceAdd
  congr 1
  rw [Finset.sum_filter, sum_idx3]

  have key : ∀ (i' : Fin a) (k : Fin b) (j' : Fin d), h.drop (ix3 i' k j') = ix2 i j ↔ (i' = i ∧ j' = j) := by
    intro i' k j'
    constructor
    · intro e
      have e0 := congrFun e 0
      have e1 := congrFun e 1
      exact ⟨Fin.ext (congrArg Fin.val e0), Fin.ext (congrArg Fin.val e1)⟩
    · rintro ⟨rfl, rfl⟩
      funext q
      match q with
      | ⟨0, _⟩ => exact Fin.ext rfl
      | ⟨1, _⟩ => exact Fin.ext rfl
  simp only [key]
  rw [Finset.sum_eq_single i]
  · refine Finset.sum_congr rfl fun k _ => ?_
    rw [Finset.sum_eq_single j]
    · simp
    · intro j' _ hj; simp [hj]
    · intro hj; exact absurd (Finset.mem_univ _) hj
  · intro i' _ hi; simp [hi]
  · intro hi; exact absurd (Finset.mem_univ _) hi

theorem hostReduceAdd_0of2 {a d : Nat} (h : (⟨2, ![a, d]⟩ : Shape).ReducesTo [0] ⟨1, ![d]⟩)
    (x : (⟨2, ![a, d]⟩ : Shape).Idx → EReal) (init : EReal) (j : Fin d) :
    Ideal.hostReduceAdd h x init (ix1 j) = init + ∑ i : Fin a, x (ix2 i j) := by
  unfold Ideal.hostReduceAdd
  congr 1
  rw [Finset.sum_filter, sum_idx2]
  refine Finset.sum_congr rfl fun i _ => ?_

  have key : ∀ j' : Fin d, h.drop (ix2 i j') = ix1 j ↔ j' = j := by
    intro j'
    constructor
    · intro e
      have e0 := congrFun e 0
      exact Fin.ext (congrArg Fin.val e0)
    · rintro rfl
      funext q
      match q with
      | ⟨0, _⟩ => exact Fin.ext rfl
  simp only [key]
  rw [Finset.sum_ite_eq']
  simp

end Cert.RN

end
-- ==== Proof.Consts.lean ====
import Idealize.ShloMosaic.PureOps.Ideal
import Idealize.ShloMosaic.PureOps.Ideal.Laws

noncomputable section

namespace Cert.RN

open Idealize.ShloMosaic

theorem c2 : Ideal.ofBits .f32 0x40000000#32 = ((2 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c64 : Ideal.ofBits .f32 0x42800000#32 = ((64 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num
theorem c4096 : Ideal.ofBits .f32 0x45800000#32 = ((4096 : ℝ) : EReal) := by
  simp [Ideal.ofBits, Ideal.ieee, -EReal.coe_mul]; norm_num
theorem c262144 : Ideal.ofBits .f32 0x48800000#32 = ((262144 : ℝ) : EReal) := by
  simp [Ideal.ofBits, Ideal.ieee, -EReal.coe_mul]; norm_num

theorem c0 : Ideal.ofBits .f32 0x00000000#32 = ((0 : ℝ) : EReal) := by
  simp [Ideal.ofBits, Ideal.ieee]

theorem cNegInf : Ideal.ofBits .f32 0xFF800000#32 = (⊥ : EReal) := by
  simp [Ideal.ofBits, Ideal.ieee]

theorem eps_val : Ideal.ofBits .f32 0x3727C5AC#32 = (((10995116 : ℝ) * (2 : ℝ) ^ (-40 : Int) : ℝ) : EReal) := by
  simp [Ideal.ofBits, Ideal.ieee, -EReal.coe_mul]

theorem slope_val : Ideal.ofBits .f32 0x3E4CCCCD#32 = (((13421773 : ℝ) * (2 : ℝ) ^ (-26 : Int) : ℝ) : EReal) := by
  simp [Ideal.ofBits, Ideal.ieee, -EReal.coe_mul]

def epsR : ℝ := (Ideal.ofBits .f32 0x3727C5AC#32).toReal
theorem eps_eq : Ideal.ofBits .f32 0x3727C5AC#32 = ((epsR : ℝ) : EReal) := by
  unfold epsR; rw [eps_val, EReal.toReal_coe]
theorem eps_pos : 0 < epsR := by
  unfold epsR; rw [eps_val, EReal.toReal_coe]; positivity

def slopeR : ℝ := (Ideal.ofBits .f32 0x3E4CCCCD#32).toReal
theorem slope_eq : Ideal.ofBits .f32 0x3E4CCCCD#32 = ((slopeR : ℝ) : EReal) := by
  unfold slopeR; rw [slope_val, EReal.toReal_coe]

end Cert.RN

end
-- ==== Proof.KConv3Math.lean ====
import Idealize.ShloMosaic.PureOps.Ideal
import Idealize.ShloMosaic.PureOps.Ideal.Laws
import Idealize.ShloMosaic.Lib.ValueIdx
import Idealize.ShloMosaic.Lib.KernelVsHost
import Idealize.ShloMosaic.Lib.StackMember
import proofs.«428405_j30648886624750_3_alg».proof.Proof.Spec
import proofs.«428405_j30648886624750_3_alg».proof.Proof.LibReal
import proofs.«428405_j30648886624750_3_alg».proof.Proof.Consts

noncomputable section

namespace Cert.KRN

open Idealize.ShloMosaic Idealize.ShloMosaic.ValueIdx Cert.RN

def tileRow (t : Fin 64) (p : Fin 4096) : Fin 262144 :=
  ⟨4096 * t.val + p.val, by have := t.isLt; have := p.isLt; omega⟩

-- A product of an M × K by a K × N block into the zero accumulator, read at an entry.
theorem matmul_plain_entry {M K N : Nat} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (r : Fin M) (o : Fin N) :
    matmul D none A B (constant ⟨2, ![M, N]⟩ .f32 0x00000000#32) (ix2 r o) = ∑ c : Fin K, A (ix2 r c) * B (ix2 c o) := by
  subst hD
  rw [matmul_zero_eq_dotGeneral]
  exact StackMember.dotGeneral_plain_apply none A B r o

theorem dot_coe {n : Nat} (a b : Fin n → ℝ) :
    (∑ k : Fin n, ((a k : ℝ) : EReal) * ((b k : ℝ) : EReal)) = ((∑ k : Fin n, a k * b k : ℝ) : EReal) := by
  rw [← coe_sum]
  exact Finset.sum_congr rfl fun k _ => (EReal.coe_mul _ _).symm

-- Over one tile of rows the column sums of coerced reals, and of their squares, are the coerced tile sums.
theorem tile_coe (Y : Fin 262144 → Fin 256 → ℝ) (t : Fin 64) (o : Fin 256) (P : Fin 4096 → EReal)
    (hP : ∀ p, P p = ((Y (tileRow t p) o : ℝ) : EReal)) :
    (∑ p, P p) = ((tsum3 Y t o : ℝ) : EReal)
      ∧ (∑ p, P p * P p) = ((tsum3 (fun r o => Y r o * Y r o) t o : ℝ) : EReal) :=
  ⟨(Finset.sum_congr rfl fun p _ => hP p).trans (coe_sum _ fun p => Y (tileRow t p) o),
    (Finset.sum_congr rfl fun p _ => by rw [hP p, ← EReal.coe_mul]).trans
      (coe_sum _ fun p => Y (tileRow t p) o * Y (tileRow t p) o)⟩

namespace Conv3

def h2f (I : Inp) (r : Fin 262144) (k : Fin 256) : ℝ :=
  lrelu slopeR (bnv epsR (I.g2 k) (I.b2 k) (mean3 (y2 epsR slopeR I) k) (var3 (y2 epsR slopeR I) k) (y2f epsR slopeR I r k))

theorem y3f_eq (I : Inp) (r : Fin 262144) (o : Fin 256) :
    y3f epsR slopeR I r o = ∑ k : Fin 256, h2f I r k * I.W3 o k := rfl

def actE (x μ v g β : EReal) : EReal :=
  Scalar.select
    (Ideal.cmp .oge (g * (x - μ) * Ideal.rsqrt (v + Ideal.ofBits .f32 0x3727C5AC#32) + β) (Ideal.ofBits .f32 0x00000000#32))
    (g * (x - μ) * Ideal.rsqrt (v + Ideal.ofBits .f32 0x3727C5AC#32) + β)
    (Ideal.ofBits .f32 0x3E4CCCCD#32 * (g * (x - μ) * Ideal.rsqrt (v + Ideal.ofBits .f32 0x3727C5AC#32) + β))

theorem actE_coe (x μ v g β : ℝ) (hv : 0 ≤ v) :
    actE (x : EReal) (μ : EReal) (v : EReal) (g : EReal) (β : EReal) = ((lrelu slopeR (bnv epsR g β μ v x) : ℝ) : EReal) := by
  unfold actE
  rw [eps_eq, slope_eq, Ideal.ofBits_zero_f32, bnv_coe epsR g β μ v x (by have := eps_pos; linarith)]
  exact lrelu_coe slopeR _

theorem row_coe (I : Inp) (r : Fin 262144) (o : Fin 256) (X M V G B Wt : Fin 256 → EReal)
    (hX : ∀ k, X k = ((y2f epsR slopeR I r k : ℝ) : EReal))
    (hM : ∀ k, M k = ((mean3 (y2 epsR slopeR I) k : ℝ) : EReal))
    (hV : ∀ k, V k = ((var3 (y2 epsR slopeR I) k : ℝ) : EReal))
    (hG : ∀ k, G k = ((I.g2 k : ℝ) : EReal))
    (hB : ∀ k, B k = ((I.b2 k : ℝ) : EReal))
    (hW : ∀ k, Wt k = ((I.W3 o k : ℝ) : EReal)) :
    (∑ k : Fin 256, actE (X k) (M k) (V k) (G k) (B k) * Wt k) = ((y3f epsR slopeR I r o : ℝ) : EReal) := by
  rw [y3f_eq, ← dot_coe]
  refine Finset.sum_congr rfl fun k _ => ?_
  rw [hX, hM, hV, hG, hB, hW, actE_coe _ _ _ _ _ (var3_nonneg _ _)]
  rfl

end Conv3

end Cert.KRN

end
-- ==== Proof.KProjMath.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«428405_j30648886624750_3_alg».proof.Proof.KConv3Math

noncomputable section

namespace Cert.KRN.Proj

open Idealize.ShloMosaic Idealize.ShloMosaic.ValueIdx Cert.RN

theorem proj_payload_entry {M K N : Nat}
    (hA : (⟨2, ![M, K]⟩ : Shape).ShapeCasts ⟨2, ![M, K]⟩) (hB : (⟨2, ![K, N]⟩ : Shape).ShapeCasts ⟨2, ![K, N]⟩)
    (hb : FTy.bits .bf16 < FTy.bits .f32)
    (D : DotDims ⟨2, ![M, K]⟩ ⟨2, ![K, N]⟩ ⟨2, ![M, N]⟩) (hD : D = DotDims.plain M K N)
    (X : FVec Ideal ⟨2, ![M, K]⟩ .f32) (Y : FVec Ideal ⟨2, ![K, N]⟩ .f32) (r : Fin M) (o : Fin N) :
    matmul D none (truncf .bf16 (shapeCast ⟨2, ![M, K]⟩ X hA) hb) (truncf .bf16 (shapeCast ⟨2, ![K, N]⟩ Y hB) hb)
        (constant ⟨2, ![M, N]⟩ .f32 0x00000000#32) (ix2 r o)
      = ∑ c : Fin K, X (ix2 r c) * Y (ix2 c o) := by
  rw [matmul_plain_entry D hD, shapeCast_self, shapeCast_self]
  rfl

-- A block product of coerced reals is, entry by entry, the coerced real product.
theorem prod_is2 {M K N : Nat} (A : (⟨2, ![M, K]⟩ : Shape).Idx → EReal) (B : (⟨2, ![K, N]⟩ : Shape).Idx → EReal)
    (P : (⟨2, ![M, N]⟩ : Shape).Idx → EReal) (f : Fin M → Fin K → ℝ) (g : Fin K → Fin N → ℝ)
    (hA : ∀ r k, A (ix2 r k) = ((f r k : ℝ) : EReal)) (hB : ∀ k o, B (ix2 k o) = ((g k o : ℝ) : EReal))
    (hP : ∀ r o, P (ix2 r o) = ∑ c : Fin K, A (ix2 r c) * B (ix2 c o)) :
    Is2 P fun r o => ∑ c : Fin K, f r c * g c o := by
  intro r o
  rw [hP]
  simp only [hA, hB]
  exact dot_coe (fun c => f r c) fun c => g c o

theorem flat_rows_entry {α : Type} (X : (⟨3, ![2, 2048, 128]⟩ : Shape).Idx → α)
    (h : (⟨3, ![2, 2048, 128]⟩ : Shape).ShapeCasts ⟨2, ![4096, 128]⟩) (r : Fin 4096) (k : Fin 128) :
    shapeCast ⟨2, ![4096, 128]⟩ X h (ix2 r k) = X (ix3 (rB r) (rN r) k) :=
  shapeCast_apply X h _ _ (by
    rw [Shape.rowMajor_val_three, Shape.rowMajor_val_two]
    show (r.val / 2048 * 2048 + r.val % 2048) * 128 + k.val = r.val * 128 + k.val
    omega)

theorem split_rows_entry {α : Type} (Y : (⟨2, ![4096, 128]⟩ : Shape).Idx → α)
    (h : (⟨2, ![4096, 128]⟩ : Shape).ShapeCasts ⟨3, ![2, 2048, 128]⟩) (b : Fin 2) (n : Fin 2048) (o : Fin 128)
    (r : Fin 4096) (hr : r.val = b.val * 2048 + n.val) :
    shapeCast ⟨3, ![2, 2048, 128]⟩ Y h (ix3 b n o) = Y (ix2 r o) :=
  shapeCast_apply Y h _ _ (by
    rw [Shape.rowMajor_val_three, Shape.rowMajor_val_two]
    show r.val * 128 + o.val = (b.val * 2048 + n.val) * 128 + o.val
    rw [hr])

theorem flat_centres_entry {α : Type} (X : (⟨3, ![2, 64, 128]⟩ : Shape).Idx → α)
    (h : (⟨3, ![2, 64, 128]⟩ : Shape).ShapeCasts ⟨2, ![128, 128]⟩) (r : Fin 128) (k : Fin 128) :
    shapeCast ⟨2, ![128, 128]⟩ X h (ix2 r k)
      = X (ix3 ⟨r.val / 64, by have := r.isLt; omega⟩ ⟨r.val % 64, by omega⟩ k) :=
  shapeCast_apply X h _ _ (by
    rw [Shape.rowMajor_val_three, Shape.rowMajor_val_two]
    show (r.val / 64 * 64 + r.val % 64) * 128 + k.val = r.val * 128 + k.val
    omega)

theorem w1_half_entry {α : Type} (s : Nat) (W : (⟨2, ![128, 256]⟩ : Shape).Idx → α)
    (hs : (⟨2, ![128, 256]⟩ : Shape).Slices ![0, s] ⟨2, ![128, 128]⟩)
    (ht : (⟨2, ![128, 128]⟩ : Shape).Transposes [1, 0] ⟨2, ![128, 128]⟩) (k o : Fin 128) (j : Fin 256)
    (hj : j.val = s + k.val) :
    transpose ⟨2, ![128, 128]⟩ [1, 0] (extractStridedSlice ⟨2, ![128, 128]⟩ ![0, s] W hs) ht (ix2 k o) = W (ix2 o j) := by
  rw [transpose_ix2_apply]
  exact slice2_axis1_apply s W hs o k j hj

variable (I : Inp)

theorem pp_split (P : (⟨2, ![4096, 128]⟩ : Shape).Idx → EReal)
    (h : (⟨2, ![4096, 128]⟩ : Shape).ShapeCasts ⟨3, ![2, 2048, 128]⟩) (hP : Is2 P (ppf I)) :
    Is3 (shapeCast ⟨3, ![2, 2048, 128]⟩ P h) (pp I) := by
  intro b n o
  have hlt : b.val * 2048 + n.val < 4096 := by have := b.isLt; have := n.isLt; omega
  rw [split_rows_entry P h b n o ⟨b.val * 2048 + n.val, hlt⟩ rfl, hP]
  have e1 : rB ⟨b.val * 2048 + n.val, hlt⟩ = b :=
    Fin.ext (by show (b.val * 2048 + n.val) / 2048 = b.val; have := n.isLt; omega)
  have e2 : rN ⟨b.val * 2048 + n.val, hlt⟩ = n :=
    Fin.ext (by show (b.val * 2048 + n.val) % 2048 = n.val; have := n.isLt; omega)
  show ((pp I (rB ⟨b.val * 2048 + n.val, hlt⟩) (rN ⟨b.val * 2048 + n.val, hlt⟩) o : ℝ) : EReal) = _
  rw [e1, e2]

end Cert.KRN.Proj

end
-- ==== Proof.KFcPay.lean ====
import proofs.«428405_j30648886624750_3_alg».proof.Proof.Gen.KernelIdeal.Skeleton
import proofs.«428405_j30648886624750_3_alg».proof.Proof.Spec
import proofs.«428405_j30648886624750_3_alg».proof.Proof.LibReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.KRN.Fc

open Idealize.ShloMosaic Idealize.ShloMosaic.ValueIdx Cert.KernelIdeal Cert.KernelIdeal.Gen Cert.RN

variable {R K O : Nat}

-- Two functions of a rank-2 (rank-3) index agree when they agree at every (r, o) (every (u, s, o)).
theorem fc_ext2 {α : Type} {f g : (⟨2, ![R, O]⟩ : Shape).Idx → α} (h : ∀ r o, f (ix2 r o) = g (ix2 r o)) : f = g :=
  funext fun j => by rw [eq_ix2 j]; exact h _ _
theorem fc_ext3 {α : Type} {f g : (⟨3, ![R, K, O]⟩ : Shape).Idx → α} (h : ∀ u s o, f (ix3 u s o) = g (ix3 u s o)) :
    f = g :=
  funext fun j => by rw [eq_ix3 j]; exact h _ _ _

-- The row of X against the column of Wt, plus the bias: one entry of a fully connected layer over the reals.
def fcY (X : Fin R → Fin K → ℝ) (Wt : Fin K → Fin O → ℝ) (B : Fin O → ℝ) (r : Fin R) (o : Fin O) : ℝ :=
  (∑ k : Fin K, X r k * Wt k o) + B o

-- A product into a zero accumulator, read at (r, o): the sum over the contracted k.
theorem fc_mm_apply (A : FVec Ideal ⟨2, ![R, K]⟩ .bf16) (B : FVec Ideal ⟨2, ![K, O]⟩ .bf16) (r : Fin R) (o : Fin O) :
    matmul (F := Ideal) (DotDims.plain R K O) none A B (constant (F := Ideal) ⟨2, ![R, O]⟩ .f32 0x00000000#32) (ix2 r o)
      = ∑ k : Fin K, A (ix2 r k) * B (ix2 k o) :=
  (congrFun (matmul_zero_eq_dotGeneral _ none A B) _).trans (StackMember.dotGeneral_plain_apply none A B r o)

-- The column sums of an R×O block, laid on each of eight rows behind a unit axis: entry (u, s, o) is Σ_r src[r, o].
theorem fc_stat_apply (src : FVec Ideal ⟨2, ![R, O]⟩ .f32) (h : Shape.Reduces ⟨2, ![R, O]⟩ [0] ⟨1, ![O]⟩)
    (hφ : FKind.Formats .f32) (hacc : (0x00000000#32 : BitVec 32) = FKind.add.neutral .f32 hφ)
    (h1 : (⟨1, ![O]⟩ : Shape).ShapeCasts ⟨2, ![1, O]⟩) (h2 : (⟨2, ![1, O]⟩ : Shape).ShapeCasts ⟨2, ![1, O]⟩)
    (h3 : (⟨2, ![1, O]⟩ : Shape).Broadcasts ⟨2, ![8, O]⟩) (h4 : (⟨2, ![8, O]⟩ : Shape).ShapeCasts ⟨3, ![1, 8, O]⟩)
    (u : Fin 1) (s : Fin 8) (o : Fin O) :
    shapeCast ⟨3, ![1, 8, O]⟩ (broadcastTo ⟨2, ![8, O]⟩ (shapeCast ⟨2, ![1, O]⟩ (shapeCast ⟨2, ![1, O]⟩
      (multiReduction (F := Ideal) .add [0] ⟨1, ![O]⟩ src 0x00000000#32 h hφ hacc) h1) h2) h3) h4 (ix3 u s o)
      = ∑ r : Fin R, src (ix2 r o) := by
  rw [shapeCast_ab_1ab_apply, broadcastTo_1b_ab_apply, shapeCast_self, shapeCast_a_1a_apply]
  refine (Ideal.multiReduction_add_single src 0x00000000#32 h hφ hacc (ix1 o)).trans ?_
  exact Finset.sum_congr rfl fun r _ => congrArg src (Shape.idx_ext₂ rfl rfl)

-- Row r of the block against column o of the weight, plus the bias.
theorem fc_pay1_apply (x0 : Vec Ideal ⟨2, ![R, K]⟩ .f32) (x1 : Vec Ideal ⟨2, ![K, O]⟩ .f32) (x2 : Vec Ideal ⟨2, ![1, O]⟩ .f32)
    (h0 : (⟨2, ![R, K]⟩ : Shape).ShapeCasts ⟨2, ![R, K]⟩) (h1 : (⟨2, ![K, O]⟩ : Shape).ShapeCasts ⟨2, ![K, O]⟩)
    (h2 : (⟨2, ![1, O]⟩ : Shape).ShapeCasts ⟨2, ![1, O]⟩) (hb : FTy.bits .bf16 < FTy.bits .f32)
    (h3 : (⟨2, ![1, O]⟩ : Shape).Broadcasts ⟨2, ![R, O]⟩) (r : Fin R) (o : Fin O) :
    addf (matmul (F := Ideal) (DotDims.plain R K O) none (truncf .bf16 (shapeCast ⟨2, ![R, K]⟩ x0 h0) hb)
        (truncf .bf16 (shapeCast ⟨2, ![K, O]⟩ x1 h1) hb) (constant (F := Ideal) ⟨2, ![R, O]⟩ .f32 0x00000000#32))
      (broadcastTo ⟨2, ![R, O]⟩ (shapeCast ⟨2, ![1, O]⟩ x2 h2) h3) (ix2 r o)
      = (∑ k : Fin K, x0 (ix2 r k) * x1 (ix2 k o)) + x2 (ix2 (0 : Fin 1) o) := by
  refine (addf_apply _ _ (ix2 r o)).trans
    (congrArg₂ (· + ·) ((fc_mm_apply _ _ r o).trans ?_) ((broadcastTo_1b_ab_apply _ _ r o).trans ?_))
  · simp only [truncf_apply, shapeCast_self]
  · simp only [shapeCast_self]

-- What three payloads are, entry by entry: the block product with bias, its column sums, and those of its squares.
def FcPay (x0 : Vec Ideal ⟨2, ![R, K]⟩ .f32) (x1 : Vec Ideal ⟨2, ![K, O]⟩ .f32) (x2 : Vec Ideal ⟨2, ![1, O]⟩ .f32)
    (P : FVec Ideal ⟨2, ![R, O]⟩ .f32) (Ps Pq : FVec Ideal ⟨3, ![1, 8, O]⟩ .f32) : Prop :=
  (∀ r o, P (ix2 r o) = (∑ k : Fin K, x0 (ix2 r k) * x1 (ix2 k o)) + x2 (ix2 (0 : Fin 1) o))
  ∧ (∀ u s o, Ps (ix3 u s o) = ∑ r : Fin R, P (ix2 r o))
  ∧ ∀ u s o, Pq (ix3 u s o) = ∑ r : Fin R, P (ix2 r o) * P (ix2 r o)

-- Over coerced reals they are the coerced real entry, its column sums and the column sums of its squares.
theorem FcPay.real {x0 : Vec Ideal ⟨2, ![R, K]⟩ .f32} {x1 : Vec Ideal ⟨2, ![K, O]⟩ .f32} {x2 : Vec Ideal ⟨2, ![1, O]⟩ .f32}
    {P : FVec Ideal ⟨2, ![R, O]⟩ .f32} {Ps Pq : FVec Ideal ⟨3, ![1, 8, O]⟩ .f32} {X : Fin R → Fin K → ℝ}
    {Wt : Fin K → Fin O → ℝ} {B : Fin O → ℝ} (hp : FcPay x0 x1 x2 P Ps Pq)
    (h0 : ∀ r k, x0 (ix2 r k) = ((X r k : ℝ) : EReal)) (h1 : ∀ k o, x1 (ix2 k o) = ((Wt k o : ℝ) : EReal))
    (h2 : ∀ o, x2 (ix2 (0 : Fin 1) o) = ((B o : ℝ) : EReal)) :
    (∀ r o, P (ix2 r o) = ((fcY X Wt B r o : ℝ) : EReal))
    ∧ (∀ u s o, Ps (ix3 u s o) = ((∑ r : Fin R, fcY X Wt B r o : ℝ) : EReal))
    ∧ ∀ u s o, Pq (ix3 u s o) = ((∑ r : Fin R, fcY X Wt B r o * fcY X Wt B r o : ℝ) : EReal) := by
  have hy : ∀ r o, P (ix2 r o) = ((fcY X Wt B r o : ℝ) : EReal) := fun r o => by
    rw [hp.1, h2, fcY, EReal.coe_add, ← coe_sum]
    exact congrArg (· + ((B o : ℝ) : EReal)) (Finset.sum_congr rfl fun k _ => by rw [h0, h1, EReal.coe_mul])
  refine ⟨hy, fun u s o => ?_, fun u s o => ?_⟩
  · rw [hp.2.1, ← coe_sum]; exact Finset.sum_congr rfl fun r _ => hy r o
  · rw [hp.2.2, ← coe_sum]; exact Finset.sum_congr rfl fun r _ => by rw [hy, EReal.coe_mul]

-- The two regions' payloads are this arithmetic at their sizes.
theorem fc6_pay (x0 : Vec Ideal S2048x256 .f32) (x1 : Vec Ideal S256x128 .f32) (x2 : Vec Ideal S1x128 .f32) :
    FcPay x0 x1 x2 (k6_pay1 (F := Ideal) x0 x1 x2) (k6_pay2 x0 x1 x2) (k6_pay3 x0 x1 x2) :=
  ⟨fun r o => by unfold k6_pay1; exact fc_pay1_apply x0 x1 x2 _ _ _ _ _ r o,
    fun u s o => by unfold k6_pay2; exact fc_stat_apply _ _ _ _ _ _ _ _ u s o,
    fun u s o => by unfold k6_pay3; exact fc_stat_apply _ _ _ _ _ _ _ _ u s o⟩
theorem fc8_pay (x0 : Vec Ideal S2048x128 .f32) (x1 : Vec Ideal S128x64 .f32) (x2 : Vec Ideal S1x64 .f32) :
    FcPay x0 x1 x2 (k8_pay1 (F := Ideal) x0 x1 x2) (k8_pay2 x0 x1 x2) (k8_pay3 x0 x1 x2) :=
  ⟨fun r o => by unfold k8_pay1; exact fc_pay1_apply x0 x1 x2 _ _ _ _ _ r o,
    fun u s o => by unfold k8_pay2; exact fc_stat_apply _ _ _ _ _ _ _ _ u s o,
    fun u s o => by unfold k8_pay3; exact fc_stat_apply _ _ _ _ _ _ _ _ u s o⟩

end Cert.KRN.Fc
end
-- ==== Proof.KConv2Pay.lean ====
import proofs.«428405_j30648886624750_3_alg».proof.Proof.Gen.KernelIdeal.Skeleton
import Idealize.ShloMosaic.Lib.ValueLayout
import Idealize.ShloMosaic.Lib.Pipeline.Value
import Idealize.ShloMosaic.PureOps.Ideal.Laws
import proofs.«428405_j30648886624750_3_alg».proof.Proof.KConv3Math
import proofs.«428405_j30648886624750_3_alg».proof.Proof.KFcPay

noncomputable section

namespace Cert.KRN

open Idealize.ShloMosaic Idealize.ShloMosaic.ValueIdx Cert.KernelIdeal Cert.KernelIdeal.Gen Cert.RN

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem zero_off {n : Nat} (idx sz : Fin n → Nat) (h : ∀ a, idx a = 0) : (fun a => idx a * sz a) = fun _ => 0 :=
  funext fun a => by rw [h a, Nat.zero_mul]

-- A block at block index zero whose sizes are the array's is the array.
theorem whole_read {κ : Kind} (b : Ref sig κ) (idx : Fin b.ty.shape.rank → Nat) (h : ∀ a, idx a = 0) (inb)
    (f : b.ty.Contents (Elt Ideal)) :
    ((Memref.whole b).access (Rect.unit (fun a => idx a * b.ty.shape.size a) b.ty.shape.size inb) : View sig κ _ _ _).read
      (Elt Ideal) f = f :=
  Memref.read_access_unit_zero _ b (zero_off _ _ h) inb f

def GY (f : Fin 262144 → Fin 256 → ℝ) : S262144x256.Idx → EReal := fun i =>
  ((f ⟨(i 0).val, idx2_lt0 i⟩ ⟨(i 1).val, idx2_lt1 i⟩ : ℝ) : EReal)

def GS (g : Fin 262144 → Fin 256 → ℝ) : S64x8x256.Idx → EReal := fun i =>
  ((tsum3 g ⟨(i 0).val, (i 0).isLt⟩ ⟨(i 2).val, (i 2).isLt⟩ : ℝ) : EReal)

-- Element (p, o) of the block at block index (t, 0) sits at row 4096·t + p, column o.
theorem GY_blk (f : Fin 262144 → Fin 256 → ℝ) (t : Fin 64) (idx : Fin 2 → Nat) (h : ∀ a, idx a = ![t.val, 0] a)
    (i : S262144x256.Idx) (p : Fin 4096) (o : Fin 256)
    (hi : ∀ a, (i a).val = idx a * S4096x256.size a + (ix2 p o a).val) :
    ((f (tileRow t p) o : ℝ) : EReal) = GY f i := by
  have e0 : (⟨(i 0).val, idx2_lt0 i⟩ : Fin 262144) = tileRow t p :=
    Fin.ext ((hi 0).trans (by rw [h 0]; show t.val * 4096 + p.val = 4096 * t.val + p.val; omega))
  have e1 : (⟨(i 1).val, idx2_lt1 i⟩ : Fin 256) = o :=
    Fin.ext ((hi 1).trans (by rw [h 1]; show 0 * 256 + o.val = o.val; omega))
  unfold GY
  rw [e0, e1]

theorem GS_blk (g : Fin 262144 → Fin 256 → ℝ) (t : Fin 64) (idx : Fin 3 → Nat) (h : ∀ a, idx a = ![t.val, 0, 0] a)
    (i : S64x8x256.Idx) (u : Fin 1) (s : Fin 8) (o : Fin 256)
    (hi : ∀ a, (i a).val = idx a * S1x8x256.size a + (ix3 u s o a).val) :
    ((tsum3 g t o : ℝ) : EReal) = GS g i := by
  have e0 : (⟨(i 0).val, (i 0).isLt⟩ : Fin 64) = t :=
    Fin.ext ((hi 0).trans (by rw [h 0]; show t.val * 1 + u.val = t.val; omega))
  have e2 : (⟨(i 2).val, (i 2).isLt⟩ : Fin 256) = o :=
    Fin.ext ((hi 2).trans (by rw [h 2]; show 0 * 256 + o.val = o.val; omega))
  unfold GS
  rw [e0, e2]

-- An index whose coordinate on every axis, divided by the block's size there, is the block's number lies in that block.
theorem mem_block {S : Shape} {idx sz xs : Fin S.rank → Nat} {inb} (i : S.Idx)
    (h : ∀ a, xs a = sz a ∧ 0 < sz a ∧ idx a = (i a).val / sz a) :
    i ∈ (Rect.unit (s := S) (fun a => idx a * sz a) xs inb).set :=
  Rect.mem_set_unit.mpr fun a => by
    obtain ⟨h1, h2, h3⟩ := h a
    show idx a * sz a ≤ (i a).val ∧ (i a).val < idx a * sz a + xs a
    rw [h1, h3]
    exact ⟨Nat.div_mul_le_self _ _, Nat.lt_div_mul_add h2⟩

-- n blocks along axis a₀ and one along every other axis cover the array.
theorem tile_cover {G : Pipeline.Grid} (w : Pipeline.Window sig G) {n : Nat} (hN : G.N = n) (hn : 0 < n)
    (hf : ∀ t, w.flush t = true) (a₀ : Fin w.shape.rank)
    (h : ∀ (t : Fin G.N) a, w.xsize (G.coords t) a = w.size a ∧ 0 < w.size a
      ∧ w.index t a = (if a = a₀ then t.val else 0) ∧ w.shape.size a = (if a = a₀ then n else 1) * w.size a)
    (i : w.shape.Idx) : ∃ t : Fin G.N, w.flush t = true ∧ i ∈ (w.rect t).set := by
  have h0 : (i a₀).val / w.size a₀ < G.N := by
    obtain ⟨-, hp, -, hs⟩ := h ⟨0, by omega⟩ a₀
    rw [if_pos rfl] at hs
    rw [hN, Nat.div_lt_iff_lt_mul hp, ← hs]
    exact (i a₀).isLt
  refine ⟨⟨_, h0⟩, hf _, mem_block i fun a => ?_⟩
  obtain ⟨hx, hp, hi, hs⟩ := h ⟨_, h0⟩ a
  refine ⟨hx, hp, hi.trans ?_⟩
  by_cases ha : a = a₀
  · rw [if_pos ha, ha]
  · rw [if_neg ha, Nat.one_mul] at hs
    rw [if_neg ha]
    exact (Nat.div_eq_of_lt (hs ▸ (i a).isLt)).symm

namespace Conv2

theorem pay1_apply (x0 : Vec Ideal S4096x128 .bf16) (x1 : Vec Ideal S128x256 .f32) (p : Fin 4096) (o : Fin 256) :
    k3_pay1 (F := Ideal) x0 x1 (ix2 p o) = ∑ k : Fin 128, x0 (ix2 p k) * x1 (ix2 k o) := by
  unfold k3_pay1
  simp only [shapeCast_self]
  exact matmul_plain_entry _ rfl _ _ p o

theorem pay3_apply (x0 : Vec Ideal S4096x128 .bf16) (x1 : Vec Ideal S128x256 .f32) (u : Fin 1) (s : Fin 8) (o : Fin 256) :
    k3_pay3 (F := Ideal) x0 x1 (ix3 u s o) = ∑ p : Fin 4096, k3_pay1 (F := Ideal) x0 x1 (ix2 p o) := by
  unfold k3_pay3
  exact Fc.fc_stat_apply _ _ _ _ _ _ _ _ u s o

theorem pay4_apply (x0 : Vec Ideal S4096x128 .bf16) (x1 : Vec Ideal S128x256 .f32) (u : Fin 1) (s : Fin 8) (o : Fin 256) :
    k3_pay4 (F := Ideal) x0 x1 (ix3 u s o)
      = ∑ p : Fin 4096, k3_pay1 (F := Ideal) x0 x1 (ix2 p o) * k3_pay1 (F := Ideal) x0 x1 (ix2 p o) := by
  unfold k3_pay4
  exact Fc.fc_stat_apply _ _ _ _ _ _ _ _ u s o

end Conv2

end Cert.KRN

end
-- ==== Proof.KProj.lean ====
import proofs.«428405_j30648886624750_3_alg».proof.Proof.Gen.KernelIdeal.Frame
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KProjMath
import proofs.«428405_j30648886624750_3_alg».proof.Proof.KConv2Pay
import Idealize.ShloMosaic.Lib.StableHlo.Run
import Idealize.ShloMosaic.Lib.Pipeline.Value

noncomputable section

namespace Cert.KRN.Proj

open Idealize.ShloMosaic Idealize.ShloMosaic.TcCoe Idealize.SL.Sem Cert.KernelIdeal Cert.KernelIdeal.Gen Cert.RN
open Idealize.ShloMosaic.ValueIdx
open Idealize.ShloMosaic.Pipeline (Dat)

variable (m : (ℓ : Loc nD τ sig) → Buf (Elt Ideal) ℓ) (ρ : Dev nD → PrngReg) (c : Dev nD) (I : Inp)

theorem x_flat_eq :
    (W1 (F := Ideal) m ρ c (Proc.devRef .tc main_v2) : S4096x128.Idx → EReal)
      = shapeCast S4096x128 (W0 (F := Ideal) m ρ c (Proc.devRef .tc main_arg0) : S2x2048x128.Idx → EReal)
          shapeCasts_S2x2048x128_S4096x128 := by
  show StableHlo.after hostOps0 (W0 (F := Ideal) m ρ c) (Proc.devRef .tc main_v2) = _
  after_results
  rfl

theorem ce_flat_eq :
    (W1 (F := Ideal) m ρ c (Proc.devRef .tc main_v3) : S128x128.Idx → EReal)
      = shapeCast S128x128 (W0 (F := Ideal) m ρ c (Proc.devRef .tc main_arg1) : S2x64x128.Idx → EReal)
          shapeCasts_S2x64x128_S128x128 := by
  show StableHlo.after hostOps0 (W0 (F := Ideal) m ρ c) (Proc.devRef .tc main_v3) = _
  after_results
  rfl

theorem w1_left_t_eq :
    (W1 (F := Ideal) m ρ c (Proc.devRef .tc main_v4) : S128x128.Idx → EReal)
      = transpose S128x128 [1, 0]
          (extractStridedSlice S128x128 ![0, 0] (W0 (F := Ideal) m ρ c (Proc.devRef .tc main_arg2) : S128x256.Idx → EReal)
            slices_S128x256_S128x128_0_0) transposes_S128x128_S128x128_1_0 := by
  show StableHlo.after hostOps0 (W0 (F := Ideal) m ρ c) (Proc.devRef .tc main_v4) = _
  after_results

theorem w1_right_eq :
    (W1 (F := Ideal) m ρ c (Proc.devRef .tc main_v1) : S128x128.Idx → EReal)
      = extractStridedSlice S128x128 ![0, 128] (W0 (F := Ideal) m ρ c (Proc.devRef .tc main_arg2) : S128x256.Idx → EReal)
          slices_S128x256_S128x128_0_128 := by
  show StableHlo.after hostOps0 (W0 (F := Ideal) m ρ c) (Proc.devRef .tc main_v1) = _
  after_results

section Products
variable (V : (c : Dev nD) → (b : Ref sig .tc) → Buf (Elt Ideal) ((c : Thread nD τ).loc b))

theorem origin0 : ∀ t : Fin cfg0.N, (∀ a, win0_0.index t a = 0) ∧ (∀ a, win0_1.index t a = 0)
    ∧ (∀ a, win0_2.index t a = 0) :=
  (by decide +kernel : ∀ t : Fin grid0.N, _)

theorem lhs_block0 (t : Fin cfg0.N) : (iblk0 (F := Ideal) V c 0 t : Vec Ideal S4096x128 .f32) = V c main_v2 :=
  whole_read main_v2 _ (origin0 t).1 _ (V c main_v2)

theorem rhs_block0 (t : Fin cfg0.N) : (iblk0 (F := Ideal) V c 1 t : Vec Ideal S128x128 .f32) = V c main_v4 :=
  whole_read main_v4 _ (origin0 t).2.1 _ (V c main_v4)

theorem written0 (t : Fin cfg0.N) :
    (dat0 (F := Ideal) V c).flushed 2 t
      = ((cfg0.win 2).blk t).view.read (Elt Ideal) (k0_pay1 (F := Ideal) (V c main_v2) (V c main_v4)) := by
  show (cfg0.win 2).cut (grid0.coords t) ((dat0 (F := Ideal) V c).after 2 t) = _
  rw [after0_2]
  unfold out0_2
  rw [View.canon_unit_zero hz2]
  simp only [View.ld_unit_zero (S := S4096x128) hz2, View.ld_unit_zero (S := S128x128) hz2]
  rw [lhs_block0 c V t, rhs_block0 c V t]
  exact (whole_read main_v5 _ (origin0 t).2.2 _ _).symm

theorem covered0 (i : S4096x128.Idx) :
    ∃ t : Fin cfg0.N, (cfg0.win 2).flush t = true ∧ i ∈ ((cfg0.win 2).blk t).view.set := by
  refine ⟨t0_0, flush0_2 t0_0, ?_⟩
  show i ∈ ((View.whole main_v5).slice (win0_2.rect t0_0)).set
  rw [View.set_slice_whole]
  exact View.mem_set_unit_zero (zero_off _ _ (origin0 t0_0).2.2) _ i

theorem origin1 : ∀ t : Fin cfg1.N, (∀ a, win1_0.index t a = 0) ∧ (∀ a, win1_1.index t a = 0)
    ∧ (∀ a, win1_2.index t a = 0) :=
  (by decide +kernel : ∀ t : Fin grid1.N, _)

theorem lhs_block1 (t : Fin cfg1.N) : (iblk1 (F := Ideal) V c 0 t : Vec Ideal S128x128 .f32) = V c main_v3 :=
  whole_read main_v3 _ (origin1 t).1 _ (V c main_v3)

theorem rhs_block1 (t : Fin cfg1.N) : (iblk1 (F := Ideal) V c 1 t : Vec Ideal S128x128 .f32) = V c main_v7 :=
  whole_read main_v7 _ (origin1 t).2.1 _ (V c main_v7)

theorem written1 (t : Fin cfg1.N) :
    (dat1 (F := Ideal) V c).flushed 2 t
      = ((cfg1.win 2).blk t).view.read (Elt Ideal) (k1_pay1 (F := Ideal) (V c main_v3) (V c main_v7)) := by
  show (cfg1.win 2).cut (grid1.coords t) ((dat1 (F := Ideal) V c).after 2 t) = _
  rw [after1_2]
  unfold out1_2
  rw [View.canon_unit_zero hz2]
  simp only [View.ld_unit_zero (S := S128x128) hz2]
  rw [lhs_block1 c V t, rhs_block1 c V t]
  exact (whole_read main_v8 _ (origin1 t).2.2 _ _).symm

theorem covered1 (i : S128x128.Idx) :
    ∃ t : Fin cfg1.N, (cfg1.win 2).flush t = true ∧ i ∈ ((cfg1.win 2).blk t).view.set := by
  refine ⟨t1_0, flush1_2 t1_0, ?_⟩
  show i ∈ ((View.whole main_v8).slice (win1_2.rect t1_0)).set
  rw [View.set_slice_whole]
  exact View.mem_set_unit_zero (zero_off _ _ (origin1 t1_0).2.2) _ i

end Products

theorem product0_eq :
    (W2 (F := Ideal) m ρ c (Proc.devRef .tc main_v5) : S4096x128.Idx → EReal)
      = k0_pay1 (F := Ideal) (W1 (F := Ideal) m ρ c (Proc.devRef .tc main_v2)) (W1 (F := Ideal) m ρ c (Proc.devRef .tc main_v4)) :=
  (W2_arr (F := Ideal) m ρ c 2).trans
    ((dat0 (F := Ideal) (V1 m ρ) c).arrAt_eq_of_cover 2 _ (fun t _ => written0 c (V1 m ρ) t) (covered0))

theorem product1_eq :
    (W4 (F := Ideal) m ρ c (Proc.devRef .tc main_v8) : S128x128.Idx → EReal)
      = k1_pay1 (F := Ideal) (W3 (F := Ideal) m ρ c (Proc.devRef .tc main_v3)) (W3 (F := Ideal) m ρ c (Proc.devRef .tc main_v7)) :=
  (W4_arr (F := Ideal) m ρ c 2).trans
    ((dat1 (F := Ideal) (V3 m ρ) c).arrAt_eq_of_cover 2 _ (fun t _ => written1 c (V3 m ρ) t) (covered1))

theorem p_split_eq :
    (W4 (F := Ideal) m ρ c (Proc.devRef .tc main_v6) : S2x2048x128.Idx → EReal)
      = shapeCast S2x2048x128 (W2 (F := Ideal) m ρ c (Proc.devRef .tc main_v5) : S4096x128.Idx → EReal)
          shapeCasts_S4096x128_S2x2048x128 := by
  refine (W4_of_ne (F := Ideal) m ρ c main_v6 (by decide)).trans ?_
  show StableHlo.after hostOps1 (W2 (F := Ideal) m ρ c) (Proc.devRef .tc main_v6) = _
  after_results
  rfl

theorem w1_right_t_eq :
    (W3 (F := Ideal) m ρ c (Proc.devRef .tc main_v7) : S128x128.Idx → EReal)
      = transpose S128x128 [1, 0]
          (extractStridedSlice S128x128 ![0, 128] (W0 (F := Ideal) m ρ c (Proc.devRef .tc main_arg2) : S128x256.Idx → EReal)
            slices_S128x256_S128x128_0_128) transposes_S128x128_S128x128_1_0 := by
  have e : (W3 (F := Ideal) m ρ c (Proc.devRef .tc main_v7) : S128x128.Idx → EReal)
      = transpose S128x128 [1, 0] (W2 (F := Ideal) m ρ c (Proc.devRef .tc main_v1) : S128x128.Idx → EReal)
          transposes_S128x128_S128x128_1_0 := by
    show StableHlo.after hostOps1 (W2 (F := Ideal) m ρ c) (Proc.devRef .tc main_v7) = _
    after_results
  rw [e, W2_of_ne (F := Ideal) m ρ c main_v1 (by decide), w1_right_eq]

theorem ce_flat_kept :
    (W3 (F := Ideal) m ρ c (Proc.devRef .tc main_v3) : S128x128.Idx → EReal)
      = shapeCast S128x128 (W0 (F := Ideal) m ρ c (Proc.devRef .tc main_arg1) : S2x64x128.Idx → EReal)
          shapeCasts_S2x64x128_S128x128 := by
  have e : (W3 (F := Ideal) m ρ c (Proc.devRef .tc main_v3) : S128x128.Idx → EReal)
      = W2 (F := Ideal) m ρ c (Proc.devRef .tc main_v3) := by
    show StableHlo.after hostOps1 (W2 (F := Ideal) m ρ c) (Proc.devRef .tc main_v3) = _
    after_results
  rw [e, W2_of_ne (F := Ideal) m ρ c main_v3 (by decide), ce_flat_eq]

theorem stage_pp
    (hx : Is3 (W0 (F := Ideal) m ρ c (Proc.devRef .tc main_arg0)) I.x)
    (hw : Is2 (W0 (F := Ideal) m ρ c (Proc.devRef .tc main_arg2)) I.W1) :
    Is3 (W4 (F := Ideal) m ρ c (Proc.devRef .tc main_v6)) (pp I) := by
  rw [p_split_eq]
  refine pp_split I _ _ ?_
  rw [product0_eq]
  refine prod_is2 (W1 (F := Ideal) m ρ c (Proc.devRef .tc main_v2)) (W1 (F := Ideal) m ρ c (Proc.devRef .tc main_v4)) _
    (fun r k => I.x (rB r) (rN r) k) (fun k o => I.W1 o ⟨k.val, by omega⟩) ?_ ?_ ?_
  · intro r k
    rw [x_flat_eq, flat_rows_entry]
    exact hx _ _ _
  · intro k o
    rw [w1_left_t_eq, w1_half_entry 0 _ _ _ k o ⟨k.val, by omega⟩ (by simp)]
    exact hw _ _
  · intro r o
    exact proj_payload_entry _ _ _ dot_S4096x128_S128x128_S4096x128_1_0_0_1_n_n rfl _ _ r o

theorem stage_cp
    (hce : Is3 (W0 (F := Ideal) m ρ c (Proc.devRef .tc main_arg1)) I.ce)
    (hw : Is2 (W0 (F := Ideal) m ρ c (Proc.devRef .tc main_arg2)) I.W1) :
    Is2 (W4 (F := Ideal) m ρ c (Proc.devRef .tc main_v8)) (cpf I) := by
  rw [product1_eq]
  refine prod_is2 (W3 (F := Ideal) m ρ c (Proc.devRef .tc main_v3)) (W3 (F := Ideal) m ρ c (Proc.devRef .tc main_v7)) _
    (fun r k => I.ce ⟨r.val / 64, by have := r.isLt; omega⟩ ⟨r.val % 64, by omega⟩ k) (fun k o => I.W1 o ⟨k.val + 128, by omega⟩) ?_ ?_ ?_
  · intro r k
    rw [ce_flat_kept, flat_centres_entry]
    exact hce _ _ _
  · intro k o
    rw [w1_right_t_eq, w1_half_entry 128 _ _ _ k o ⟨k.val + 128, by omega⟩ (by simp; omega)]
    exact hw _ _
  · intro r o
    exact proj_payload_entry _ _ _ dot_S128x128_S128x128_S128x128_1_0_0_1_n_n rfl _ _ r o

end Cert.KRN.Proj

end
-- ==== Proof.KStats1Math.lean ====
import Idealize.ShloMosaic.Lib.IdealHost
import Idealize.ShloMosaic.Lib.Pipeline.Value
import proofs.«428405_j30648886624750_3_alg».proof.Proof.LibReal
import proofs.«428405_j30648886624750_3_alg».proof.Proof.LibReduce
import proofs.«428405_j30648886624750_3_alg».proof.Proof.Consts

noncomputable section

namespace Cert.KRN.Stats1

open Idealize.ShloMosaic Idealize.ShloMosaic.ValueIdx Cert.RN

theorem sum_add_grid (p : Fin 2048 → ℝ) (q : Fin 64 → ℝ) :
    ∑ n, ∑ m, (p n + q m) = 64 * ∑ n, p n + 2048 * ∑ m, q m := by
  simp only [Finset.sum_add_distrib, Finset.sum_const, Finset.card_univ, Fintype.card_fin, nsmul_eq_mul, ← Finset.mul_sum]
  norm_num

theorem sum_sq_grid (p : Fin 2048 → ℝ) (q : Fin 64 → ℝ) :
    ∑ n, ∑ m, (p n + q m) * (p n + q m)
      = 64 * ∑ n, p n * p n + 2 * (∑ n, p n) * (∑ m, q m) + 2048 * ∑ m, q m * q m := by
  simp only [add_mul, mul_add, Finset.sum_add_distrib, Finset.sum_const, Finset.card_univ, Fintype.card_fin, nsmul_eq_mul,
    ← Finset.mul_sum, ← Finset.sum_mul]
  norm_num
  ring

variable (I : Inp)

theorem mean3_h0_closed (o : Fin 128) :
    mean3 (h0 I) o = (∑ b, (64 * ∑ n, pp I b n o + 2048 * ∑ m, cp I b m o)) / 262144 := by
  unfold mean3 h0
  rw [Finset.sum_congr rfl (fun b _ => sum_add_grid (fun n => pp I b n o) (fun m => cp I b m o))]

theorem var3_h0_closed (o : Fin 128) :
    var3 (h0 I) o
      = max ((∑ b, (64 * ∑ n, pp I b n o * pp I b n o + 2 * (∑ n, pp I b n o) * (∑ m, cp I b m o)
                + 2048 * ∑ m, cp I b m o * cp I b m o)) / 262144 - mean3 (h0 I) o * mean3 (h0 I) o) 0 := by
  rw [← var3_clip]
  congr 3
  unfold h0
  exact Finset.sum_congr rfl (fun b _ => sum_sq_grid (fun n => pp I b n o) (fun m => cp I b m o))

theorem is4_unit3 {d : Nat} (h : (⟨1, ![d]⟩ : Shape).ShapeCasts ⟨4, ![1, 1, 1, d]⟩) (X : FVec Ideal ⟨1, ![d]⟩ .f32)
    (x : Fin d → ℝ) (hX : Is1 X x) :
    Is4 (shapeCast ⟨4, ![1, 1, 1, d]⟩ X h) (fun (_ : Fin 1) (_ : Fin 1) (_ : Fin 1) o => x o) := by
  intro i j k l
  rw [shapeCast_apply X h (ix4 i j k l) (ix1 l) (by
    rw [Shape.rowMajor_val_one, Shape.rowMajor_val_four]
    show l.val = ((i.val * 1 + j.val) * 1 + k.val) * d + l.val
    rw [Fin.val_eq_zero i, Fin.val_eq_zero j, Fin.val_eq_zero k]; simp)]
  exact hX l

theorem is3_rows_cp (h : (⟨2, ![128, 128]⟩ : Shape).ShapeCasts ⟨3, ![2, 64, 128]⟩)
    (X : FVec Ideal ⟨2, ![128, 128]⟩ .f32) (hX : Is2 X (cpf I)) : Is3 (shapeCast ⟨3, ![2, 64, 128]⟩ X h) (cp I) := by
  intro i k j
  have hk := k.isLt
  have hi := i.isLt
  rw [shapeCast_apply X h (ix3 i k j) (ix2 ⟨i.val * 64 + k.val, by omega⟩ j) (by
    rw [Shape.rowMajor_val_two, Shape.rowMajor_val_three]; rfl)]
  rw [hX]
  have e : ∀ (A : Fin 2) (B : Fin 64), A = i → B = k → ((cp I A B j : ℝ) : EReal) = ((cp I i k j : ℝ) : EReal) := by
    rintro _ _ rfl rfl; rfl
  exact e _ _ (Fin.ext (by show (i.val * 64 + k.val) / 64 = i.val; omega))
    (Fin.ext (by show (i.val * 64 + k.val) % 64 = k.val; omega))

theorem rP : (⟨3, ![2, 2048, 128]⟩ : Shape).ReducesTo [1] ⟨2, ![2, 128]⟩ := by decide
theorem rQ : (⟨3, ![2, 64, 128]⟩ : Shape).ReducesTo [1] ⟨2, ![2, 128]⟩ := by decide
theorem rB : (⟨2, ![2, 128]⟩ : Shape).ReducesTo [0] ⟨1, ![128]⟩ := by decide
theorem hu : 0 < (⟨0, ![]⟩ : Shape).numel := by decide

def zero : FVec Ideal ⟨0, ![]⟩ .f32 := constant (F := Ideal) ⟨0, ![]⟩ .f32 0x00000000#32
def lit2 (w : BitVec 32) : FVec Ideal ⟨2, ![2, 128]⟩ .f32 :=
  broadcastInDim ⟨2, ![2, 128]⟩ ![] (by decide) (constant (F := Ideal) ⟨0, ![]⟩ .f32 w)
def lit1 (w : BitVec 32) : FVec Ideal ⟨1, ![128]⟩ .f32 :=
  broadcastInDim ⟨1, ![128]⟩ ![] (by decide) (constant (F := Ideal) ⟨0, ![]⟩ .f32 w)
theorem lit2_apply (w : BitVec 32) (j : (⟨2, ![2, 128]⟩ : Shape).Idx) : lit2 w j = Ideal.ofBits .f32 w := by
  unfold lit2; rw [broadcastInDim_scalar_apply, constant_apply]
theorem lit1_apply (w : BitVec 32) (j : (⟨1, ![128]⟩ : Shape).Idx) : lit1 w j = Ideal.ofBits .f32 w := by
  unfold lit1; rw [broadcastInDim_scalar_apply, constant_apply]
def avg (X : FVec Ideal ⟨2, ![2, 128]⟩ .f32) : FVec Ideal ⟨1, ![128]⟩ .f32 :=
  Host.divf (Host.reduceAdd X zero rB hu) (lit1 0x48800000#32)

variable (P : FVec Ideal ⟨3, ![2, 2048, 128]⟩ .f32) (Q : FVec Ideal ⟨3, ![2, 64, 128]⟩ .f32)

def meanArr : FVec Ideal ⟨1, ![128]⟩ .f32 :=
  avg (addf (mulf (lit2 0x42800000#32) (Host.reduceAdd P zero rP hu))
    (mulf (lit2 0x45000000#32) (Host.reduceAdd Q zero rQ hu)))

def msqArr : FVec Ideal ⟨1, ![128]⟩ .f32 :=
  avg (addf
    (addf (mulf (lit2 0x42800000#32) (Host.reduceAdd (mulf P P) zero rP hu))
      (mulf (mulf (lit2 0x40000000#32) (Host.reduceAdd P zero rP hu)) (Host.reduceAdd Q zero rQ hu)))
    (mulf (lit2 0x45000000#32) (Host.reduceAdd (mulf Q Q) zero rQ hu)))

def varArr : FVec Ideal ⟨1, ![128]⟩ .f32 :=
  maximumf (subf (msqArr P Q) (mulf (meanArr P Q) (meanArr P Q))) (lit1 0x00000000#32)

variable {P Q} (hP : Is3 P (pp I)) (hQ : Is3 Q (cp I))
include hP hQ

theorem meanArr_is : Is1 (meanArr P Q) (mean3 (h0 I)) := fun o => by
  rw [mean3_h0_closed]
  simp only [meanArr, avg, lit1_apply, lit2_apply, zero, hostDivf_apply, hostReduceAdd_apply, hostReduceAdd_0of2, hostReduceAdd_1of3,
    addf_apply, mulf_apply, constant_apply, c64, c2048, c262144, c0,
    show ∀ i j k, P (ix3 i j k) = ((pp I i j k : ℝ) : EReal) from hP,
    show ∀ i j k, Q (ix3 i j k) = ((cp I i j k : ℝ) : EReal) from hQ,
    coe_sum, ← EReal.coe_mul, ← EReal.coe_add, zero_add, div_coe_coe _ _ (show (262144 : ℝ) ≠ 0 by norm_num)]

theorem varArr_is : Is1 (varArr P Q) (var3 (h0 I)) := fun o => by
  rw [var3_h0_closed]
  simp only [varArr, msqArr, avg, lit1_apply, lit2_apply, zero, maximumf_apply, subf_apply, hostDivf_apply, hostReduceAdd_apply,
    hostReduceAdd_0of2, hostReduceAdd_1of3, addf_apply, mulf_apply, constant_apply,
    c64, c2048, c2, c262144, c0, show ∀ o, meanArr P Q (ix1 o) = _ from meanArr_is I hP hQ,
    show ∀ i j k, P (ix3 i j k) = ((pp I i j k : ℝ) : EReal) from hP,
    show ∀ i j k, Q (ix3 i j k) = ((cp I i j k : ℝ) : EReal) from hQ,
    coe_sum, ← EReal.coe_mul, ← EReal.coe_add, ← EReal.coe_sub, zero_add,
    div_coe_coe _ _ (show (262144 : ℝ) ≠ 0 by norm_num), EReal.coe_zero, relu_coe]

end Cert.KRN.Stats1

end
-- ==== Proof.KStats1.lean ====
import proofs.«428405_j30648886624750_3_alg».proof.Proof.Gen.KernelIdeal.Frame
import proofs.«428405_j30648886624750_3_alg».proof.Proof.KStats1Math
import Idealize.ShloMosaic.Lib.StableHlo.Run

noncomputable section

namespace Cert.KRN.Stats1

open Idealize.ShloMosaic Idealize.ShloMosaic.ValueIdx Idealize.ShloMosaic.TcCoe Idealize.SL.Sem Cert.KernelIdeal Cert.KernelIdeal.Gen Cert.RN

variable (m : (ℓ : Loc nD τ sig) → Buf (Elt Ideal) ℓ) (ρ : Dev nD → PrngReg) (c : Dev nD) (I : Inp)

theorem stats1_v6 :
    W5 (F := Ideal) m ρ c (Proc.devRef .tc main_v6) = W4 (F := Ideal) m ρ c (Proc.devRef .tc main_v6) :=
  StableHlo.after_of_forall_not_mem (b := Proc.devRef .tc main_v6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem stats1_v9 (hc : Is2 (W4 (F := Ideal) m ρ c (Proc.devRef .tc main_v8)) (cpf I)) :
    Is3 (W5 (F := Ideal) m ρ c (Proc.devRef .tc main_v9)) (cp I) := by
  intro i k j
  show StableHlo.after hostOps2 (W4 m ρ c) (Proc.devRef .tc main_v9) (ix3 i k j) = _
  after_results_simp
  exact is3_rows_cp I shapeCasts_S128x128_S2x64x128 _ hc i k j

theorem stats1_v40
    (hp : Is3 (W4 (F := Ideal) m ρ c (Proc.devRef .tc main_v6)) (pp I))
    (hc : Is2 (W4 (F := Ideal) m ρ c (Proc.devRef .tc main_v8)) (cpf I)) :
    Is4 (W5 (F := Ideal) m ρ c (Proc.devRef .tc main_v40)) (fun (_ : Fin 1) (_ : Fin 1) (_ : Fin 1) o => mean3 (h0 I) o) := by
  have hQ := is3_rows_cp I shapeCasts_S128x128_S2x64x128 (W4 (F := Ideal) m ρ c (Proc.devRef .tc main_v8)) hc
  intro i j k l
  show StableHlo.after hostOps2 (W4 m ρ c) (Proc.devRef .tc main_v40) (ix4 i j k l) = _
  after_results_simp
  exact is4_unit3 shapeCasts_S128_S1x1x1x128 _ _ (meanArr_is I hp hQ) i j k l

theorem stats1_v41
    (hp : Is3 (W4 (F := Ideal) m ρ c (Proc.devRef .tc main_v6)) (pp I))
    (hc : Is2 (W4 (F := Ideal) m ρ c (Proc.devRef .tc main_v8)) (cpf I)) :
    Is4 (W5 (F := Ideal) m ρ c (Proc.devRef .tc main_v41)) (fun (_ : Fin 1) (_ : Fin 1) (_ : Fin 1) o => var3 (h0 I) o) := by
  have hQ := is3_rows_cp I shapeCasts_S128x128_S2x64x128 (W4 (F := Ideal) m ρ c (Proc.devRef .tc main_v8)) hc
  intro i j k l
  show StableHlo.after hostOps2 (W4 m ρ c) (Proc.devRef .tc main_v41) (ix4 i j k l) = _
  after_results_simp
  exact is4_unit3 shapeCasts_S128_S1x1x1x128 _ _ (varArr_is I hp hQ) i j k l

theorem stats1_v42 (hg : Is1 (W4 (F := Ideal) m ρ c (Proc.devRef .tc main_arg3)) I.g1) :
    Is4 (W5 (F := Ideal) m ρ c (Proc.devRef .tc main_v42)) (fun (_ : Fin 1) (_ : Fin 1) (_ : Fin 1) o => I.g1 o) := by
  intro i j k l
  show StableHlo.after hostOps2 (W4 m ρ c) (Proc.devRef .tc main_v42) (ix4 i j k l) = _
  after_results_simp
  exact is4_unit3 shapeCasts_S128_S1x1x1x128 _ _ hg i j k l

theorem stats1_v43 (hb : Is1 (W4 (F := Ideal) m ρ c (Proc.devRef .tc main_arg4)) I.b1) :
    Is4 (W5 (F := Ideal) m ρ c (Proc.devRef .tc main_v43)) (fun (_ : Fin 1) (_ : Fin 1) (_ : Fin 1) o => I.b1 o) := by
  intro i j k l
  show StableHlo.after hostOps2 (W4 m ρ c) (Proc.devRef .tc main_v43) (ix4 i j k l) = _
  after_results_simp
  exact is4_unit3 shapeCasts_S128_S1x1x1x128 _ _ hb i j k l

theorem stage_stats1
    (hp : Is3 (W4 (F := Ideal) m ρ c (Proc.devRef .tc main_v6)) (pp I))
    (hc : Is2 (W4 (F := Ideal) m ρ c (Proc.devRef .tc main_v8)) (cpf I))
    (hg : Is1 (W4 (F := Ideal) m ρ c (Proc.devRef .tc main_arg3)) I.g1)
    (hb : Is1 (W4 (F := Ideal) m ρ c (Proc.devRef .tc main_arg4)) I.b1) :
    Is3 (W5 (F := Ideal) m ρ c (Proc.devRef .tc main_v6)) (pp I)
    ∧ Is3 (W5 (F := Ideal) m ρ c (Proc.devRef .tc main_v9)) (cp I)
    ∧ Is4 (W5 (F := Ideal) m ρ c (Proc.devRef .tc main_v40)) (fun (_ : Fin 1) (_ : Fin 1) (_ : Fin 1) o => mean3 (h0 I) o)
    ∧ Is4 (W5 (F := Ideal) m ρ c (Proc.devRef .tc main_v41)) (fun (_ : Fin 1) (_ : Fin 1) (_ : Fin 1) o => var3 (h0 I) o)
    ∧ Is4 (W5 (F := Ideal) m ρ c (Proc.devRef .tc main_v42)) (fun (_ : Fin 1) (_ : Fin 1) (_ : Fin 1) o => I.g1 o)
    ∧ Is4 (W5 (F := Ideal) m ρ c (Proc.devRef .tc main_v43)) (fun (_ : Fin 1) (_ : Fin 1) (_ : Fin 1) o => I.b1 o) :=
  ⟨(stats1_v6 m ρ c).symm ▸ hp, stats1_v9 m ρ c I hc, stats1_v40 m ρ c I hp hc, stats1_v41 m ρ c I hp hc,
    stats1_v42 m ρ c I hg, stats1_v43 m ρ c I hb⟩

end Cert.KRN.Stats1

end
-- ==== Proof.KLayer1Math.lean ====
import Idealize.ShloMosaic.PureOps.Ideal
import Idealize.ShloMosaic.PureOps.Ideal.Laws
import Idealize.ShloMosaic.Lib.ValueIdx
import proofs.«428405_j30648886624750_3_alg».proof.Proof.Spec
import proofs.«428405_j30648886624750_3_alg».proof.Proof.LibReal
import proofs.«428405_j30648886624750_3_alg».proof.Proof.Consts

noncomputable section

namespace Cert.KRN.Layer1

open Idealize.ShloMosaic Idealize.ShloMosaic.ValueIdx Cert.RN

-- One normalised entry z = g·(x − μ)·(v + ε)^(−1/2) + β through the leaky rectifier: z where z ≥ 0, the slope times z elsewhere.
def bnAct (x μ v g β : EReal) : EReal :=
  let z := g * (x - μ) * Ideal.rsqrt (v + Ideal.ofBits .f32 0x3727C5AC#32) + β
  Scalar.select (Ideal.cmp .oge z (Ideal.ofBits .f32 0x00000000#32)) z (Ideal.ofBits .f32 0x3E4CCCCD#32 * z)

theorem bnAct_coe (x μ v g β : ℝ) (hv : 0 ≤ v) :
    bnAct (x : EReal) (μ : EReal) (v : EReal) (g : EReal) (β : EReal)
      = ((lrelu slopeR (bnv epsR g β μ v x) : ℝ) : EReal) := by
  unfold bnAct
  rw [eps_eq, slope_eq, c0, bnv_coe epsR g β μ v x (by have := eps_pos; linarith), EReal.coe_zero]
  exact lrelu_coe slopeR _

def act1 (p q μ v g β : EReal) : EReal := bnAct (p + q) μ v g β

theorem act1_coe (p q μ v g β : ℝ) (hv : 0 ≤ v) :
    act1 (p : EReal) (q : EReal) (μ : EReal) (v : EReal) (g : EReal) (β : EReal)
      = ((lrelu slopeR (bnv epsR g β μ v (p + q)) : ℝ) : EReal) := by
  rw [act1, ← EReal.coe_add]
  exact bnAct_coe _ _ _ _ _ hv

def G1 (P : (⟨3, ![2, 2048, 128]⟩ : Shape).Idx → EReal) (Q : (⟨3, ![2, 64, 128]⟩ : Shape).Idx → EReal)
    (MU VA GA BE : (⟨4, ![1, 1, 1, 128]⟩ : Shape).Idx → EReal) :
    (⟨4, ![2, 2048, 64, 128]⟩ : Shape).Idx → EReal := fun i =>
  act1 (P (ix3 (i 0) (i 1) (i 3))) (Q (ix3 (i 0) (i 2) (i 3)))
    (MU (ix4 0 0 0 (i 3))) (VA (ix4 0 0 0 (i 3))) (GA (ix4 0 0 0 (i 3))) (BE (ix4 0 0 0 (i 3)))

theorem G1_ix (P : (⟨3, ![2, 2048, 128]⟩ : Shape).Idx → EReal) (Q : (⟨3, ![2, 64, 128]⟩ : Shape).Idx → EReal)
    (MU VA GA BE : (⟨4, ![1, 1, 1, 128]⟩ : Shape).Idx → EReal) (b : Fin 2) (n : Fin 2048) (m : Fin 64) (c : Fin 128) :
    G1 P Q MU VA GA BE (ix4 b n m c)
      = act1 (P (ix3 b n c)) (Q (ix3 b m c)) (MU (ix4 0 0 0 c)) (VA (ix4 0 0 0 c)) (GA (ix4 0 0 0 c)) (BE (ix4 0 0 0 c)) := rfl

theorem G1_is (I : Inp) (P : (⟨3, ![2, 2048, 128]⟩ : Shape).Idx → EReal) (Q : (⟨3, ![2, 64, 128]⟩ : Shape).Idx → EReal)
    (MU VA GA BE : (⟨4, ![1, 1, 1, 128]⟩ : Shape).Idx → EReal)
    (hp : Is3 P (pp I)) (hq : Is3 Q (cp I))
    (hmu : Is4 MU (fun (_ : Fin 1) (_ : Fin 1) (_ : Fin 1) o => mean3 (h0 I) o))
    (hvar : Is4 VA (fun (_ : Fin 1) (_ : Fin 1) (_ : Fin 1) o => var3 (h0 I) o))
    (hg : Is4 GA (fun (_ : Fin 1) (_ : Fin 1) (_ : Fin 1) o => I.g1 o))
    (hb : Is4 BE (fun (_ : Fin 1) (_ : Fin 1) (_ : Fin 1) o => I.b1 o)) :
    Is4 (G1 P Q MU VA GA BE) (h1 epsR slopeR I) := by
  intro b n m c
  rw [G1_ix, hp b n c, hq b m c, hmu 0 0 0 c, hvar 0 0 0 c, hg 0 0 0 c, hb 0 0 0 c]
  exact act1_coe _ _ _ _ _ _ (var3_nonneg (h0 I) c)

end Cert.KRN.Layer1

end
-- ==== Proof.KLayer1.lean ====
import proofs.«428405_j30648886624750_3_alg».proof.Proof.Gen.KernelIdeal.Frame
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KLayer1Math
import proofs.«428405_j30648886624750_3_alg».proof.Proof.KConv2Pay
import Idealize.ShloMosaic.Lib.Pipeline.Value
import Idealize.ShloMosaic.Lib.ValueIdx

noncomputable section

namespace Cert.KRN.Layer1

open Idealize.ShloMosaic Idealize.ShloMosaic.TcCoe Idealize.SL.Sem Idealize.ShloMosaic.ValueIdx Cert.KernelIdeal Cert.KernelIdeal.Gen Cert.RN
open Idealize.ShloMosaic.Pipeline (Dat)

section Layout
variable {α : Type}

theorem bc_row (y : S1x1x1x128.Idx → α) (h : S1x1x1x128.Broadcasts S1x128x64x128)
    (b : Fin 1) (n : Fin 128) (m : Fin 64) (c : Fin 128) :
    broadcastTo S1x128x64x128 y h (ix4 b n m c) = y (ix4 (0 : Fin 1) (0 : Fin 1) (0 : Fin 1) c) :=
  broadcastTo_apply y h _ _ fun a => match a with
    | ⟨0, _⟩ => rfl | ⟨1, _⟩ => rfl | ⟨2, _⟩ => rfl | ⟨3, _⟩ => rfl

theorem bc_pts (y : S1x128x1x128.Idx → α) (h : S1x128x1x128.Broadcasts S1x128x64x128)
    (b : Fin 1) (n : Fin 128) (m : Fin 64) (c : Fin 128) :
    broadcastTo S1x128x64x128 y h (ix4 b n m c) = y (ix4 (0 : Fin 1) n (0 : Fin 1) c) :=
  broadcastTo_apply y h _ _ fun a => match a with
    | ⟨0, _⟩ => rfl | ⟨1, _⟩ => rfl | ⟨2, _⟩ => rfl | ⟨3, _⟩ => rfl

theorem bc_ctr (y : S1x1x64x128.Idx → α) (h : S1x1x64x128.Broadcasts S1x128x64x128)
    (b : Fin 1) (n : Fin 128) (m : Fin 64) (c : Fin 128) :
    broadcastTo S1x128x64x128 y h (ix4 b n m c) = y (ix4 (0 : Fin 1) (0 : Fin 1) m c) :=
  broadcastTo_apply y h _ _ fun a => match a with
    | ⟨0, _⟩ => rfl | ⟨1, _⟩ => rfl | ⟨2, _⟩ => rfl | ⟨3, _⟩ => rfl

theorem sc_pts (x : S1x128x128.Idx → α) (h : S1x128x128.ShapeCasts S1x128x1x128) (n : Fin 128) (c : Fin 128) :
    shapeCast S1x128x1x128 x h (ix4 (0 : Fin 1) n (0 : Fin 1) c) = x (ix3 (0 : Fin 1) n c) :=
  shapeCast_apply x h _ _ (by
    rw [Shape.rowMajor_val_three, Shape.rowMajor_val_four]
    show (0 * 128 + n.val) * 128 + c.val = ((0 * 128 + n.val) * 1 + 0) * 128 + c.val
    omega)

theorem sc_ctr (x : S1x64x128.Idx → α) (h : S1x64x128.ShapeCasts S1x1x64x128) (m : Fin 64) (c : Fin 128) :
    shapeCast S1x1x64x128 x h (ix4 (0 : Fin 1) (0 : Fin 1) m c) = x (ix3 (0 : Fin 1) m c) :=
  shapeCast_apply x h _ _ (by
    rw [Shape.rowMajor_val_three, Shape.rowMajor_val_four]
    show (0 * 64 + m.val) * 128 + c.val = ((0 * 1 + 0) * 64 + m.val) * 128 + c.val
    omega)

end Layout

theorem pay_apply (x0 : Vec Ideal S1x128x128 .f32) (x1 : Vec Ideal S1x64x128 .f32)
    (x2 x3 x4 x5 : Vec Ideal S1x1x1x128 .f32) (b : Fin 1) (n : Fin 128) (m : Fin 64) (c : Fin 128) :
    k2_pay1 (k2_pay2 x0 x1 x2 x3 x4 x5) (ix4 b n m c)
      = act1 (x0 (ix3 (0 : Fin 1) n c)) (x1 (ix3 (0 : Fin 1) m c))
          (x2 (ix4 (0 : Fin 1) (0 : Fin 1) (0 : Fin 1) c)) (x3 (ix4 (0 : Fin 1) (0 : Fin 1) (0 : Fin 1) c))
          (x4 (ix4 (0 : Fin 1) (0 : Fin 1) (0 : Fin 1) c)) (x5 (ix4 (0 : Fin 1) (0 : Fin 1) (0 : Fin 1) c)) := by
  unfold k2_pay1 k2_pay2 act1 bnAct
  simp only [truncf_apply, select_apply, cmpf_apply, mulf_apply, addf_apply, subf_apply, broadcast_apply,
    bc_row, bc_pts, bc_ctr, sc_pts, sc_ctr, shapeCast_self]
  rfl

variable (m : (ℓ : Loc nD τ sig) → Buf (Elt Ideal) ℓ) (ρ : Dev nD → PrngReg)

theorem idx_facts : ∀ t : Fin cfg2.N,
    win2_6.index t (0 : Fin 4) = t.val / 16 ∧ win2_6.index t (1 : Fin 4) = t.val % 16
    ∧ win2_6.index t (2 : Fin 4) = 0 ∧ win2_6.index t (3 : Fin 4) = 0
    ∧ win2_0.index t (0 : Fin 3) = t.val / 16 ∧ win2_0.index t (1 : Fin 3) = t.val % 16 ∧ win2_0.index t (2 : Fin 3) = 0
    ∧ win2_1.index t (0 : Fin 3) = t.val / 16 ∧ win2_1.index t (1 : Fin 3) = 0 ∧ win2_1.index t (2 : Fin 3) = 0
    ∧ (∀ a : Fin 4, win2_2.index t a = 0) ∧ (∀ a : Fin 4, win2_3.index t a = 0)
    ∧ (∀ a : Fin 4, win2_4.index t a = 0) ∧ (∀ a : Fin 4, win2_5.index t a = 0) :=
  (by decide +kernel : ∀ t : Fin grid2.N, _)

abbrev Garr (c : Dev nD) : (⟨4, ![2, 2048, 64, 128]⟩ : Shape).Idx → EReal :=
  G1 (V5 m ρ c main_v6) (V5 m ρ c main_v9) (V5 m ρ c main_v40) (V5 m ρ c main_v41) (V5 m ρ c main_v42) (V5 m ρ c main_v43)

theorem read6 (t : Fin cfg2.N) (G : (⟨4, ![2, 2048, 64, 128]⟩ : Shape).Idx → EReal) (j : S1x128x64x128.Idx) :
    ((cfg2.win 6).blk t).view.read (Elt Ideal) G j = G (((cfg2.win 6).blk t).view.emb j) := rfl

theorem cut6 (t : Fin cfg2.N) (X : S1x128x64x128.Idx → EReal) (j : S1x128x64x128.Idx) :
    (cfg2.win 6).cut (grid2.coords t) X j = X j := rfl

theorem rd0 (c : Dev nD) (t : Fin cfg2.N) (y : S1x128x128.Idx) :
    iblk2 (V5 m ρ) c 0 t y = V5 m ρ c main_v6 (((cfg2.win 0).blk t).view.emb y) := rfl
theorem rd1 (c : Dev nD) (t : Fin cfg2.N) (y : S1x64x128.Idx) :
    iblk2 (V5 m ρ) c 1 t y = V5 m ρ c main_v9 (((cfg2.win 1).blk t).view.emb y) := rfl
theorem flushed_eq (c : Dev nD) (t : Fin cfg2.N) :
    (dat2 (V5 m ρ) c).flushed 6 t = ((cfg2.win 6).blk t).view.read (Elt Ideal) (Garr m ρ c) := by
  show (cfg2.win 6).cut (grid2.coords t) ((dat2 (V5 m ρ) c).after 6 t) = _
  rw [after2_6]
  unfold out2_6
  rw [View.canon_unit_zero hz4]
  simp only [View.ld_unit_zero (S := S1x128x128) hz3, View.ld_unit_zero (S := S1x64x128) hz3, View.ld_unit_zero (S := S1x1x1x128) hz4]
  obtain ⟨e60, e61, e62, e63, e00, e01, e02, e10, e11, e12, h2, h3, h4, h5⟩ := idx_facts t
  have htN : t.val < 32 := t.isLt
  refine funext fun (j : S1x128x64x128.Idx) => ?_
  refine Eq.trans ?_ (read6 t (Garr m ρ c) j).symm
  refine (cut6 t _ j).trans ?_
  obtain ⟨b, n, mm, cc, rfl⟩ : ∃ (b : Fin 1) (n : Fin 128) (mm : Fin 64) (cc : Fin 128), j = ix4 b n mm cc :=
    ⟨j 0, j 1, j 2, j 3, eq_ix4 j⟩
  have hb : b.val = 0 := by omega
  refine (pay_apply (iblk2 (V5 m ρ) c 0 t) (iblk2 (V5 m ρ) c 1 t) (iblk2 (V5 m ρ) c 2 t) (iblk2 (V5 m ρ) c 3 t)
      (iblk2 (V5 m ρ) c 4 t) (iblk2 (V5 m ρ) c 5 t) b n mm cc).trans ?_
  have E6 : ((cfg2.win 6).blk t).view.emb (ix4 b n mm cc)
      = ix4 (⟨t.val / 16, by omega⟩ : Fin 2) (⟨t.val % 16 * 128 + n.val, by omega⟩ : Fin 2048) mm cc := by
    funext a; apply Fin.ext
    match a with
    | ⟨0, _⟩ => show win2_6.index t (0 : Fin 4) * 1 + 1 * b.val = t.val / 16; omega
    | ⟨1, _⟩ => show win2_6.index t (1 : Fin 4) * 128 + 1 * n.val = t.val % 16 * 128 + n.val; omega
    | ⟨2, _⟩ => show win2_6.index t (2 : Fin 4) * 64 + 1 * mm.val = mm.val; omega
    | ⟨3, _⟩ => show win2_6.index t (3 : Fin 4) * 128 + 1 * cc.val = cc.val; omega
  have E0 : ((cfg2.win 0).blk t).view.emb (ix3 (0 : Fin 1) n cc)
      = ix3 (⟨t.val / 16, by omega⟩ : Fin 2) (⟨t.val % 16 * 128 + n.val, by omega⟩ : Fin 2048) cc := by
    funext a; apply Fin.ext
    match a with
    | ⟨0, _⟩ => show win2_0.index t (0 : Fin 3) * 1 + 1 * 0 = t.val / 16; omega
    | ⟨1, _⟩ => show win2_0.index t (1 : Fin 3) * 128 + 1 * n.val = t.val % 16 * 128 + n.val; omega
    | ⟨2, _⟩ => show win2_0.index t (2 : Fin 3) * 128 + 1 * cc.val = cc.val; omega
  have E1 : ((cfg2.win 1).blk t).view.emb (ix3 (0 : Fin 1) mm cc)
      = ix3 (⟨t.val / 16, by omega⟩ : Fin 2) mm cc := by
    funext a; apply Fin.ext
    match a with
    | ⟨0, _⟩ => show win2_1.index t (0 : Fin 3) * 1 + 1 * 0 = t.val / 16; omega
    | ⟨1, _⟩ => show win2_1.index t (1 : Fin 3) * 64 + 1 * mm.val = mm.val; omega
    | ⟨2, _⟩ => show win2_1.index t (2 : Fin 3) * 128 + 1 * cc.val = cc.val; omega
  have E2 : iblk2 (V5 m ρ) c 2 t = V5 m ρ c main_v40 := whole_read main_v40 _ h2 _ _
  have E3 : iblk2 (V5 m ρ) c 3 t = V5 m ρ c main_v41 := whole_read main_v41 _ h3 _ _
  have E4 : iblk2 (V5 m ρ) c 4 t = V5 m ρ c main_v42 := whole_read main_v42 _ h4 _ _
  have E5 : iblk2 (V5 m ρ) c 5 t = V5 m ρ c main_v43 := whole_read main_v43 _ h5 _ _
  rw [E6]
  refine Eq.trans ?_ (G1_ix _ _ _ _ _ _ _ _ mm cc).symm
  rw [rd0, rd1, E0, E1, E2, E3, E4, E5]

theorem cover6 (i : (⟨4, ![2, 2048, 64, 128]⟩ : Shape).Idx) :
    ∃ t : Fin cfg2.N, (cfg2.win 6).flush t = true ∧ i ∈ ((cfg2.win 6).blk t).view.set := by
  have i0 : (i 0).val < 2 := (i 0).isLt
  have i1 : (i 1).val < 2048 := (i 1).isLt
  have i2 : (i 2).val < 64 := (i 2).isLt
  have i3 : (i 3).val < 128 := (i 3).isLt
  obtain ⟨t, tv⟩ : ∃ t : Fin cfg2.N, t.val = (i 0).val * 16 + (i 1).val / 128 :=
    ⟨⟨(i 0).val * 16 + (i 1).val / 128, (by omega : (i 0).val * 16 + (i 1).val / 128 < 32).trans_eq N_2.symm⟩, rfl⟩
  obtain ⟨e60, e61, e62, e63, -⟩ := idx_facts t
  refine ⟨t, flush2_6 t, ?_⟩
  show i ∈ ((View.whole main_v44).slice (win2_6.rect t)).set
  rw [View.set_slice_whole, Rect.mem_set_unit]
  intro a
  match a with
  | ⟨0, _⟩ => show win2_6.index t (0 : Fin 4) * 1 ≤ (i 0).val ∧ (i 0).val < win2_6.index t (0 : Fin 4) * 1 + 1; omega
  | ⟨1, _⟩ => show win2_6.index t (1 : Fin 4) * 128 ≤ (i 1).val ∧ (i 1).val < win2_6.index t (1 : Fin 4) * 128 + 128; omega
  | ⟨2, _⟩ => show win2_6.index t (2 : Fin 4) * 64 ≤ (i 2).val ∧ (i 2).val < win2_6.index t (2 : Fin 4) * 64 + 64; omega
  | ⟨3, _⟩ => show win2_6.index t (3 : Fin 4) * 128 ≤ (i 3).val ∧ (i 3).val < win2_6.index t (3 : Fin 4) * 128 + 128; omega

theorem final6 (c : Dev nD) : W6 m ρ c (Proc.devRef .tc main_v44) = Garr m ρ c :=
  (W6_arr m ρ c 6).trans
    ((dat2 (V5 m ρ) c).arrAt_eq_of_cover 6 (Garr m ρ c) (fun t _ => flushed_eq m ρ c t) cover6)

end Cert.KRN.Layer1

namespace Cert.KRN

open Idealize.ShloMosaic Idealize.ShloMosaic.TcCoe Idealize.SL.Sem Cert.KernelIdeal Cert.KernelIdeal.Gen Cert.RN

variable (m : (ℓ : Loc nD τ sig) → Buf (Elt Ideal) ℓ) (ρ : Dev nD → PrngReg) (c : Dev nD) (I : Inp)

theorem stage_h1
    (hp : Is3 (W5 (F := Ideal) m ρ c (Proc.devRef .tc main_v6)) (pp I))
    (hq : Is3 (W5 (F := Ideal) m ρ c (Proc.devRef .tc main_v9)) (cp I))
    (hmu : Is4 (W5 (F := Ideal) m ρ c (Proc.devRef .tc main_v40)) (fun (_ : Fin 1) (_ : Fin 1) (_ : Fin 1) o => mean3 (h0 I) o))
    (hvar : Is4 (W5 (F := Ideal) m ρ c (Proc.devRef .tc main_v41)) (fun (_ : Fin 1) (_ : Fin 1) (_ : Fin 1) o => var3 (h0 I) o))
    (hg : Is4 (W5 (F := Ideal) m ρ c (Proc.devRef .tc main_v42)) (fun (_ : Fin 1) (_ : Fin 1) (_ : Fin 1) o => I.g1 o))
    (hb : Is4 (W5 (F := Ideal) m ρ c (Proc.devRef .tc main_v43)) (fun (_ : Fin 1) (_ : Fin 1) (_ : Fin 1) o => I.b1 o)) :
    Is4 (W6 (F := Ideal) m ρ c (Proc.devRef .tc main_v44)) (h1 epsR slopeR I) := by
  rw [Layer1.final6 m ρ c]
  exact Layer1.G1_is I _ _ _ _ _ _ hp hq hmu hvar hg hb

end Cert.KRN

end
-- ==== Proof.KConv2.lean ====
import proofs.«428405_j30648886624750_3_alg».proof.Proof.Gen.KernelIdeal.Frame
import Idealize.ShloMosaic.Lib.ValueLayout
import Idealize.ShloMosaic.Lib.Pipeline.Value
import Idealize.ShloMosaic.Lib.StableHlo.Run
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KConv2Pay

noncomputable section

namespace Cert.KRN

open Idealize.ShloMosaic Idealize.ShloMosaic.TcCoe Idealize.ShloMosaic.ValueIdx Idealize.SL.Sem Cert.KernelIdeal Cert.KernelIdeal.Gen Cert.RN
open Idealize.ShloMosaic.Pipeline (Dat)

variable (m : (ℓ : Loc nD τ sig) → Buf (Elt Ideal) ℓ) (ρ : Dev nD → PrngReg) (c : Dev nD) (I : Inp)

namespace Conv2

theorem idx3 : ∀ t : Fin cfg3.N, (∀ a, win3_0.index t a = ![t.val, 0] a) ∧ (∀ a, win3_1.index t a = 0)
    ∧ (∀ a, win3_2.index t a = ![t.val, 0] a) ∧ (∀ a, win3_3.index t a = ![t.val, 0, 0] a)
    ∧ (∀ a, win3_4.index t a = ![t.val, 0, 0] a) :=
  (by decide +kernel : ∀ t : Fin grid3.N, _)

theorem entry45 (hh : Is4 (W6 (F := Ideal) m ρ c (Proc.devRef .tc main_v44)) (h1 epsR slopeR I)) (r : Fin 262144) (k : Fin 128) :
    (V7 (F := Ideal) m ρ c main_v45 : S262144x128.Idx → EReal) (ix2 r k)
      = ((h1 epsR slopeR I (rowB r) (rowN r) (rowM r) k : ℝ) : EReal) := by
  have e : (V7 (F := Ideal) m ρ c main_v45 : S262144x128.Idx → EReal)
      = shapeCast S262144x128 (W6 (F := Ideal) m ρ c (Proc.devRef .tc main_v44) : S2x2048x64x128.Idx → EReal)
          shapeCasts_S2x2048x64x128_S262144x128 := by
    show StableHlo.after hostOps3 (W6 m ρ c) (Proc.devRef .tc main_v45) = _
    after_results
    rfl
  rw [e]
  refine (shapeCast_apply _ _ (ix2 r k) (ix4 (rowB r) (rowN r) (rowM r) k) ?_).trans (hh _ _ _ _)
  rw [Shape.rowMajor_val_four, Shape.rowMajor_val_two]
  show (((r.val / 131072) * 2048 + r.val / 64 % 2048) * 64 + r.val % 64) * 128 + k.val = r.val * 128 + k.val
  have := r.isLt
  omega

theorem entry46 (hw : Is2 (W6 (F := Ideal) m ρ c (Proc.devRef .tc main_arg5)) I.W2) (k : Fin 128) (o : Fin 256) :
    (V7 (F := Ideal) m ρ c main_v46 : S128x256.Idx → EReal) (ix2 k o) = ((I.W2 o k : ℝ) : EReal) := by
  have e : (V7 (F := Ideal) m ρ c main_v46 : S128x256.Idx → EReal)
      = transpose S128x256 [1, 0] (W6 (F := Ideal) m ρ c (Proc.devRef .tc main_arg5) : S256x128.Idx → EReal)
          transposes_S256x128_S128x256_1_0 := by
    show StableHlo.after hostOps3 (W6 m ρ c) (Proc.devRef .tc main_v46) = _
    after_results
  rw [e]
  exact (transpose_ix2_apply _ _ k o).trans (hw o k)

section Blocks
variable (V : (c : Dev nD) → (b : Ref sig .tc) → Buf (Elt Ideal) ((c : Thread nD τ).loc b))

theorem blk0_apply (t : Fin cfg3.N) (p : Fin 4096) (k : Fin 128) :
    (iblk3 (F := Ideal) V c 0 t : Vec Ideal S4096x128 .bf16) (ix2 p k)
      = (V c main_v45 : S262144x128.Idx → EReal) (ix2 (tileRow (t.cast N_3) p) k) := by
  have e0 : win3_0.index t 0 = t.val := (idx3 t).1 0
  have e1 : win3_0.index t 1 = 0 := (idx3 t).1 1
  unfold iblk3
  rw [View.read_apply]
  show (V c main_v45 : S262144x128.Idx → EReal) _ = (V c main_v45 : S262144x128.Idx → EReal) _
  refine congrArg _ (funext fun a => Fin.ext ?_)
  match a with
  | ⟨0, _⟩ => show win3_0.index t (0 : Fin 2) * 4096 + 1 * p.val = 4096 * t.val + p.val; omega
  | ⟨1, _⟩ => show win3_0.index t (1 : Fin 2) * 128 + 1 * k.val = k.val; omega

end Blocks

section Flushed
variable (hh : Is4 (W6 (F := Ideal) m ρ c (Proc.devRef .tc main_v44)) (h1 epsR slopeR I))
  (hw : Is2 (W6 (F := Ideal) m ρ c (Proc.devRef .tc main_arg5)) I.W2) (t : Fin cfg3.N)
include hh hw

-- The product at point t is tile t of the second product.
theorem prodAt (p : Fin 4096) (o : Fin 256) :
    k3_pay1 (F := Ideal) (iblk3 (V7 m ρ) c 0 t) (iblk3 (V7 m ρ) c 1 t) (ix2 p o)
      = ((y2f epsR slopeR I (tileRow (t.cast N_3) p) o : ℝ) : EReal) := by
  rw [pay1_apply]
  refine (Finset.sum_congr rfl fun k _ => ?_).trans
    (dot_coe (fun k => h1 epsR slopeR I _ _ _ k) fun k => I.W2 o k)
  exact congrArg₂ (· * ·) ((blk0_apply c (V7 m ρ) t p k).trans (entry45 m ρ c I hh _ k))
    ((congrFun (whole_read main_v46 _ (idx3 t).2.1 _ _) _).trans (entry46 m ρ c I hw k o))

theorem flushed2_eq :
    (dat3 (F := Ideal) (V7 m ρ) c).flushed 2 t = ((cfg3.win 2).blk t).view.read (Elt Ideal) (GY (y2f epsR slopeR I)) := by
  show (cfg3.win 2).cut (grid3.coords t) ((dat3 (F := Ideal) (V7 m ρ) c).after 2 t) = _
  rw [after3_2]
  unfold out3_2
  rw [View.canon_unit_zero hz2]
  simp only [View.ld_unit_zero (S := S4096x128) hz2, View.ld_unit_zero (S := S128x256) hz2]
  funext j
  obtain ⟨p, o, rfl⟩ : ∃ (p : Fin 4096) (o : Fin 256), j = ix2 p o := ⟨j 0, j 1, eq_ix2 j⟩
  exact (prodAt m ρ c I hh hw t p o).trans
    (GY_blk _ (t.cast N_3) _ (idx3 t).2.2.1 _ p o (win3_2.rect_emb_val t _))

theorem flushed3_eq :
    (dat3 (F := Ideal) (V7 m ρ) c).flushed 3 t = ((cfg3.win 3).blk t).view.read (Elt Ideal) (GS (y2f epsR slopeR I)) := by
  show (cfg3.win 3).cut (grid3.coords t) ((dat3 (F := Ideal) (V7 m ρ) c).after 3 t) = _
  rw [after3_3]
  unfold out3_3
  rw [View.canon_unit_zero hz3]
  simp only [View.ld_unit_zero (S := S4096x128) hz2, View.ld_unit_zero (S := S128x256) hz2]
  funext j
  obtain ⟨u, s, o, rfl⟩ : ∃ (u : Fin 1) (s : Fin 8) (o : Fin 256), j = ix3 u s o := ⟨j 0, j 1, j 2, eq_ix3 j⟩
  exact (pay3_apply _ _ u s o).trans
    ((tile_coe (y2f epsR slopeR I) (t.cast N_3) o _ fun p => prodAt m ρ c I hh hw t p o).1.trans
      (GS_blk _ (t.cast N_3) _ (idx3 t).2.2.2.1 _ u s o (win3_3.rect_emb_val t _)))

theorem flushed4_eq :
    (dat3 (F := Ideal) (V7 m ρ) c).flushed 4 t
      = ((cfg3.win 4).blk t).view.read (Elt Ideal) (GS fun r o => y2f epsR slopeR I r o * y2f epsR slopeR I r o) := by
  show (cfg3.win 4).cut (grid3.coords t) ((dat3 (F := Ideal) (V7 m ρ) c).after 4 t) = _
  rw [after3_4]
  unfold out3_4
  rw [View.canon_unit_zero hz3]
  simp only [View.ld_unit_zero (S := S4096x128) hz2, View.ld_unit_zero (S := S128x256) hz2]
  funext j
  obtain ⟨u, s, o, rfl⟩ : ∃ (u : Fin 1) (s : Fin 8) (o : Fin 256), j = ix3 u s o := ⟨j 0, j 1, j 2, eq_ix3 j⟩
  exact (pay4_apply _ _ u s o).trans
    ((tile_coe (y2f epsR slopeR I) (t.cast N_3) o _ fun p => prodAt m ρ c I hh hw t p o).2.trans
      (GS_blk _ (t.cast N_3) _ (idx3 t).2.2.2.2 _ u s o (win3_4.rect_emb_val t _)))

end Flushed

theorem cover2 (i : S262144x256.Idx) :
    ∃ t : Fin cfg3.N, (cfg3.win 2).flush t = true ∧ i ∈ ((cfg3.win 2).blk t).view.set := by
  obtain ⟨t, hf, h⟩ := tile_cover win3_2 N_3 (by decide) flush3_2 (0 : Fin 2) (by decide +kernel) i
  exact ⟨t, hf, (View.set_slice_whole main_v47_0 (win3_2.rect t)).symm ▸ h⟩

theorem cover3 (i : S64x8x256.Idx) :
    ∃ t : Fin cfg3.N, (cfg3.win 3).flush t = true ∧ i ∈ ((cfg3.win 3).blk t).view.set := by
  obtain ⟨t, hf, h⟩ := tile_cover win3_3 N_3 (by decide) flush3_3 (0 : Fin 3) (by decide +kernel) i
  exact ⟨t, hf, (View.set_slice_whole main_v47_1 (win3_3.rect t)).symm ▸ h⟩

theorem cover4 (i : S64x8x256.Idx) :
    ∃ t : Fin cfg3.N, (cfg3.win 4).flush t = true ∧ i ∈ ((cfg3.win 4).blk t).view.set := by
  obtain ⟨t, hf, h⟩ := tile_cover win3_4 N_3 (by decide) flush3_4 (0 : Fin 3) (by decide +kernel) i
  exact ⟨t, hf, (View.set_slice_whole main_v47_2 (win3_4.rect t)).symm ▸ h⟩

end Conv2

open Conv2 in
theorem stage_y2
    (hh : Is4 (W6 (F := Ideal) m ρ c (Proc.devRef .tc main_v44)) (h1 epsR slopeR I))
    (hw : Is2 (W6 (F := Ideal) m ρ c (Proc.devRef .tc main_arg5)) I.W2) :
    Is2 (W8 (F := Ideal) m ρ c (Proc.devRef .tc main_v47_0)) (y2f epsR slopeR I)
    ∧ Is3 (W8 (F := Ideal) m ρ c (Proc.devRef .tc main_v47_1)) (fun t (_ : Fin 8) o => tsum3 (y2f epsR slopeR I) t o)
    ∧ Is3 (W8 (F := Ideal) m ρ c (Proc.devRef .tc main_v47_2)) (fun t (_ : Fin 8) o => tsum3 (fun r o => y2f epsR slopeR I r o * y2f epsR slopeR I r o) t o) := by
  have w2 := (W8_arr (F := Ideal) m ρ c 2).trans ((dat3 (F := Ideal) (V7 m ρ) c).arrAt_eq_of_cover 2
    (GY (y2f epsR slopeR I)) (fun t _ => flushed2_eq m ρ c I hh hw t) cover2)
  have w3 := (W8_arr (F := Ideal) m ρ c 3).trans ((dat3 (F := Ideal) (V7 m ρ) c).arrAt_eq_of_cover 3
    (GS (y2f epsR slopeR I)) (fun t _ => flushed3_eq m ρ c I hh hw t) cover3)
  have w4 := (W8_arr (F := Ideal) m ρ c 4).trans ((dat3 (F := Ideal) (V7 m ρ) c).arrAt_eq_of_cover 4
    (GS fun r o => y2f epsR slopeR I r o * y2f epsR slopeR I r o) (fun t _ => flushed4_eq m ρ c I hh hw t) cover4)
  exact ⟨fun i j => congrFun w2 (ix2 i j), fun t s o => congrFun w3 (ix3 t s o), fun t s o => congrFun w4 (ix3 t s o)⟩

end Cert.KRN

end
-- ==== Proof.KStats23Lib.lean ====
import Idealize.ShloMosaic.Lib.ValueLayout
import Idealize.ShloMosaic.Lib.IdealHost
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts

noncomputable section

namespace Cert.RN

open Idealize.ShloMosaic Idealize.ShloMosaic.ValueIdx

variable {T C : Nat} (hr : (⟨3, ![T, 8, C]⟩ : Shape).ReducesTo [0, 1] ⟨1, ![C]⟩) (hu : 0 < (⟨0, ![]⟩ : Shape).numel)
  (hb : (⟨0, ![]⟩ : Shape).BroadcastsInDim ⟨1, ![C]⟩ ![]) (cN : BitVec 32)

def avgT (S : FVec Ideal ⟨3, ![T, 8, C]⟩ .f32) : FVec Ideal ⟨1, ![C]⟩ .f32 :=
  Host.divf
    (Host.divf (Host.reduceAdd S (constant (F := Ideal) ⟨0, ![]⟩ .f32 0x00000000#32) hr hu)
      (broadcastInDim ⟨1, ![C]⟩ ![] hb (constant (F := Ideal) ⟨0, ![]⟩ .f32 0x41000000#32)))
    (broadcastInDim ⟨1, ![C]⟩ ![] hb (constant (F := Ideal) ⟨0, ![]⟩ .f32 cN))

def varT (S Q : FVec Ideal ⟨3, ![T, 8, C]⟩ .f32) : FVec Ideal ⟨1, ![C]⟩ .f32 :=
  maximumf (subf (avgT hr hu hb cN Q) (mulf (avgT hr hu hb cN S) (avgT hr hu hb cN S)))
    (broadcastInDim ⟨1, ![C]⟩ ![] hb (constant (F := Ideal) ⟨0, ![]⟩ .f32 0x00000000#32))

variable {cN} {S Q : FVec Ideal ⟨3, ![T, 8, C]⟩ .f32} {g q : Fin T → Fin C → ℝ} {N : ℝ}

-- T tile sums, each in 8 equal copies, summed and divided by 8 and by N: their total over N.
theorem avgT_read (hc : Ideal.ofBits .f32 cN = ((N : ℝ) : EReal)) (hN : N ≠ 0) (hS : Is3 S fun t (_ : Fin 8) o => g t o) (o : Fin C) :
    avgT hr hu hb cN S (ix1 o) = (((∑ t, g t o) / N : ℝ) : EReal) := by
  have e (t : Fin T) : (∑ k : Fin 8, S (ix3 t k o)) = ((8 * g t o : ℝ) : EReal) := by
    rw [Finset.sum_congr rfl fun k _ => hS t k o, coe_sum, Finset.sum_const, Finset.card_univ, Fintype.card_fin,
      nsmul_eq_mul]
    norm_num
  unfold avgT
  rw [hostDivf_apply, hostDivf_apply, hostReduceAdd_apply, hostReduceAdd_01, broadcastInDim_scalar_apply,
    broadcastInDim_scalar_apply, constant_apply, constant_apply, constant_apply, c0, c8, hc,
    Finset.sum_congr rfl fun t _ => e t, coe_sum, ← Finset.mul_sum, ← EReal.coe_add, zero_add,
    div_coe_coe _ _ (by norm_num), div_coe_coe _ _ hN, mul_div_cancel_left₀ _ (by norm_num : (8 : ℝ) ≠ 0)]

-- With the total over N named μ, and E[y²] − μ² clipped at zero named v, the two arrays are μ and v.
theorem stats_read {μ v : Fin C → ℝ} (hc : Ideal.ofBits .f32 cN = ((N : ℝ) : EReal)) (hN : N ≠ 0)
    (h : (∀ o, (∑ t, g t o) / N = μ o) ∧ ∀ o, max ((∑ t, q t o) / N - μ o * μ o) 0 = v o)
    (hS : Is3 S fun t (_ : Fin 8) o => g t o) (hQ : Is3 Q fun t (_ : Fin 8) o => q t o) :
    Is1 (avgT hr hu hb cN S) μ ∧ Is1 (varT hr hu hb cN S Q) v :=
  ⟨fun o => by rw [avgT_read hr hu hb hc hN hS, h.1],
   fun o => by
    unfold varT
    rw [maximumf_apply, subf_apply, mulf_apply, avgT_read hr hu hb hc hN hS, avgT_read hr hu hb hc hN hQ, broadcastInDim_scalar_apply,
      constant_apply, c0, ← EReal.coe_mul, ← EReal.coe_sub, EReal.coe_zero, relu_coe, h.1, h.2]⟩

theorem row_read {A : FVec Ideal ⟨1, ![C]⟩ .f32} {f : Fin C → ℝ} (h : (⟨1, ![C]⟩ : Shape).ShapeCasts ⟨2, ![1, C]⟩)
    (hA : Is1 A f) : Is2 (shapeCast ⟨2, ![1, C]⟩ A h) fun _ o => f o :=
  fun u o => (shapeCast_a_1a_apply A h u o).trans (hA o)

theorem row_read4 {A : FVec Ideal ⟨1, ![C]⟩ .f32} {f : Fin C → ℝ}
    (h : (⟨1, ![C]⟩ : Shape).ShapeCasts ⟨4, ![1, 1, 1, C]⟩) (hA : Is1 A f) :
    Is4 (shapeCast ⟨4, ![1, 1, 1, C]⟩ A h) fun _ _ _ o => f o :=
  fun u v w o => (shapeCast_apply A h _ _ (by
    rw [Shape.rowMajor_val_four, Shape.rowMajor_val_one]
    show o.val = ((u.val * 1 + v.val) * 1 + w.val) * C + o.val
    simp [Fin.val_eq_zero])).trans (hA o)

theorem digits3 {α : Type} (X : Fin 2 → Fin 2048 → Fin 64 → α) (b : Fin 2) (n : Fin 2048) (m : Fin 64)
    (h : (b.val * 2048 + n.val) * 64 + m.val < 262144) : X (rowB ⟨_, h⟩) (rowN ⟨_, h⟩) (rowM ⟨_, h⟩) = X b n m := by
  rw [show rowB ⟨_, h⟩ = b from Fin.ext (by simp only [rowB]; omega),
    show rowN ⟨_, h⟩ = n from Fin.ext (by simp only [rowN]; omega),
    show rowM ⟨_, h⟩ = m from Fin.ext (by simp only [rowM]; omega)]

theorem rows_read {X : Fin 2 → Fin 2048 → Fin 64 → Fin C → ℝ} {A : FVec Ideal ⟨2, ![262144, C]⟩ .f32}
    (h : (⟨2, ![262144, C]⟩ : Shape).ShapeCasts ⟨4, ![2, 2048, 64, C]⟩)
    (hA : Is2 A fun r o => X (rowB r) (rowN r) (rowM r) o) : Is4 (shapeCast ⟨4, ![2, 2048, 64, C]⟩ A h) X :=
  fun b n m o => (shapeCast_apply A h _ (ix2 ⟨(b.val * 2048 + n.val) * 64 + m.val, by omega⟩ o) (by
    rw [Shape.rowMajor_val_four, Shape.rowMajor_val_two]; rfl)).trans
      ((hA _ o).trans (congrArg _ (digits3 (X · · · o) b n m _)))

-- The tile sums of a column add up to its sum over all rows, which is the sum over the rows' digits.
theorem tot3 (X : Fin 2 → Fin 2048 → Fin 64 → Fin C → ℝ) (o : Fin C) :
    ∑ t, tsum3 (fun r o => X (rowB r) (rowN r) (rowM r) o) t o = ∑ b, ∑ n, ∑ m, X b n m o :=
  (sum_tiles 64 4096 fun r : Fin (64 * 4096) => X (rowB r) (rowN r) (rowM r) o).symm.trans <| (sum_rows3 _).trans <|
    Finset.sum_congr rfl fun b _ => Finset.sum_congr rfl fun n _ => Finset.sum_congr rfl fun m _ =>
      digits3 (X · · · o) b n m _

theorem tiles3 (X : Fin 2 → Fin 2048 → Fin 64 → Fin C → ℝ) :
    (∀ o, (∑ t, tsum3 (fun r o => X (rowB r) (rowN r) (rowM r) o) t o) / 262144 = mean3 X o) ∧ ∀ o,
      max ((∑ t, tsum3 (fun r o => X (rowB r) (rowN r) (rowM r) o * X (rowB r) (rowN r) (rowM r) o) t o) / 262144
        - mean3 X o * mean3 X o) 0 = var3 X o :=
  ⟨fun o => by rw [tot3]; rfl, fun o => by rw [tot3 fun b n m o => X b n m o * X b n m o]; exact var3_clip X o⟩

theorem tot2 (X : Fin 2 → Fin 2048 → Fin C → ℝ) (o : Fin C) :
    ∑ t, tsum2 (fun r o => X (rB r) (rN r) o) t o = ∑ b, ∑ n, X b n o := by
  refine (sum_tiles 2 2048 fun r : Fin (2 * 2048) => X (rB r) (rN r) o).symm.trans <| (sum_rows2 _).trans <|
    Finset.sum_congr rfl fun b _ => Finset.sum_congr rfl fun n _ => ?_
  rw [show rB ⟨b.val * 2048 + n.val, by omega⟩ = b from Fin.ext (by simp only [rB]; omega),
    show rN ⟨b.val * 2048 + n.val, by omega⟩ = n from Fin.ext (by simp only [rN]; omega)]

theorem tiles2 (X : Fin 2 → Fin 2048 → Fin C → ℝ) :
    (∀ o, (∑ t, tsum2 (fun r o => X (rB r) (rN r) o) t o) / 4096 = mean2 X o) ∧ ∀ o,
      max ((∑ t, tsum2 (fun r o => X (rB r) (rN r) o * X (rB r) (rN r) o) t o) / 4096 - mean2 X o * mean2 X o) 0
        = var2 X o :=
  ⟨fun o => by rw [tot2]; rfl, fun o => by rw [tot2 fun b n o => X b n o * X b n o]; exact var2_clip X o⟩

end Cert.RN

end
-- ==== Proof.KStats23.lean ====
import proofs.«428405_j30648886624750_3_alg».proof.Proof.Gen.KernelIdeal.Frame
import proofs.«428405_j30648886624750_3_alg».proof.Proof.KStats23Lib
import Idealize.ShloMosaic.Lib.StableHlo.Run

noncomputable section

namespace Cert.KRN.Stats23

open Idealize.ShloMosaic Idealize.ShloMosaic.TcCoe Idealize.SL.Sem Cert.KernelIdeal Cert.KernelIdeal.Gen Cert.RN
open Idealize.ShloMosaic.ValueIdx

variable (m : (ℓ : Loc nD τ sig) → Buf (Elt Ideal) ℓ) (ρ : Dev nD → PrngReg) (c : Dev nD) (I : Inp)

theorem stage_stats2
    (hy : Is2 (W8 (F := Ideal) m ρ c (Proc.devRef .tc main_v47_0)) (y2f epsR slopeR I))
    (hs : Is3 (W8 (F := Ideal) m ρ c (Proc.devRef .tc main_v47_1)) (fun t (_ : Fin 8) o => tsum3 (y2f epsR slopeR I) t o))
    (hq : Is3 (W8 (F := Ideal) m ρ c (Proc.devRef .tc main_v47_2)) (fun t (_ : Fin 8) o => tsum3 (fun r o => y2f epsR slopeR I r o * y2f epsR slopeR I r o) t o))
    (hg : Is1 (W8 (F := Ideal) m ρ c (Proc.devRef .tc main_arg6)) I.g2)
    (hb : Is1 (W8 (F := Ideal) m ρ c (Proc.devRef .tc main_arg7)) I.b2)
    (hw : Is2 (W8 (F := Ideal) m ρ c (Proc.devRef .tc main_arg8)) I.W3) :
    Is2 (W9 (F := Ideal) m ρ c (Proc.devRef .tc main_v47_0)) (y2f epsR slopeR I)
    ∧ Is2 (W9 (F := Ideal) m ρ c (Proc.devRef .tc main_v63)) (fun (_ : Fin 1) o => mean3 (y2 epsR slopeR I) o)
    ∧ Is2 (W9 (F := Ideal) m ρ c (Proc.devRef .tc main_v64)) (fun (_ : Fin 1) o => var3 (y2 epsR slopeR I) o)
    ∧ Is2 (W9 (F := Ideal) m ρ c (Proc.devRef .tc main_v65)) (fun (_ : Fin 1) o => I.g2 o)
    ∧ Is2 (W9 (F := Ideal) m ρ c (Proc.devRef .tc main_v66)) (fun (_ : Fin 1) o => I.b2 o)
    ∧ Is2 (W9 (F := Ideal) m ρ c (Proc.devRef .tc main_v62)) (fun (k : Fin 256) (o : Fin 256) => I.W3 o k) := by
  obtain ⟨hm, hv⟩ := stats_read reducesTo_S64x8x256_S256_d0_1 h_S_ bcast_S_S256 c262144
    (by norm_num) (tiles3 (y2 epsR slopeR I)) hs hq
  refine ⟨fun i j => ?_, fun u o => ?_, fun u o => ?_, fun u o => ?_, fun u o => ?_, fun k o => ?_⟩ <;>
    after_results_simp
  exacts [hy i j, row_read _ hm u o, row_read _ hv u o, row_read _ hg u o, row_read _ hb u o,
    (transpose_ix2_apply _ _ k o).trans (hw o k)]

theorem stage_stats3
    (hy : Is2 (W10 (F := Ideal) m ρ c (Proc.devRef .tc main_v67_0)) (y3f epsR slopeR I))
    (hs : Is3 (W10 (F := Ideal) m ρ c (Proc.devRef .tc main_v67_1)) (fun t (_ : Fin 8) o => tsum3 (y3f epsR slopeR I) t o))
    (hq : Is3 (W10 (F := Ideal) m ρ c (Proc.devRef .tc main_v67_2)) (fun t (_ : Fin 8) o => tsum3 (fun r o => y3f epsR slopeR I r o * y3f epsR slopeR I r o) t o))
    (hg : Is1 (W10 (F := Ideal) m ρ c (Proc.devRef .tc main_arg9)) I.g3)
    (hb : Is1 (W10 (F := Ideal) m ρ c (Proc.devRef .tc main_arg10)) I.b3) :
    Is4 (W11 (F := Ideal) m ρ c (Proc.devRef .tc main_v82)) (y3 epsR slopeR I)
    ∧ Is4 (W11 (F := Ideal) m ρ c (Proc.devRef .tc main_v83)) (fun (_ : Fin 1) (_ : Fin 1) (_ : Fin 1) o => mean3 (y3 epsR slopeR I) o)
    ∧ Is4 (W11 (F := Ideal) m ρ c (Proc.devRef .tc main_v84)) (fun (_ : Fin 1) (_ : Fin 1) (_ : Fin 1) o => var3 (y3 epsR slopeR I) o)
    ∧ Is4 (W11 (F := Ideal) m ρ c (Proc.devRef .tc main_v85)) (fun (_ : Fin 1) (_ : Fin 1) (_ : Fin 1) o => I.g3 o)
    ∧ Is4 (W11 (F := Ideal) m ρ c (Proc.devRef .tc main_v86)) (fun (_ : Fin 1) (_ : Fin 1) (_ : Fin 1) o => I.b3 o) := by
  obtain ⟨hm, hv⟩ := stats_read reducesTo_S64x8x256_S256_d0_1 h_S_ bcast_S_S256 c262144
    (by norm_num) (tiles3 (y3 epsR slopeR I)) hs hq
  refine ⟨fun b n j o => ?_, fun u v w o => ?_, fun u v w o => ?_, fun u v w o => ?_, fun u v w o => ?_⟩ <;>
    after_results_simp
  exacts [rows_read _ hy b n j o, row_read4 _ hm u v w o, row_read4 _ hv u v w o, row_read4 _ hg u v w o,
    row_read4 _ hb u v w o]

end Cert.KRN.Stats23

end
-- ==== Proof.KConv3Pay.lean ====
import proofs.«428405_j30648886624750_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«428405_j30648886624750_3_alg».proof.Proof.KConv2Pay

noncomputable section

namespace Cert.KRN.Conv3

open Idealize.ShloMosaic Idealize.ShloMosaic.ValueIdx Cert.KernelIdeal Cert.KernelIdeal.Gen Cert.RN

variable (x0 : Vec Ideal S4096x256 .bf16) (x1 x2 x3 x4 : Vec Ideal S1x256 .f32) (x5 : Vec Ideal S256x256 .f32)

theorem pay3_apply (p : Fin 4096) (o : Fin 256) :
    k4_pay3 x0 x1 x2 x3 x4 x5 (ix2 p o)
      = ∑ k : Fin 256, actE (x0 (ix2 p k)) (x1 (ix2 (0 : Fin 1) k)) (x2 (ix2 (0 : Fin 1) k)) (x3 (ix2 (0 : Fin 1) k))
          (x4 (ix2 (0 : Fin 1) k)) * x5 (ix2 k o) := by
  unfold k4_pay3
  simp only [shapeCast_self]
  refine (matmul_plain_entry _ rfl _ _ p o).trans ?_
  simp only [truncf_apply, select_apply, cmpf_apply, mulf_apply, addf_apply, subf_apply, broadcast_apply, extf_apply,
    broadcastTo_1b_ab_apply]
  rfl

theorem sum_apply (u : Fin 1) (s : Fin 8) (o : Fin 256) :
    k4_pay1 (k4_pay6 x0 x1 x2 x3 x4 x5) (ix3 u s o) = ∑ p : Fin 4096, k4_pay3 x0 x1 x2 x3 x4 x5 (ix2 p o) := by
  unfold k4_pay1 k4_pay6
  exact Fc.fc_stat_apply _ _ _ _ _ _ _ _ u s o

theorem sq_apply (u : Fin 1) (s : Fin 8) (o : Fin 256) :
    k4_pay2 (k4_pay4 x0 x1 x2 x3 x4 x5) (ix3 u s o)
      = ∑ p : Fin 4096, k4_pay3 x0 x1 x2 x3 x4 x5 (ix2 p o) * k4_pay3 x0 x1 x2 x3 x4 x5 (ix2 p o) := by
  unfold k4_pay2 k4_pay4
  exact Fc.fc_stat_apply _ _ _ _ _ _ _ _ u s o

end Cert.KRN.Conv3

end
-- ==== Proof.KConv3.lean ====
import proofs.«428405_j30648886624750_3_alg».proof.Proof.Gen.KernelIdeal.Frame
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KConv3Pay
import Idealize.ShloMosaic.Lib.Pipeline.Value

noncomputable section

namespace Cert.KRN.Conv3

open Idealize.ShloMosaic Idealize.ShloMosaic.TcCoe Idealize.SL.Sem Cert.KernelIdeal Cert.KernelIdeal.Gen Cert.RN
open Idealize.ShloMosaic.ValueIdx
open Idealize.ShloMosaic.Pipeline (Dat)

theorem idx4 : ∀ t : Fin cfg4.N, (∀ a, win4_0.index t a = ![t.val, 0] a) ∧ (∀ a, win4_1.index t a = 0)
    ∧ (∀ a, win4_2.index t a = 0) ∧ (∀ a, win4_3.index t a = 0) ∧ (∀ a, win4_4.index t a = 0)
    ∧ (∀ a, win4_5.index t a = 0) ∧ (∀ a, win4_6.index t a = ![t.val, 0] a)
    ∧ (∀ a, win4_7.index t a = ![t.val, 0, 0] a) ∧ (∀ a, win4_8.index t a = ![t.val, 0, 0] a) :=
  (by decide +kernel : ∀ t : Fin grid4.N, _)

variable (m : (ℓ : Loc nD τ sig) → Buf (Elt Ideal) ℓ) (ρ : Dev nD → PrngReg) (c : Dev nD) (I : Inp)

theorem blk0_apply (t : Fin cfg4.N) (p : Fin 4096) (k : Fin 256) :
    (iblk4 (V9 (F := Ideal) m ρ) c 0 t : Vec Ideal S4096x256 .bf16) (ix2 p k)
      = (W9 (F := Ideal) m ρ c (Proc.devRef .tc main_v47_0) : S262144x256.Idx → EReal) (ix2 (tileRow (t.cast N_4) p) k) := by
  have e0 : win4_0.index t 0 = t.val := (idx4 t).1 0
  have e1 : win4_0.index t 1 = 0 := (idx4 t).1 1
  unfold iblk4
  rw [View.read_apply]
  show V9 (F := Ideal) m ρ c main_v47_0 _ = W9 (F := Ideal) m ρ c (Proc.devRef .tc main_v47_0) _
  refine congrArg _ (funext fun a => Fin.ext ?_)
  match a with
  | ⟨0, _⟩ => show win4_0.index t (0 : Fin 2) * 4096 + 1 * p.val = 4096 * t.val + p.val; omega
  | ⟨1, _⟩ => show win4_0.index t (1 : Fin 2) * 256 + 1 * k.val = k.val; omega

theorem cover6 (i : S262144x256.Idx) :
    ∃ t : Fin cfg4.N, (cfg4.win 6).flush t = true ∧ i ∈ ((cfg4.win 6).blk t).view.set := by
  obtain ⟨t, hf, h⟩ := tile_cover win4_6 N_4 (by decide) flush4_6 (0 : Fin 2) (by decide +kernel) i
  exact ⟨t, hf, (View.set_slice_whole main_v67_0 (win4_6.rect t)).symm ▸ h⟩

theorem cover7 (i : S64x8x256.Idx) :
    ∃ t : Fin cfg4.N, (cfg4.win 7).flush t = true ∧ i ∈ ((cfg4.win 7).blk t).view.set := by
  obtain ⟨t, hf, h⟩ := tile_cover win4_7 N_4 (by decide) flush4_7 (0 : Fin 3) (by decide +kernel) i
  exact ⟨t, hf, (View.set_slice_whole main_v67_1 (win4_7.rect t)).symm ▸ h⟩

theorem cover8 (i : S64x8x256.Idx) :
    ∃ t : Fin cfg4.N, (cfg4.win 8).flush t = true ∧ i ∈ ((cfg4.win 8).blk t).view.set := by
  obtain ⟨t, hf, h⟩ := tile_cover win4_8 N_4 (by decide) flush4_8 (0 : Fin 3) (by decide +kernel) i
  exact ⟨t, hf, (View.set_slice_whole main_v67_2 (win4_8.rect t)).symm ▸ h⟩

section Run

variable (hy : Is2 (W9 (F := Ideal) m ρ c (Proc.devRef .tc main_v47_0)) (y2f epsR slopeR I))
variable (hmu : Is2 (W9 (F := Ideal) m ρ c (Proc.devRef .tc main_v63)) (fun (_ : Fin 1) o => mean3 (y2 epsR slopeR I) o))
variable (hvar : Is2 (W9 (F := Ideal) m ρ c (Proc.devRef .tc main_v64)) (fun (_ : Fin 1) o => var3 (y2 epsR slopeR I) o))
variable (hg : Is2 (W9 (F := Ideal) m ρ c (Proc.devRef .tc main_v65)) (fun (_ : Fin 1) o => I.g2 o))
variable (hb : Is2 (W9 (F := Ideal) m ρ c (Proc.devRef .tc main_v66)) (fun (_ : Fin 1) o => I.b2 o))
variable (hw : Is2 (W9 (F := Ideal) m ρ c (Proc.devRef .tc main_v62)) (fun (k : Fin 256) (o : Fin 256) => I.W3 o k))
variable (t : Fin cfg4.N)

include hy hmu hvar hg hb hw

-- The product at point t is tile t of the third product.
theorem prodAt (p : Fin 4096) (o : Fin 256) :
    k4_pay3 (iblk4 (V9 (F := Ideal) m ρ) c 0 t) (iblk4 (V9 (F := Ideal) m ρ) c 1 t) (iblk4 (V9 (F := Ideal) m ρ) c 2 t)
      (iblk4 (V9 (F := Ideal) m ρ) c 3 t) (iblk4 (V9 (F := Ideal) m ρ) c 4 t) (iblk4 (V9 (F := Ideal) m ρ) c 5 t) (ix2 p o)
      = ((y3f epsR slopeR I (tileRow (t.cast N_4) p) o : ℝ) : EReal) := by
  rw [pay3_apply]
  exact row_coe I _ o _ _ _ _ _ _ (fun k => (blk0_apply m ρ c t p k).trans (hy _ k))
    (fun k => (congrFun (whole_read main_v63 _ (idx4 t).2.1 _ _) _).trans (hmu 0 k)) (fun k => (congrFun (whole_read main_v64 _ (idx4 t).2.2.1 _ _) _).trans (hvar 0 k))
    (fun k => (congrFun (whole_read main_v65 _ (idx4 t).2.2.2.1 _ _) _).trans (hg 0 k)) (fun k => (congrFun (whole_read main_v66 _ (idx4 t).2.2.2.2.1 _ _) _).trans (hb 0 k))
    (fun k => (congrFun (whole_read main_v62 _ (idx4 t).2.2.2.2.2.1 _ _) _).trans (hw k o))

theorem flushed6_eq :
    (dat4 (V9 (F := Ideal) m ρ) c).flushed 6 t = ((cfg4.win 6).blk t).view.read (Elt Ideal) (GY (y3f epsR slopeR I)) := by
  show (cfg4.win 6).cut (grid4.coords t) ((dat4 (V9 (F := Ideal) m ρ) c).after 6 t) = _
  rw [after4_6]
  unfold out4_6
  rw [View.canon_unit_zero hz2]
  simp only [View.ld_unit_zero (S := S4096x256) hz2, View.ld_unit_zero (S := S1x256) hz2, View.ld_unit_zero (S := S256x256) hz2]
  funext j
  obtain ⟨p, o, rfl⟩ : ∃ (p : Fin 4096) (o : Fin 256), j = ix2 p o := ⟨j 0, j 1, eq_ix2 j⟩
  exact (prodAt m ρ c I hy hmu hvar hg hb hw t p o).trans
    (GY_blk _ (t.cast N_4) _ (idx4 t).2.2.2.2.2.2.1 _ p o (win4_6.rect_emb_val t _))

theorem flushed7_eq :
    (dat4 (V9 (F := Ideal) m ρ) c).flushed 7 t = ((cfg4.win 7).blk t).view.read (Elt Ideal) (GS (y3f epsR slopeR I)) := by
  show (cfg4.win 7).cut (grid4.coords t) ((dat4 (V9 (F := Ideal) m ρ) c).after 7 t) = _
  rw [after4_7]
  unfold out4_7
  rw [View.canon_unit_zero hz3]
  simp only [View.ld_unit_zero (S := S4096x256) hz2, View.ld_unit_zero (S := S1x256) hz2, View.ld_unit_zero (S := S256x256) hz2]
  funext j
  obtain ⟨u, s, o, rfl⟩ : ∃ (u : Fin 1) (s : Fin 8) (o : Fin 256), j = ix3 u s o := ⟨j 0, j 1, j 2, eq_ix3 j⟩
  exact (sum_apply _ _ _ _ _ _ u s o).trans
    ((tile_coe (y3f epsR slopeR I) (t.cast N_4) o _ fun p => prodAt m ρ c I hy hmu hvar hg hb hw t p o).1.trans
      (GS_blk _ (t.cast N_4) _ (idx4 t).2.2.2.2.2.2.2.1 _ u s o (win4_7.rect_emb_val t _)))

theorem flushed8_eq :
    (dat4 (V9 (F := Ideal) m ρ) c).flushed 8 t = ((cfg4.win 8).blk t).view.read (Elt Ideal) (GS fun r o => y3f epsR slopeR I r o * y3f epsR slopeR I r o) := by
  show (cfg4.win 8).cut (grid4.coords t) ((dat4 (V9 (F := Ideal) m ρ) c).after 8 t) = _
  rw [after4_8]
  unfold out4_8
  rw [View.canon_unit_zero hz3]
  simp only [View.ld_unit_zero (S := S4096x256) hz2, View.ld_unit_zero (S := S1x256) hz2, View.ld_unit_zero (S := S256x256) hz2]
  funext j
  obtain ⟨u, s, o, rfl⟩ : ∃ (u : Fin 1) (s : Fin 8) (o : Fin 256), j = ix3 u s o := ⟨j 0, j 1, j 2, eq_ix3 j⟩
  exact (sq_apply _ _ _ _ _ _ u s o).trans
    ((tile_coe (y3f epsR slopeR I) (t.cast N_4) o _ fun p => prodAt m ρ c I hy hmu hvar hg hb hw t p o).2.trans
      (GS_blk _ (t.cast N_4) _ (idx4 t).2.2.2.2.2.2.2.2 _ u s o (win4_8.rect_emb_val t _)))

end Run

theorem stage_y3
    (hy : Is2 (W9 (F := Ideal) m ρ c (Proc.devRef .tc main_v47_0)) (y2f epsR slopeR I))
    (hmu : Is2 (W9 (F := Ideal) m ρ c (Proc.devRef .tc main_v63)) (fun (_ : Fin 1) o => mean3 (y2 epsR slopeR I) o))
    (hvar : Is2 (W9 (F := Ideal) m ρ c (Proc.devRef .tc main_v64)) (fun (_ : Fin 1) o => var3 (y2 epsR slopeR I) o))
    (hg : Is2 (W9 (F := Ideal) m ρ c (Proc.devRef .tc main_v65)) (fun (_ : Fin 1) o => I.g2 o))
    (hb : Is2 (W9 (F := Ideal) m ρ c (Proc.devRef .tc main_v66)) (fun (_ : Fin 1) o => I.b2 o))
    (hw : Is2 (W9 (F := Ideal) m ρ c (Proc.devRef .tc main_v62)) (fun (k : Fin 256) (o : Fin 256) => I.W3 o k)) :
    Is2 (W10 (F := Ideal) m ρ c (Proc.devRef .tc main_v67_0)) (y3f epsR slopeR I)
    ∧ Is3 (W10 (F := Ideal) m ρ c (Proc.devRef .tc main_v67_1)) (fun t (_ : Fin 8) o => tsum3 (y3f epsR slopeR I) t o)
    ∧ Is3 (W10 (F := Ideal) m ρ c (Proc.devRef .tc main_v67_2)) (fun t (_ : Fin 8) o => tsum3 (fun r o => y3f epsR slopeR I r o * y3f epsR slopeR I r o) t o) := by
  have a6 := (W10_arr (F := Ideal) m ρ c 6).trans ((dat4 (V9 (F := Ideal) m ρ) c).arrAt_eq_of_cover 6
    (GY (y3f epsR slopeR I)) (fun t _ => flushed6_eq m ρ c I hy hmu hvar hg hb hw t) cover6)
  have a7 := (W10_arr (F := Ideal) m ρ c 7).trans ((dat4 (V9 (F := Ideal) m ρ) c).arrAt_eq_of_cover 7
    (GS (y3f epsR slopeR I)) (fun t _ => flushed7_eq m ρ c I hy hmu hvar hg hb hw t) cover7)
  have a8 := (W10_arr (F := Ideal) m ρ c 8).trans ((dat4 (V9 (F := Ideal) m ρ) c).arrAt_eq_of_cover 8
    (GS fun r o => y3f epsR slopeR I r o * y3f epsR slopeR I r o) (fun t _ => flushed8_eq m ρ c I hy hmu hvar hg hb hw t) cover8)
  exact ⟨fun r o => congrFun a6 (ix2 r o), fun t s o => congrFun a7 (ix3 t s o), fun t s o => congrFun a8 (ix3 t s o)⟩

end Cert.KRN.Conv3

end
-- ==== Proof.KPoolMath.lean ====
import Idealize.ShloMosaic.PureOps.Ideal
import Idealize.ShloMosaic.PureOps.Ideal.Laws
import Idealize.ShloMosaic.Lib.ValueIdx
import Idealize.ShloMosaic.Lib.Pipeline.Value
import proofs.«428405_j30648886624750_3_alg».proof.Proof.Spec
import proofs.«428405_j30648886624750_3_alg».proof.Proof.LibReal
import proofs.«428405_j30648886624750_3_alg».proof.Proof.Consts
import proofs.«428405_j30648886624750_3_alg».proof.Proof.KLayer1Math

noncomputable section

namespace Cert.KRN.Pool

open Idealize.ShloMosaic Idealize.ShloMosaic.ValueIdx Cert.RN Cert.KRN.Layer1

abbrev PBlk : Shape := ⟨4, ![1, 128, 64, 256]⟩
abbrev PPar : Shape := ⟨4, ![1, 1, 1, 256]⟩
abbrev POut : Shape := ⟨3, ![1, 128, 256]⟩

def poolTerm (hcB : PBlk.ShapeCasts PBlk) (hcP : PPar.ShapeCasts PPar) (hb : PPar.Broadcasts PBlk)
    (hr : PBlk.Reduces [2] POut) (hlt : FTy.bits .bf16 < FTy.bits .f32)
    (v0 : FVec Ideal PBlk .bf16) (v3 v5 v7 v9 : FVec Ideal PPar .f32) : FVec Ideal POut .f32 :=
  let z : FVec Ideal PBlk .f32 :=
    addf (mulf (mulf (broadcastTo PBlk (shapeCast PPar v7 hcP) hb)
        (subf (extf .f32 (shapeCast PBlk v0 hcB) hlt) (broadcastTo PBlk (shapeCast PPar v3 hcP) hb)))
      (broadcastTo PBlk (rsqrt (addf (shapeCast PPar v5 hcP) (broadcast PPar (Scalar.ofBits .f32 0x3727C5AC#32)))) hb))
      (broadcastTo PBlk (shapeCast PPar v9 hcP) hb)
  multiReduction .maximumf [2] POut
    (select (cmpf .oge z (broadcast PBlk (Scalar.ofBits .f32 0x00000000#32))) z
      (mulf (broadcast PBlk (Scalar.ofBits .f32 0x3E4CCCCD#32)) z))
    0xFF800000#32 hr (.inl rfl) rfl

theorem spread_apply {α : Type} (hb : PPar.Broadcasts PBlk) (x : PPar.Idx → α)
    (i : Fin 1) (j : Fin 128) (m : Fin 64) (k : Fin 256) :
    broadcastTo PBlk x hb (ix4 i j m k) = x (ix4 (0 : Fin 1) (0 : Fin 1) (0 : Fin 1) k) := by
  refine broadcastTo_apply x hb (ix4 i j m k) (ix4 (0 : Fin 1) (0 : Fin 1) (0 : Fin 1) k) fun a => ?_
  match a with
  | ⟨0, _⟩ => rfl
  | ⟨1, _⟩ => rfl
  | ⟨2, _⟩ => rfl
  | ⟨3, _⟩ => rfl

theorem lift_centre (hr : PBlk.Reduces [2] POut) (i : Fin 1) (j : Fin 128) (k : Fin 256) (m : Fin 64) :
    hr.lift (ix3 i j k) m = ix4 i j m k := by
  funext a
  apply Fin.ext
  match a with
  | ⟨0, _⟩ => rfl
  | ⟨1, _⟩ => rfl
  | ⟨2, _⟩ => rfl
  | ⟨3, _⟩ => rfl

theorem maxCentres_apply (hr : PBlk.Reduces [2] POut) (Z : FVec Ideal PBlk .f32) (i : Fin 1) (j : Fin 128) (k : Fin 256) :
    multiReduction (F := Ideal) .maximumf [2] POut Z 0xFF800000#32 hr (.inl rfl) rfl (ix3 i j k)
      = (Finset.univ : Finset (Fin 64)).fold max (Ideal.ofBits .f32 0xFF800000#32) (fun m => Z (ix4 i j m k)) := by
  refine (Ideal.multiReduction_maximumf_single (φ := .f32) (s := PBlk) (t := POut) (a := 2) Z (0xFF800000#32 : BitVec 32) hr
    (.inl rfl) rfl (ix3 i j k)).trans ?_
  refine congrArg (fun f => (Finset.univ : Finset (Fin 64)).fold max (Ideal.ofBits .f32 0xFF800000#32) f) (funext fun m => ?_)
  show Z (hr.lift (ix3 i j k) m) = _
  rw [lift_centre hr i j k m]

theorem poolTerm_apply (hcB : PBlk.ShapeCasts PBlk) (hcP : PPar.ShapeCasts PPar) (hb : PPar.Broadcasts PBlk)
    (hr : PBlk.Reduces [2] POut) (hlt : FTy.bits .bf16 < FTy.bits .f32)
    (v0 : FVec Ideal PBlk .bf16) (v3 v5 v7 v9 : FVec Ideal PPar .f32) (i : Fin 1) (j : Fin 128) (k : Fin 256) :
    poolTerm hcB hcP hb hr hlt v0 v3 v5 v7 v9 (ix3 i j k)
      = (Finset.univ : Finset (Fin 64)).fold max (Ideal.ofBits .f32 0xFF800000#32) (fun m =>
          bnAct (v0 (ix4 i j m k)) (v3 (ix4 (0 : Fin 1) (0 : Fin 1) (0 : Fin 1) k))
            (v5 (ix4 (0 : Fin 1) (0 : Fin 1) (0 : Fin 1) k)) (v7 (ix4 (0 : Fin 1) (0 : Fin 1) (0 : Fin 1) k))
            (v9 (ix4 (0 : Fin 1) (0 : Fin 1) (0 : Fin 1) k))) := by
  unfold poolTerm
  refine (maxCentres_apply hr _ i j k).trans ?_
  refine congrArg (fun f => (Finset.univ : Finset (Fin 64)).fold max (Ideal.ofBits .f32 0xFF800000#32) f) (funext fun m => ?_)
  simp only [select_apply, cmpf_apply, addf_apply, mulf_apply, subf_apply, extf_apply, broadcast_apply, spread_apply,
    shapeCast_self, rsqrt, Ideal.rsqrt_def, Ideal.ofBits_def]
  rfl

theorem poolTerm_value (hcB : PBlk.ShapeCasts PBlk) (hcP : PPar.ShapeCasts PPar) (hb : PPar.Broadcasts PBlk)
    (hr : PBlk.Reduces [2] POut) (hlt : FTy.bits .bf16 < FTy.bits .f32)
    (v0 : FVec Ideal PBlk .bf16) (v3 v5 v7 v9 : FVec Ideal PPar .f32) (I : Inp) (b0 n0 : Nat)
    (hb0 : b0 < 2) (hn0 : n0 + 128 ≤ 2048)
    (h0 : ∀ (i : Fin 1) (j : Fin 128) (m : Fin 64) (k : Fin 256),
      v0 (ix4 i j m k) = ((y3 epsR slopeR I ⟨b0 + i.val, by have := i.isLt; omega⟩
        ⟨n0 + j.val, by have := j.isLt; omega⟩ m k : ℝ) : EReal))
    (h3 : ∀ k, v3 (ix4 (0 : Fin 1) (0 : Fin 1) (0 : Fin 1) k) = ((mean3 (y3 epsR slopeR I) k : ℝ) : EReal))
    (h5 : ∀ k, v5 (ix4 (0 : Fin 1) (0 : Fin 1) (0 : Fin 1) k) = ((var3 (y3 epsR slopeR I) k : ℝ) : EReal))
    (h7 : ∀ k, v7 (ix4 (0 : Fin 1) (0 : Fin 1) (0 : Fin 1) k) = ((I.g3 k : ℝ) : EReal))
    (h9 : ∀ k, v9 (ix4 (0 : Fin 1) (0 : Fin 1) (0 : Fin 1) k) = ((I.b3 k : ℝ) : EReal))
    (y : POut.Idx) (b : Fin 2) (n : Fin 2048) (k : Fin 256)
    (eb : b.val = b0 + (y 0).val) (en : n.val = n0 + (y 1).val) (ek : k.val = (y 2).val) :
    poolTerm hcB hcP hb hr hlt v0 v3 v5 v7 v9 y = ((hmax epsR slopeR I b n k : ℝ) : EReal) := by
  obtain ⟨i, j, k', rfl⟩ : ∃ (i : Fin 1) (j : Fin 128) (k' : Fin 256), y = ix3 i j k' := ⟨y 0, y 1, y 2, eq_ix3 y⟩
  have eb' : b.val = b0 + i.val := eb
  have en' : n.val = n0 + j.val := en
  obtain rfl : k = k' := Fin.ext ek
  have hbi : b = ⟨b0 + i.val, Nat.lt_of_lt_of_le (Nat.add_lt_add_left i.isLt b0) (by omega)⟩ := Fin.ext eb'
  have hnj : n = ⟨n0 + j.val, Nat.lt_of_lt_of_le (Nat.add_lt_add_left j.isLt n0) (by omega)⟩ := Fin.ext en'
  rw [hbi, hnj, poolTerm_apply, cNegInf, h3, h5, h7, h9]
  simp only [h0, bnAct_coe _ _ _ _ _ (var3_nonneg _ k)]
  exact fold_max_coe Finset.univ_nonempty _

end Cert.KRN.Pool

end
-- ==== Proof.KPool.lean ====
import proofs.«428405_j30648886624750_3_alg».proof.Proof.Gen.KernelIdeal.Frame
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KPoolMath
import proofs.«428405_j30648886624750_3_alg».proof.Proof.KConv2Pay
import Idealize.ShloMosaic.Lib.Pipeline.Value

noncomputable section

namespace Cert.KRN.Pool

open Idealize.ShloMosaic Idealize.ShloMosaic.TcCoe Idealize.SL.Sem Cert.KernelIdeal Cert.KernelIdeal.Gen Cert.RN
open Idealize.ShloMosaic.ValueIdx
open Idealize.ShloMosaic.Pipeline (Dat)

section Region

variable (V : (c : Dev nD) → (b : Ref sig .tc) → Buf (Elt Ideal) ((c : Thread nD τ).loc b)) (c : Dev nD) (I : Inp)

theorem pay_eq_poolTerm (x0 : Vec Ideal S1x128x64x256 .bf16) (x1 x2 x3 x4 : Vec Ideal S1x1x1x256 .f32) :
    k5_pay1 (F := Ideal) x0 x1 x2 x3 x4
      = poolTerm shapeCasts_S1x128x64x256_S1x128x64x256 shapeCasts_S1x1x1x256_S1x1x1x256
          broadcasts_S1x1x1x256_S1x128x64x256 reduces_S1x128x64x256_S1x128x256 bitsLt_bf16_f32 x0 x1 x2 x3 x4 := rfl

theorem block_places : ∀ t : Fin cfg5.N,
    win5_0.index t (0 : Fin 4) = win5_5.index t (0 : Fin 3)
    ∧ win5_0.index t (1 : Fin 4) = win5_5.index t (1 : Fin 3)
    ∧ win5_0.index t (2 : Fin 4) = 0 ∧ win5_0.index t (3 : Fin 4) = 0
    ∧ (∀ a : Fin 4, win5_1.index t a = 0) ∧ (∀ a : Fin 4, win5_2.index t a = 0)
    ∧ (∀ a : Fin 4, win5_3.index t a = 0) ∧ (∀ a : Fin 4, win5_4.index t a = 0)
    ∧ win5_5.index t (0 : Fin 3) ≤ 1 ∧ win5_5.index t (1 : Fin 3) ≤ 15 ∧ win5_5.index t (2 : Fin 3) = 0 :=
  (by decide +kernel : ∀ t : Fin grid5.N, _)

theorem block_onto : ∀ (q0 : Fin 2) (q1 : Fin 16), ∃ t : Fin cfg5.N, win5_5.index t = ![q0.val, q1.val, 0] :=
  (by decide +kernel : ∀ (q0 : Fin 2) (q1 : Fin 16), ∃ t : Fin grid5.N, win5_5.index t = ![q0.val, q1.val, 0])

theorem inblock_apply (t : Fin cfg5.N) (i : Fin 1) (j : Fin 128) (mm : Fin 64) (k : Fin 256)
    (q : S2x2048x64x256.Idx) (h0 : (q 0).val = win5_5.index t (0 : Fin 3) + i.val)
    (h1 : (q 1).val = win5_5.index t (1 : Fin 3) * 128 + j.val) (h2 : (q 2).val = mm.val) (h3 : (q 3).val = k.val) :
    (iblk5 V c 0 t : Vec Ideal S1x128x64x256 .bf16) (ix4 i j mm k) = (V c main_v82 : S2x2048x64x256.Idx → Elt Ideal .bf16) q := by
  obtain ⟨e0, e1, e2, e3, -⟩ := block_places t
  unfold iblk5
  rw [View.read_apply]
  show V c main_v82 _ = V c main_v82 _
  congr 1
  funext a
  apply Fin.ext
  match a with
  | ⟨0, _⟩ => show win5_0.index t (0 : Fin 4) * 1 + 1 * i.val = (q 0).val; rw [e0, h0]; omega
  | ⟨1, _⟩ => show win5_0.index t (1 : Fin 4) * 128 + 1 * j.val = (q 1).val; rw [e1, h1]; omega
  | ⟨2, _⟩ => show win5_0.index t (2 : Fin 4) * 64 + 1 * mm.val = (q 2).val; rw [e2, h2]; omega
  | ⟨3, _⟩ => show win5_0.index t (3 : Fin 4) * 256 + 1 * k.val = (q 3).val; rw [e3, h3]; omega

def poolOut : S2x2048x256.Idx → Elt Ideal .f32 := fun q => ((hmax epsR slopeR I (q 0) (q 1) (q 2) : ℝ) : EReal)

variable (hy : Is4 (V c main_v82) (y3 epsR slopeR I))
  (hmu : Is4 (V c main_v83) (fun (_ : Fin 1) (_ : Fin 1) (_ : Fin 1) o => mean3 (y3 epsR slopeR I) o))
  (hvar : Is4 (V c main_v84) (fun (_ : Fin 1) (_ : Fin 1) (_ : Fin 1) o => var3 (y3 epsR slopeR I) o))
  (hg : Is4 (V c main_v85) (fun (_ : Fin 1) (_ : Fin 1) (_ : Fin 1) o => I.g3 o))
  (hb : Is4 (V c main_v86) (fun (_ : Fin 1) (_ : Fin 1) (_ : Fin 1) o => I.b3 o))

include hy hmu hvar hg hb in

theorem pool_flushed (t : Fin cfg5.N) :
    (dat5 V c).flushed 5 t = ((cfg5.win 5).blk t).view.read (Elt Ideal) (poolOut I) := by
  show (cfg5.win 5).cut (grid5.coords t) ((dat5 V c).after 5 t) = _
  rw [after5_5]
  unfold out5_5
  rw [View.canon_unit_zero hz3]
  simp only [View.ld_unit_zero (S := S1x128x64x256) hz4, View.ld_unit_zero (S := S1x1x1x256) hz4]
  rw [pay_eq_poolTerm]
  obtain ⟨e0, e1, e2, e3, p1, p2, p3, p4, b0, b1, z2⟩ := block_places t
  funext y
  rw [View.read_apply]
  show poolTerm _ _ _ _ _ _ _ _ _ _ ((cfg5.win 5).xinj (grid5.coords t) y) = poolOut I (((cfg5.win 5).blk t).view.emb y)
  unfold poolOut
  refine poolTerm_value _ _ _ _ _ (iblk5 V c 0 t) (iblk5 V c 1 t) (iblk5 V c 2 t) (iblk5 V c 3 t) (iblk5 V c 4 t) I
    (win5_5.index t (0 : Fin 3)) (win5_5.index t (1 : Fin 3) * 128) (by omega) (by omega)
    (fun i j mm k => ?_) (fun k => ?_) (fun k => ?_) (fun k => ?_) (fun k => ?_)
    ((cfg5.win 5).xinj (grid5.coords t) y) _ _ _ ?_ ?_ ?_
  · exact (inblock_apply V c t i j mm k _ rfl rfl rfl rfl).trans (hy _ _ _ _)
  · exact (congrFun (whole_read main_v83 _ (block_places t).2.2.2.2.1 _ _) _).trans (hmu _ _ _ _)
  · exact (congrFun (whole_read main_v84 _ (block_places t).2.2.2.2.2.1 _ _) _).trans (hvar _ _ _ _)
  · exact (congrFun (whole_read main_v85 _ (block_places t).2.2.2.2.2.2.1 _ _) _).trans (hg _ _ _ _)
  · exact (congrFun (whole_read main_v86 _ (block_places t).2.2.2.2.2.2.2.1 _ _) _).trans (hb _ _ _ _)
  · show win5_5.index t (0 : Fin 3) * 1 + 1 * (y 0).val = win5_5.index t (0 : Fin 3) + (y 0).val; omega
  · show win5_5.index t (1 : Fin 3) * 128 + 1 * (y 1).val = win5_5.index t (1 : Fin 3) * 128 + (y 1).val; omega
  · show win5_5.index t (2 : Fin 3) * 256 + 1 * (y 2).val = (y 2).val; rw [z2]; omega

include hy hmu hvar hg hb in

theorem pool_final : (dat5 V c).arrAt 5 cfg5.N = poolOut I :=
  (dat5 V c).arrAt_eq_of_cover 5 (poolOut I) (fun t _ => pool_flushed V c I hy hmu hvar hg hb t) fun i => by
    have hi0 : (i 0).val < 2 := (i 0).isLt
    have hi1 : (i 1).val < 2048 := (i 1).isLt
    have hi2 : (i 2).val < 256 := (i 2).isLt
    obtain ⟨t, ht⟩ := block_onto ⟨(i 0).val, hi0⟩ ⟨(i 1).val / 128, by omega⟩
    have q0 : win5_5.index t (0 : Fin 3) = (i 0).val := congrFun ht 0
    have q1 : win5_5.index t (1 : Fin 3) = (i 1).val / 128 := congrFun ht 1
    have q2 : win5_5.index t (2 : Fin 3) = 0 := congrFun ht 2
    refine ⟨t, flush5_5 t, ?_⟩
    show i ∈ ((View.whole main_v87).slice (win5_5.rect t)).set
    rw [View.set_slice_whole, Rect.mem_set_unit]
    intro a
    match a with
    | ⟨0, _⟩ => show win5_5.index t (0 : Fin 3) * 1 ≤ (i 0).val ∧ (i 0).val < win5_5.index t (0 : Fin 3) * 1 + 1; omega
    | ⟨1, _⟩ => show win5_5.index t (1 : Fin 3) * 128 ≤ (i 1).val ∧ (i 1).val < win5_5.index t (1 : Fin 3) * 128 + 128; omega
    | ⟨2, _⟩ => show win5_5.index t (2 : Fin 3) * 256 ≤ (i 2).val ∧ (i 2).val < win5_5.index t (2 : Fin 3) * 256 + 256; omega

end Region

variable (m : (ℓ : Loc nD τ sig) → Buf (Elt Ideal) ℓ) (ρ : Dev nD → PrngReg) (c : Dev nD) (I : Inp)

theorem stage_hmax
    (hy : Is4 (W11 (F := Ideal) m ρ c (Proc.devRef .tc main_v82)) (y3 epsR slopeR I))
    (hmu : Is4 (W11 (F := Ideal) m ρ c (Proc.devRef .tc main_v83)) (fun (_ : Fin 1) (_ : Fin 1) (_ : Fin 1) o => mean3 (y3 epsR slopeR I) o))
    (hvar : Is4 (W11 (F := Ideal) m ρ c (Proc.devRef .tc main_v84)) (fun (_ : Fin 1) (_ : Fin 1) (_ : Fin 1) o => var3 (y3 epsR slopeR I) o))
    (hg : Is4 (W11 (F := Ideal) m ρ c (Proc.devRef .tc main_v85)) (fun (_ : Fin 1) (_ : Fin 1) (_ : Fin 1) o => I.g3 o))
    (hb : Is4 (W11 (F := Ideal) m ρ c (Proc.devRef .tc main_v86)) (fun (_ : Fin 1) (_ : Fin 1) (_ : Fin 1) o => I.b3 o)) :
    Is3 (W12 (F := Ideal) m ρ c (Proc.devRef .tc main_v87)) (hmax epsR slopeR I) := by
  intro i j k
  show W12 (F := Ideal) m ρ c (Proc.devRef .tc (Pipeline.arrRef spec5 5)) (ix3 i j k) = _
  rw [W12_arr, pool_final (V11 (F := Ideal) m ρ) c I hy hmu hvar hg hb]
  rfl

end Cert.KRN.Pool

end
-- ==== Proof.KFc.lean ====
import proofs.«428405_j30648886624750_3_alg».proof.Proof.Gen.KernelIdeal.Frame
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import proofs.«428405_j30648886624750_3_alg».proof.Proof.KFcPay
import proofs.«428405_j30648886624750_3_alg».proof.Proof.KConv2Pay
import Idealize.ShloMosaic.Lib.StableHlo.Run
import Idealize.ShloMosaic.Lib.Pipeline.Value
import Idealize.ShloMosaic.Lib.ValueLayout

noncomputable section

namespace Cert.KRN.Fc

open Idealize.ShloMosaic Idealize.ShloMosaic.TcCoe Idealize.SL.Sem Cert.KernelIdeal Cert.KernelIdeal.Gen Cert.RN
open Idealize.ShloMosaic.ValueIdx
open Idealize.ShloMosaic.Pipeline (Dat)

variable (m : (ℓ : Loc nD τ sig) → Buf (Elt Ideal) ℓ) (ρ : Dev nD → PrngReg) (c : Dev nD) (I : Inp)

-- Row r of tile t among the 4096 flat rows.
def fcRow (t : Nat) (ht : t < 2) (r : Fin 2048) : Fin 4096 := ⟨2048 * t + r.val, by have := r.isLt; omega⟩

-- The output arrays as functions of the index: y at (row, column), a per-tile column sum at (tile, any of eight rows, column).
def fcGy {O : Nat} (f : Fin 4096 → Fin O → ℝ) : (⟨2, ![4096, O]⟩ : Shape).Idx → EReal :=
  fun i => ((f (i 0) (i 1) : ℝ) : EReal)
def fcGs {O : Nat} (f : Fin 2 → Fin O → ℝ) : (⟨3, ![2, 8, O]⟩ : Shape).Idx → EReal :=
  fun i => ((f (i 0) (i 2) : ℝ) : EReal)

theorem fc6_idx : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 3) = t.val ∧ win6_4.index t (1 : Fin 3) = 0 ∧ win6_4.index t (2 : Fin 3) = 0 :=
  (by decide +kernel : ∀ t : Fin grid6.N, _)

-- The three input blocks at point t: rows 2048·t … of the pooled features laid flat, the whole transposed weight, the bias row.
theorem fc6_blk0 (hh : Is3 (W12 m ρ c (Proc.devRef .tc main_v87)) (hmax epsR slopeR I))
    (t : Fin cfg6.N) (ht : t.val < 2) (r : Fin 2048) (k : Fin 256) :
    (iblk6 (V13 m ρ) c 0 t : Vec Ideal S2048x256 .f32) (ix2 r k)
      = ((hmax epsR slopeR I (rB (fcRow t.val ht r)) (rN (fcRow t.val ht r)) k : ℝ) : EReal) := by
  obtain ⟨e0, e1, -⟩ := fc6_idx t
  have e : (W13 m ρ c (Proc.devRef .tc main_v88) : S4096x256.Idx → EReal)
      = shapeCast S4096x256 (W12 m ρ c (Proc.devRef .tc main_v87) : S2x2048x256.Idx → EReal) (by decide) := by
    show StableHlo.after hostOps6 (W12 m ρ c) (Proc.devRef .tc main_v88) = _
    after_results
    rfl
  unfold iblk6
  rw [View.read_apply]
  show W13 m ρ c (Proc.devRef .tc main_v88) _ = _
  rw [e]
  refine (shapeCast_apply _ _ _ (ix3 (rB (fcRow t.val ht r)) (rN (fcRow t.val ht r)) k) ?_).trans (hh _ _ _)
  rw [Shape.rowMajor_val_three, Shape.rowMajor_val_two]
  show ((rB (fcRow t.val ht r)).val * 2048 + (rN (fcRow t.val ht r)).val) * 256 + k.val
    = (win6_0.index t (0 : Fin 2) * 2048 + 1 * r.val) * 256 + (win6_0.index t (1 : Fin 2) * 256 + 1 * k.val)
  rw [e0, e1]
  have hr := r.isLt
  simp only [rB, rN, fcRow]
  omega

theorem fc6_blk1 (hw : Is2 (W12 m ρ c (Proc.devRef .tc main_arg11)) I.F1)
    (t : Fin cfg6.N) (k : Fin 256) (o : Fin 128) :
    (iblk6 (V13 m ρ) c 1 t : Vec Ideal S256x128 .f32) (ix2 k o) = ((I.F1 o k : ℝ) : EReal) := by
  obtain ⟨-, -, e0, e1, -⟩ := fc6_idx t
  have e : (W13 m ρ c (Proc.devRef .tc main_v89) : S256x128.Idx → EReal)
      = transpose S256x128 [1, 0] (W12 m ρ c (Proc.devRef .tc main_arg11) : S128x256.Idx → EReal) (by decide) := by
    show StableHlo.after hostOps6 (W12 m ρ c) (Proc.devRef .tc main_v89) = _
    after_results
  unfold iblk6
  rw [View.read_apply]
  show W13 m ρ c (Proc.devRef .tc main_v89) _ = _
  rw [e, show ((cfg6.win 1).blk t).view.emb (ix2 k o) = ix2 k o from
    Shape.idx_ext₂ (by show win6_1.index t (0 : Fin 2) * 256 + 1 * k.val = k.val; rw [e0]; omega)
      (by show win6_1.index t (1 : Fin 2) * 128 + 1 * o.val = o.val; rw [e1]; omega)]
  exact (transpose_ix2_apply _ _ k o).trans (hw o k)

theorem fc6_blk2 (hb : Is1 (W12 m ρ c (Proc.devRef .tc main_arg12)) I.f1b)
    (t : Fin cfg6.N) (o : Fin 128) :
    (iblk6 (V13 m ρ) c 2 t : Vec Ideal S1x128 .f32) (ix2 (0 : Fin 1) o) = ((I.f1b o : ℝ) : EReal) := by
  obtain ⟨-, -, -, -, e0, e1, -⟩ := fc6_idx t
  have e : (W13 m ρ c (Proc.devRef .tc main_v90) : S1x128.Idx → EReal)
      = shapeCast S1x128 (W12 m ρ c (Proc.devRef .tc main_arg12) : S128.Idx → EReal) (by decide) := by
    show StableHlo.after hostOps6 (W12 m ρ c) (Proc.devRef .tc main_v90) = _
    after_results
    rfl
  unfold iblk6
  rw [View.read_apply]
  show W13 m ρ c (Proc.devRef .tc main_v90) _ = _
  rw [e, show ((cfg6.win 2).blk t).view.emb (ix2 (0 : Fin 1) o) = ix2 (0 : Fin 1) o from
    Shape.idx_ext₂ (by show win6_2.index t (0 : Fin 2) * 1 + 1 * 0 = 0; rw [e0])
      (by show win6_2.index t (1 : Fin 2) * 128 + 1 * o.val = o.val; rw [e1]; omega)]
  exact (shapeCast_a_1a_apply _ _ _ o).trans (hb o)

-- The two row blocks cover y, the two tiles a statistics array.
theorem fc6_cover_y (i : S4096x128.Idx) :
    ∃ t : Fin cfg6.N, (cfg6.win 3).flush t = true ∧ i ∈ ((cfg6.win 3).blk t).view.set := by
  obtain ⟨t, hf, h⟩ := tile_cover win6_3 N_6 (by decide) flush6_3 (0 : Fin 2) (by decide +kernel) i
  exact ⟨t, hf, (View.set_slice_whole main_v91_0 (win6_3.rect t)).symm ▸ h⟩

theorem fc6_cover_s (i : S2x8x128.Idx) :
    ∃ t : Fin cfg6.N, (cfg6.win 4).flush t = true ∧ i ∈ ((cfg6.win 4).blk t).view.set := by
  obtain ⟨t, hf, h⟩ := tile_cover win6_4 N_6 (by decide) flush6_4 (0 : Fin 3) (by decide +kernel) i
  exact ⟨t, hf, (View.set_slice_whole main_v91_1 (win6_4.rect t)).symm ▸ h⟩

theorem fc6_cover_q (i : S2x8x128.Idx) :
    ∃ t : Fin cfg6.N, (cfg6.win 5).flush t = true ∧ i ∈ ((cfg6.win 5).blk t).view.set :=
  (fc6_cover_s i).imp fun t h => ⟨flush6_5 t, h.2⟩

theorem fc6_outs (x0 : Vec Ideal S2048x256 .f32) (x1 : Vec Ideal S256x128 .f32) (x2 : Vec Ideal S1x128 .f32) :
    out6_3 x0 x1 x2 = k6_pay1 x0 x1 x2 ∧ out6_4 x0 x1 x2 = k6_pay2 x0 x1 x2 ∧ out6_5 x0 x1 x2 = k6_pay3 x0 x1 x2 := by
  unfold out6_3 out6_4 out6_5
  rw [View.canon_unit_zero hz2, View.canon_unit_zero hz3, View.canon_unit_zero hz3]
  simp only [View.ld_unit_zero (S := S2048x256) hz2, View.ld_unit_zero (S := S256x128) hz2,
    View.ld_unit_zero (S := S1x128) hz2]
  refine ⟨?_, ?_, ?_⟩ <;> trivial

section Region6
variable (hh : Is3 (W12 m ρ c (Proc.devRef .tc main_v87)) (hmax epsR slopeR I))
  (hw : Is2 (W12 m ρ c (Proc.devRef .tc main_arg11)) I.F1)
  (hb : Is1 (W12 m ρ c (Proc.devRef .tc main_arg12)) I.f1b)
include hh hw hb

-- Point t's three blocks: rows 2048·t … of y, and on the eight rows of tile t the column sums of y and of y².
theorem fc6_flushed (t : Fin cfg6.N) :
    (dat6 (V13 m ρ) c).flushed 3 t
      = ((cfg6.win 3).blk t).view.read (Elt Ideal) (fcGy (y4f epsR slopeR I))
    ∧ (dat6 (V13 m ρ) c).flushed 4 t
      = ((cfg6.win 4).blk t).view.read (Elt Ideal) (fcGs (tsum2 (y4f epsR slopeR I)))
    ∧ (dat6 (V13 m ρ) c).flushed 5 t = ((cfg6.win 5).blk t).view.read (Elt Ideal)
      (fcGs (tsum2 fun r o => y4f epsR slopeR I r o * y4f epsR slopeR I r o)) := by
  have ht : t.val < 2 := Nat.lt_of_lt_of_eq t.isLt N_6
  obtain ⟨-, -, -, -, -, -, e0, e1, e2, e3, e4⟩ := fc6_idx t
  obtain ⟨hy, hs, hq⟩ := FcPay.real (fc6_pay _ _ _) (fc6_blk0 m ρ c I hh t ht) (fc6_blk1 m ρ c I hw t)
    (fc6_blk2 m ρ c I hb t)
  have em : ∀ (u : Fin 1) (s : Fin 8) (o : Fin 128),
      ((cfg6.win 4).blk t).view.emb (ix3 u s o) = ix3 (⟨t.val, ht⟩ : Fin 2) s o := fun u s o =>
    funext fun a => Fin.ext (by
      have hu := u.isLt
      match a with
      | ⟨0, _⟩ => show win6_4.index t (0 : Fin 3) * 1 + 1 * u.val = t.val; rw [e2]; omega
      | ⟨1, _⟩ => show win6_4.index t (1 : Fin 3) * 8 + 1 * s.val = s.val; rw [e3]; omega
      | ⟨2, _⟩ => show win6_4.index t (2 : Fin 3) * 128 + 1 * o.val = o.val; rw [e4]; omega)
  refine ⟨?_, ?_, ?_⟩
  · show (cfg6.win 3).cut (grid6.coords t) ((dat6 (V13 m ρ) c).after 3 t) = _
    rw [after6_3, (fc6_outs _ _ _).1]
    refine fc_ext2 (R := 2048) (O := 128) fun r o => (hy r o).trans ?_
    rw [View.read_apply, show ((cfg6.win 3).blk t).view.emb (ix2 r o) = ix2 (fcRow t.val ht r) o from
      Shape.idx_ext₂ (by show win6_3.index t (0 : Fin 2) * 2048 + 1 * r.val = 2048 * t.val + r.val; rw [e0]; omega)
        (by show win6_3.index t (1 : Fin 2) * 128 + 1 * o.val = o.val; rw [e1]; omega)]
    rfl
  · show (cfg6.win 4).cut (grid6.coords t) ((dat6 (V13 m ρ) c).after 4 t) = _
    rw [after6_4, (fc6_outs _ _ _).2.1]
    refine fc_ext3 (R := 1) (K := 8) (O := 128) fun u s o => (hs u s o).trans ?_
    rw [View.read_apply, em]
    rfl
  · show (cfg6.win 5).cut (grid6.coords t) ((dat6 (V13 m ρ) c).after 5 t) = _
    rw [after6_5, (fc6_outs _ _ _).2.2]
    refine fc_ext3 (R := 1) (K := 8) (O := 128) fun u s o => (hq u s o).trans ?_
    rw [View.read_apply, show ((cfg6.win 5).blk t).view.emb (ix3 u s o) = _ from em u s o]
    rfl

end Region6

theorem stage_y4
    (hh : Is3 (W12 (F := Ideal) m ρ c (Proc.devRef .tc main_v87)) (hmax epsR slopeR I))
    (hw : Is2 (W12 (F := Ideal) m ρ c (Proc.devRef .tc main_arg11)) I.F1)
    (hb : Is1 (W12 (F := Ideal) m ρ c (Proc.devRef .tc main_arg12)) I.f1b) :
    Is2 (W14 (F := Ideal) m ρ c (Proc.devRef .tc main_v91_0)) (y4f epsR slopeR I)
    ∧ Is3 (W14 (F := Ideal) m ρ c (Proc.devRef .tc main_v91_1)) (fun t (_ : Fin 8) o => tsum2 (y4f epsR slopeR I) t o)
    ∧ Is3 (W14 (F := Ideal) m ρ c (Proc.devRef .tc main_v91_2)) (fun t (_ : Fin 8) o => tsum2 (fun r o => y4f epsR slopeR I r o * y4f epsR slopeR I r o) t o) := by
  refine ⟨fun r o => ?_, fun t s o => ?_, fun t s o => ?_⟩
  · exact congrFun ((W14_arr m ρ c 3).trans ((dat6 (V13 m ρ) c).arrAt_eq_of_cover 3 _
      (fun t _ => (fc6_flushed m ρ c I hh hw hb t).1) fc6_cover_y)) (ix2 r o)
  · exact congrFun ((W14_arr m ρ c 4).trans ((dat6 (V13 m ρ) c).arrAt_eq_of_cover 4 _
      (fun t _ => (fc6_flushed m ρ c I hh hw hb t).2.1) fc6_cover_s)) (ix3 t s o)
  · exact congrFun ((W14_arr m ρ c 5).trans ((dat6 (V13 m ρ) c).arrAt_eq_of_cover 5 _
      (fun t _ => (fc6_flushed m ρ c I hh hw hb t).2.2) fc6_cover_q)) (ix3 t s o)

theorem fc8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 3) = t.val ∧ win8_4.index t (1 : Fin 3) = 0 ∧ win8_4.index t (2 : Fin 3) = 0 :=
  (by decide +kernel : ∀ t : Fin grid8.N, _)

theorem fc8_blk0 (hh : Is2 (W16 m ρ c (Proc.devRef .tc main_v110)) (h4f epsR slopeR I))
    (t : Fin cfg8.N) (ht : t.val < 2) (r : Fin 2048) (k : Fin 128) :
    (iblk8 (V17 m ρ) c 0 t : Vec Ideal S2048x128 .f32) (ix2 r k)
      = ((h4f epsR slopeR I (fcRow t.val ht r) k : ℝ) : EReal) := by
  obtain ⟨e0, e1, -⟩ := fc8_idx t
  have e : W17 m ρ c (Proc.devRef .tc main_v110) = W16 m ρ c (Proc.devRef .tc main_v110) := by
    show StableHlo.after hostOps8 (W16 m ρ c) (Proc.devRef .tc main_v110) = _
    after_results
  unfold iblk8
  rw [View.read_apply]
  show W17 m ρ c (Proc.devRef .tc main_v110) _ = _
  rw [e, show ((cfg8.win 0).blk t).view.emb (ix2 r k) = ix2 (fcRow t.val ht r) k from
    Shape.idx_ext₂ (by show win8_0.index t (0 : Fin 2) * 2048 + 1 * r.val = 2048 * t.val + r.val; rw [e0]; omega)
      (by show win8_0.index t (1 : Fin 2) * 128 + 1 * k.val = k.val; rw [e1]; omega)]
  exact hh _ k

theorem fc8_blk1 (hw : Is2 (W16 m ρ c (Proc.devRef .tc main_arg15)) I.F2)
    (t : Fin cfg8.N) (k : Fin 128) (o : Fin 64) :
    (iblk8 (V17 m ρ) c 1 t : Vec Ideal S128x64 .f32) (ix2 k o) = ((I.F2 o k : ℝ) : EReal) := by
  obtain ⟨-, -, e0, e1, -⟩ := fc8_idx t
  have e : (W17 m ρ c (Proc.devRef .tc main_v111) : S128x64.Idx → EReal)
      = transpose S128x64 [1, 0] (W16 m ρ c (Proc.devRef .tc main_arg15) : S64x128.Idx → EReal) (by decide) := by
    show StableHlo.after hostOps8 (W16 m ρ c) (Proc.devRef .tc main_v111) = _
    after_results
  unfold iblk8
  rw [View.read_apply]
  show W17 m ρ c (Proc.devRef .tc main_v111) _ = _
  rw [e, show ((cfg8.win 1).blk t).view.emb (ix2 k o) = ix2 k o from
    Shape.idx_ext₂ (by show win8_1.index t (0 : Fin 2) * 128 + 1 * k.val = k.val; rw [e0]; omega)
      (by show win8_1.index t (1 : Fin 2) * 64 + 1 * o.val = o.val; rw [e1]; omega)]
  exact (transpose_ix2_apply _ _ k o).trans (hw o k)

theorem fc8_blk2 (hb : Is1 (W16 m ρ c (Proc.devRef .tc main_arg16)) I.f2b)
    (t : Fin cfg8.N) (o : Fin 64) :
    (iblk8 (V17 m ρ) c 2 t : Vec Ideal S1x64 .f32) (ix2 (0 : Fin 1) o) = ((I.f2b o : ℝ) : EReal) := by
  obtain ⟨-, -, -, -, e0, e1, -⟩ := fc8_idx t
  have e : (W17 m ρ c (Proc.devRef .tc main_v112) : S1x64.Idx → EReal)
      = shapeCast S1x64 (W16 m ρ c (Proc.devRef .tc main_arg16) : S64.Idx → EReal) (by decide) := by
    show StableHlo.after hostOps8 (W16 m ρ c) (Proc.devRef .tc main_v112) = _
    after_results
    rfl
  unfold iblk8
  rw [View.read_apply]
  show W17 m ρ c (Proc.devRef .tc main_v112) _ = _
  rw [e, show ((cfg8.win 2).blk t).view.emb (ix2 (0 : Fin 1) o) = ix2 (0 : Fin 1) o from
    Shape.idx_ext₂ (by show win8_2.index t (0 : Fin 2) * 1 + 1 * 0 = 0; rw [e0])
      (by show win8_2.index t (1 : Fin 2) * 64 + 1 * o.val = o.val; rw [e1]; omega)]
  exact (shapeCast_a_1a_apply _ _ _ o).trans (hb o)

theorem fc8_cover_y (i : S4096x64.Idx) :
    ∃ t : Fin cfg8.N, (cfg8.win 3).flush t = true ∧ i ∈ ((cfg8.win 3).blk t).view.set := by
  obtain ⟨t, hf, h⟩ := tile_cover win8_3 N_8 (by decide) flush8_3 (0 : Fin 2) (by decide +kernel) i
  exact ⟨t, hf, (View.set_slice_whole main_v113_0 (win8_3.rect t)).symm ▸ h⟩

theorem fc8_cover_s (i : S2x8x64.Idx) :
    ∃ t : Fin cfg8.N, (cfg8.win 4).flush t = true ∧ i ∈ ((cfg8.win 4).blk t).view.set := by
  obtain ⟨t, hf, h⟩ := tile_cover win8_4 N_8 (by decide) flush8_4 (0 : Fin 3) (by decide +kernel) i
  exact ⟨t, hf, (View.set_slice_whole main_v113_1 (win8_4.rect t)).symm ▸ h⟩

theorem fc8_cover_q (i : S2x8x64.Idx) :
    ∃ t : Fin cfg8.N, (cfg8.win 5).flush t = true ∧ i ∈ ((cfg8.win 5).blk t).view.set :=
  (fc8_cover_s i).imp fun t h => ⟨flush8_5 t, h.2⟩

theorem fc8_outs (x0 : Vec Ideal S2048x128 .f32) (x1 : Vec Ideal S128x64 .f32) (x2 : Vec Ideal S1x64 .f32) :
    out8_3 x0 x1 x2 = k8_pay1 x0 x1 x2 ∧ out8_4 x0 x1 x2 = k8_pay2 x0 x1 x2 ∧ out8_5 x0 x1 x2 = k8_pay3 x0 x1 x2 := by
  unfold out8_3 out8_4 out8_5
  rw [View.canon_unit_zero hz2, View.canon_unit_zero hz3, View.canon_unit_zero hz3]
  simp only [View.ld_unit_zero (S := S2048x128) hz2, View.ld_unit_zero (S := S128x64) hz2,
    View.ld_unit_zero (S := S1x64) hz2]
  refine ⟨?_, ?_, ?_⟩ <;> trivial

section Region8
variable (hh : Is2 (W16 m ρ c (Proc.devRef .tc main_v110)) (h4f epsR slopeR I))
  (hw : Is2 (W16 m ρ c (Proc.devRef .tc main_arg15)) I.F2)
  (hb : Is1 (W16 m ρ c (Proc.devRef .tc main_arg16)) I.f2b)
include hh hw hb

theorem fc8_flushed (t : Fin cfg8.N) :
    (dat8 (V17 m ρ) c).flushed 3 t
      = ((cfg8.win 3).blk t).view.read (Elt Ideal) (fcGy (y5f epsR slopeR I))
    ∧ (dat8 (V17 m ρ) c).flushed 4 t
      = ((cfg8.win 4).blk t).view.read (Elt Ideal) (fcGs (tsum2 (y5f epsR slopeR I)))
    ∧ (dat8 (V17 m ρ) c).flushed 5 t = ((cfg8.win 5).blk t).view.read (Elt Ideal)
      (fcGs (tsum2 fun r o => y5f epsR slopeR I r o * y5f epsR slopeR I r o)) := by
  have ht : t.val < 2 := Nat.lt_of_lt_of_eq t.isLt N_8
  obtain ⟨-, -, -, -, -, -, e0, e1, e2, e3, e4⟩ := fc8_idx t
  obtain ⟨hy, hs, hq⟩ := FcPay.real (fc8_pay _ _ _) (fc8_blk0 m ρ c I hh t ht) (fc8_blk1 m ρ c I hw t)
    (fc8_blk2 m ρ c I hb t)
  have em : ∀ (u : Fin 1) (s : Fin 8) (o : Fin 64),
      ((cfg8.win 4).blk t).view.emb (ix3 u s o) = ix3 (⟨t.val, ht⟩ : Fin 2) s o := fun u s o =>
    funext fun a => Fin.ext (by
      have hu := u.isLt
      match a with
      | ⟨0, _⟩ => show win8_4.index t (0 : Fin 3) * 1 + 1 * u.val = t.val; rw [e2]; omega
      | ⟨1, _⟩ => show win8_4.index t (1 : Fin 3) * 8 + 1 * s.val = s.val; rw [e3]; omega
      | ⟨2, _⟩ => show win8_4.index t (2 : Fin 3) * 64 + 1 * o.val = o.val; rw [e4]; omega)
  refine ⟨?_, ?_, ?_⟩
  · show (cfg8.win 3).cut (grid8.coords t) ((dat8 (V17 m ρ) c).after 3 t) = _
    rw [after8_3, (fc8_outs _ _ _).1]
    refine fc_ext2 (R := 2048) (O := 64) fun r o => (hy r o).trans ?_
    rw [View.read_apply, show ((cfg8.win 3).blk t).view.emb (ix2 r o) = ix2 (fcRow t.val ht r) o from
      Shape.idx_ext₂ (by show win8_3.index t (0 : Fin 2) * 2048 + 1 * r.val = 2048 * t.val + r.val; rw [e0]; omega)
        (by show win8_3.index t (1 : Fin 2) * 64 + 1 * o.val = o.val; rw [e1]; omega)]
    rfl
  · show (cfg8.win 4).cut (grid8.coords t) ((dat8 (V17 m ρ) c).after 4 t) = _
    rw [after8_4, (fc8_outs _ _ _).2.1]
    refine fc_ext3 (R := 1) (K := 8) (O := 64) fun u s o => (hs u s o).trans ?_
    rw [View.read_apply, em]
    rfl
  · show (cfg8.win 5).cut (grid8.coords t) ((dat8 (V17 m ρ) c).after 5 t) = _
    rw [after8_5, (fc8_outs _ _ _).2.2]
    refine fc_ext3 (R := 1) (K := 8) (O := 64) fun u s o => (hq u s o).trans ?_
    rw [View.read_apply, show ((cfg8.win 5).blk t).view.emb (ix3 u s o) = _ from em u s o]
    rfl

end Region8

theorem stage_y5
    (hh : Is2 (W16 (F := Ideal) m ρ c (Proc.devRef .tc main_v110)) (h4f epsR slopeR I))
    (hw : Is2 (W16 (F := Ideal) m ρ c (Proc.devRef .tc main_arg15)) I.F2)
    (hb : Is1 (W16 (F := Ideal) m ρ c (Proc.devRef .tc main_arg16)) I.f2b) :
    Is2 (W18 (F := Ideal) m ρ c (Proc.devRef .tc main_v113_0)) (y5f epsR slopeR I)
    ∧ Is3 (W18 (F := Ideal) m ρ c (Proc.devRef .tc main_v113_1)) (fun t (_ : Fin 8) o => tsum2 (y5f epsR slopeR I) t o)
    ∧ Is3 (W18 (F := Ideal) m ρ c (Proc.devRef .tc main_v113_2)) (fun t (_ : Fin 8) o => tsum2 (fun r o => y5f epsR slopeR I r o * y5f epsR slopeR I r o) t o) := by
  refine ⟨fun r o => ?_, fun t s o => ?_, fun t s o => ?_⟩
  · exact congrFun ((W18_arr m ρ c 3).trans ((dat8 (V17 m ρ) c).arrAt_eq_of_cover 3 _
      (fun t _ => (fc8_flushed m ρ c I hh hw hb t).1) fc8_cover_y)) (ix2 r o)
  · exact congrFun ((W18_arr m ρ c 4).trans ((dat8 (V17 m ρ) c).arrAt_eq_of_cover 4 _
      (fun t _ => (fc8_flushed m ρ c I hh hw hb t).2.1) fc8_cover_s)) (ix3 t s o)
  · exact congrFun ((W18_arr m ρ c 5).trans ((dat8 (V17 m ρ) c).arrAt_eq_of_cover 5 _
      (fun t _ => (fc8_flushed m ρ c I hh hw hb t).2.2) fc8_cover_q)) (ix3 t s o)

end Cert.KRN.Fc

end
-- ==== Proof.KStats45.lean ====
import proofs.«428405_j30648886624750_3_alg».proof.Proof.Gen.KernelIdeal.Frame
import proofs.«428405_j30648886624750_3_alg».proof.Proof.KStats23Lib
import Idealize.ShloMosaic.Lib.StableHlo.Run

noncomputable section

namespace Cert.KRN.Stats45

open Idealize.ShloMosaic Idealize.ShloMosaic.TcCoe Idealize.SL.Sem Cert.KernelIdeal Cert.KernelIdeal.Gen Cert.RN
open Idealize.ShloMosaic.ValueIdx

variable (m : (ℓ : Loc nD τ sig) → Buf (Elt Ideal) ℓ) (ρ : Dev nD → PrngReg) (c : Dev nD) (I : Inp)

theorem stage_stats4
    (hy : Is2 (W14 (F := Ideal) m ρ c (Proc.devRef .tc main_v91_0)) (y4f epsR slopeR I))
    (hs : Is3 (W14 (F := Ideal) m ρ c (Proc.devRef .tc main_v91_1)) (fun t (_ : Fin 8) o => tsum2 (y4f epsR slopeR I) t o))
    (hq : Is3 (W14 (F := Ideal) m ρ c (Proc.devRef .tc main_v91_2)) (fun t (_ : Fin 8) o => tsum2 (fun r o => y4f epsR slopeR I r o * y4f epsR slopeR I r o) t o))
    (hg : Is1 (W14 (F := Ideal) m ρ c (Proc.devRef .tc main_arg13)) I.g4)
    (hb : Is1 (W14 (F := Ideal) m ρ c (Proc.devRef .tc main_arg14)) I.b4) :
    Is2 (W15 (F := Ideal) m ρ c (Proc.devRef .tc main_v91_0)) (y4f epsR slopeR I)
    ∧ Is2 (W15 (F := Ideal) m ρ c (Proc.devRef .tc main_v106)) (fun (_ : Fin 1) o => mean2 (y4 epsR slopeR I) o)
    ∧ Is2 (W15 (F := Ideal) m ρ c (Proc.devRef .tc main_v107)) (fun (_ : Fin 1) o => var2 (y4 epsR slopeR I) o)
    ∧ Is2 (W15 (F := Ideal) m ρ c (Proc.devRef .tc main_v108)) (fun (_ : Fin 1) o => I.g4 o)
    ∧ Is2 (W15 (F := Ideal) m ρ c (Proc.devRef .tc main_v109)) (fun (_ : Fin 1) o => I.b4 o) := by
  obtain ⟨hm, hv⟩ := stats_read reducesTo_S2x8x128_S128_d0_1 h_S_ bcast_S_S128 c4096
    (by norm_num) (tiles2 (y4 epsR slopeR I)) hs hq
  refine ⟨fun i j => ?_, fun u o => ?_, fun u o => ?_, fun u o => ?_, fun u o => ?_⟩ <;> after_results_simp
  exacts [hy i j, row_read _ hm u o, row_read _ hv u o, row_read _ hg u o, row_read _ hb u o]

theorem stage_stats5
    (hy : Is2 (W18 (F := Ideal) m ρ c (Proc.devRef .tc main_v113_0)) (y5f epsR slopeR I))
    (hs : Is3 (W18 (F := Ideal) m ρ c (Proc.devRef .tc main_v113_1)) (fun t (_ : Fin 8) o => tsum2 (y5f epsR slopeR I) t o))
    (hq : Is3 (W18 (F := Ideal) m ρ c (Proc.devRef .tc main_v113_2)) (fun t (_ : Fin 8) o => tsum2 (fun r o => y5f epsR slopeR I r o * y5f epsR slopeR I r o) t o))
    (hg : Is1 (W18 (F := Ideal) m ρ c (Proc.devRef .tc main_arg17)) I.g5)
    (hb : Is1 (W18 (F := Ideal) m ρ c (Proc.devRef .tc main_arg18)) I.b5) :
    Is2 (W19 (F := Ideal) m ρ c (Proc.devRef .tc main_v113_0)) (y5f epsR slopeR I)
    ∧ Is2 (W19 (F := Ideal) m ρ c (Proc.devRef .tc main_v128)) (fun (_ : Fin 1) o => mean2 (y5 epsR slopeR I) o)
    ∧ Is2 (W19 (F := Ideal) m ρ c (Proc.devRef .tc main_v129)) (fun (_ : Fin 1) o => var2 (y5 epsR slopeR I) o)
    ∧ Is2 (W19 (F := Ideal) m ρ c (Proc.devRef .tc main_v130)) (fun (_ : Fin 1) o => I.g5 o)
    ∧ Is2 (W19 (F := Ideal) m ρ c (Proc.devRef .tc main_v131)) (fun (_ : Fin 1) o => I.b5 o) := by
  obtain ⟨hm, hv⟩ := stats_read reducesTo_S2x8x64_S64_d0_1 h_S_ bcast_S_S64 c4096
    (by norm_num) (tiles2 (y5 epsR slopeR I)) hs hq
  refine ⟨fun i j => ?_, fun u o => ?_, fun u o => ?_, fun u o => ?_, fun u o => ?_⟩ <;> after_results_simp
  exacts [hy i j, row_read _ hm u o, row_read _ hv u o, row_read _ hg u o, row_read _ hb u o]

end Cert.KRN.Stats45

end
-- ==== Proof.KBnReluMath.lean ====
import Idealize.ShloMosaic.Lib.ValueLayout
import proofs.«428405_j30648886624750_3_alg».proof.Proof.Spec
import proofs.«428405_j30648886624750_3_alg».proof.Proof.LibReal
import proofs.«428405_j30648886624750_3_alg».proof.Proof.Consts

noncomputable section

namespace Cert.KRN.BnRelu

open Idealize.ShloMosaic Idealize.ShloMosaic.ValueIdx Cert.RN

def bnReluR {R C : Nat} (y : Fin R → Fin C → ℝ) (μ v g β : Fin C → ℝ) (r : Fin R) (o : Fin C) : ℝ :=
  max (bnv epsR (g o) (β o) (μ o) (v o) (y r o)) 0

-- The four rows are spread over all rows, so at (p, q) only their entry at q enters; a variance plus ε is positive.
theorem bn_relu_tree {R C : Nat} (x0 : FVec Ideal ⟨2, ![R, C]⟩ .f32) (x1 x2 x3 x4 : FVec Ideal ⟨2, ![1, C]⟩ .f32)
    (hb : (⟨2, ![1, C]⟩ : Shape).Broadcasts ⟨2, ![R, C]⟩) (p : Fin R) (q : Fin C) (y μ v g β : ℝ)
    (h0 : x0 (ix2 p q) = (y : EReal)) (h1 : x1 (ix2 (0 : Fin 1) q) = (μ : EReal)) (h2 : x2 (ix2 (0 : Fin 1) q) = (v : EReal))
    (h3 : x3 (ix2 (0 : Fin 1) q) = (g : EReal)) (h4 : x4 (ix2 (0 : Fin 1) q) = (β : EReal)) (hv : 0 ≤ v) :
    maximumf
        (addf
          (mulf (mulf (broadcastTo ⟨2, ![R, C]⟩ x3 hb) (subf x0 (broadcastTo ⟨2, ![R, C]⟩ x1 hb)))
            (broadcastTo ⟨2, ![R, C]⟩ (rsqrt (addf x2 (broadcast ⟨2, ![1, C]⟩ (Scalar.ofBits .f32 0x3727C5AC#32)))) hb))
          (broadcastTo ⟨2, ![R, C]⟩ x4 hb))
        (broadcast ⟨2, ![R, C]⟩ (Scalar.ofBits .f32 0x00000000#32)) (ix2 p q)
      = ((max (bnv epsR g β μ v y) 0 : ℝ) : EReal) := by
  rw [maximumf_apply, addf_apply, mulf_apply, mulf_apply, subf_apply, broadcast_apply,
    broadcastTo_1b_ab_apply, broadcastTo_1b_ab_apply, broadcastTo_1b_ab_apply, broadcastTo_1b_ab_apply, h0, h1, h3, h4]
  show max ((g : EReal) * ((y : EReal) - (μ : EReal)) * Ideal.rsqrt (x2 (ix2 (0 : Fin 1) q) + Ideal.ofBits .f32 0x3727C5AC#32) + (β : EReal))
      (Ideal.ofBits .f32 0x00000000#32) = _
  rw [h2, eps_eq, c0, bnv_coe epsR g β μ v y (by have := eps_pos; linarith), EReal.coe_zero]
  exact relu_coe _

end Cert.KRN.BnRelu

end
-- ==== Proof.KBnRelu.lean ====
import proofs.«428405_j30648886624750_3_alg».proof.Proof.Gen.KernelIdeal.Frame
import proofs.«428405_j30648886624750_3_alg».proof.Proof.KBnReluMath
import proofs.«428405_j30648886624750_3_alg».proof.Proof.KConv2Pay
import Idealize.ShloMosaic.Lib.StableHlo.Run

noncomputable section

namespace Cert.KRN.BnRelu

open Idealize.ShloMosaic Idealize.ShloMosaic.TcCoe Idealize.ShloMosaic.ValueIdx Idealize.SL.Sem Cert.KernelIdeal Cert.KernelIdeal.Gen Cert.RN
open Idealize.ShloMosaic.Pipeline (Dat)

section Region7

variable (V : (c : Dev nD) → (b : Ref sig .tc) → Buf (Elt Ideal) ((c : Thread nD τ).loc b)) (c : Dev nD)

theorem idx7 : ∀ t : Fin cfg7.N, t.val ≤ 1
    ∧ win7_0.index t (0 : Fin 2) = t.val ∧ win7_0.index t (1 : Fin 2) = 0
    ∧ win7_5.index t (0 : Fin 2) = t.val ∧ win7_5.index t (1 : Fin 2) = 0
    ∧ ∀ a : Fin 2, win7_1.index t a = 0 ∧ win7_2.index t a = 0 ∧ win7_3.index t a = 0 ∧ win7_4.index t a = 0 :=
  (by decide +kernel : ∀ t : Fin grid7.N, _)

theorem emb7 (t : Fin cfg7.N) (p : Fin 2048) (q : Fin 128) (r : Fin 4096) (hr : r.val = 2048 * t.val + p.val) :
    ((cfg7.win 0).blk t).view.emb (ix2 p q : S2048x128.Idx) = (ix2 r q : S4096x128.Idx)
    ∧ ((cfg7.win 5).blk t).view.emb (ix2 p q : S2048x128.Idx) = (ix2 r q : S4096x128.Idx) := by
  obtain ⟨-, a0, a1, f0, f1, -⟩ := idx7 t
  refine ⟨funext fun a => Fin.ext ?_, funext fun a => Fin.ext ?_⟩
  · match a with
    | ⟨0, _⟩ => show win7_0.index t (0 : Fin 2) * 2048 + 1 * p.val = r.val; omega
    | ⟨1, _⟩ => show win7_0.index t (1 : Fin 2) * 128 + 1 * q.val = q.val; omega
  · match a with
    | ⟨0, _⟩ => show win7_5.index t (0 : Fin 2) * 2048 + 1 * p.val = r.val; omega
    | ⟨1, _⟩ => show win7_5.index t (1 : Fin 2) * 128 + 1 * q.val = q.val; omega

theorem final7 (yf : Fin 4096 → Fin 128 → ℝ) (μ v g β : Fin 128 → ℝ)
    (hy : Is2 (V c main_v91_0 : S4096x128.Idx → EReal) yf)
    (hmu : Is2 (V c main_v106 : S1x128.Idx → EReal) (fun (_ : Fin 1) o => μ o))
    (hvar : Is2 (V c main_v107 : S1x128.Idx → EReal) (fun (_ : Fin 1) o => v o))
    (hg : Is2 (V c main_v108 : S1x128.Idx → EReal) (fun (_ : Fin 1) o => g o))
    (hb : Is2 (V c main_v109 : S1x128.Idx → EReal) (fun (_ : Fin 1) o => β o))
    (hv : ∀ o, 0 ≤ v o) :
    (dat7 V c).arrAt 5 cfg7.N = (fun i : S4096x128.Idx => ((bnReluR yf μ v g β (i 0) (i 1) : ℝ) : EReal)) := by
  refine (dat7 V c).arrAt_eq_of_cover 5 _ (fun t _ => ?_) fun i => ?_
  · show (cfg7.win 5).cut (grid7.coords t) ((dat7 V c).after 5 t) = _
    rw [after7_5]
    unfold out7_5 k7_pay1
    rw [View.canon_unit_zero hz2]
    simp only [View.ld_unit_zero (S := S2048x128) hz2, View.ld_unit_zero (S := S1x128) hz2, shapeCast_self]
    funext j
    obtain ⟨p, q, rfl⟩ : ∃ (p : Fin 2048) (q : Fin 128), j = ix2 p q := ⟨j 0, j 1, eq_ix2 j⟩
    have hr : 2048 * t.val + p.val < 4096 := by have := (idx7 t).1; omega
    obtain ⟨e0, e5⟩ := emb7 t p q ⟨_, hr⟩ rfl
    have hz := (idx7 t).2.2.2.2.2
    refine (bn_relu_tree _ _ _ _ _ broadcasts_S1x128_S2048x128 p q (yf ⟨_, hr⟩ q) _ _ _ _ ?_
      ((congrFun (whole_read main_v106 _ (fun a => (hz a).1) _ _) _).trans (hmu 0 q))
      ((congrFun (whole_read main_v107 _ (fun a => (hz a).2.1) _ _) _).trans (hvar 0 q))
      ((congrFun (whole_read main_v108 _ (fun a => (hz a).2.2.1) _ _) _).trans (hg 0 q))
      ((congrFun (whole_read main_v109 _ (fun a => (hz a).2.2.2) _ _) _).trans (hb 0 q)) (hv q)).trans ?_
    · unfold iblk7
      rw [View.read_apply]
      exact (congrArg (V c main_v91_0 : S4096x128.Idx → EReal) e0).trans (hy _ q)
    · rw [View.read_apply]
      exact (congrArg (fun i : S4096x128.Idx => ((bnReluR yf μ v g β (i 0) (i 1) : ℝ) : EReal)) e5).symm
  · obtain ⟨t, hf, h⟩ := tile_cover win7_5 N_7 (by decide) flush7_5 (0 : Fin 2) (by decide +kernel) i
    exact ⟨t, hf, (View.set_slice_whole main_v110 (win7_5.rect t)).symm ▸ h⟩

end Region7

section Region9

variable (V : (c : Dev nD) → (b : Ref sig .tc) → Buf (Elt Ideal) ((c : Thread nD τ).loc b)) (c : Dev nD)

theorem idx9 : ∀ t : Fin cfg9.N, t.val ≤ 1
    ∧ win9_0.index t (0 : Fin 2) = t.val ∧ win9_0.index t (1 : Fin 2) = 0
    ∧ win9_5.index t (0 : Fin 2) = t.val ∧ win9_5.index t (1 : Fin 2) = 0
    ∧ ∀ a : Fin 2, win9_1.index t a = 0 ∧ win9_2.index t a = 0 ∧ win9_3.index t a = 0 ∧ win9_4.index t a = 0 :=
  (by decide +kernel : ∀ t : Fin grid9.N, _)

theorem emb9 (t : Fin cfg9.N) (p : Fin 2048) (q : Fin 64) (r : Fin 4096) (hr : r.val = 2048 * t.val + p.val) :
    ((cfg9.win 0).blk t).view.emb (ix2 p q : S2048x64.Idx) = (ix2 r q : S4096x64.Idx)
    ∧ ((cfg9.win 5).blk t).view.emb (ix2 p q : S2048x64.Idx) = (ix2 r q : S4096x64.Idx) := by
  obtain ⟨-, a0, a1, f0, f1, -⟩ := idx9 t
  refine ⟨funext fun a => Fin.ext ?_, funext fun a => Fin.ext ?_⟩
  · match a with
    | ⟨0, _⟩ => show win9_0.index t (0 : Fin 2) * 2048 + 1 * p.val = r.val; omega
    | ⟨1, _⟩ => show win9_0.index t (1 : Fin 2) * 64 + 1 * q.val = q.val; omega
  · match a with
    | ⟨0, _⟩ => show win9_5.index t (0 : Fin 2) * 2048 + 1 * p.val = r.val; omega
    | ⟨1, _⟩ => show win9_5.index t (1 : Fin 2) * 64 + 1 * q.val = q.val; omega

theorem final9 (yf : Fin 4096 → Fin 64 → ℝ) (μ v g β : Fin 64 → ℝ)
    (hy : Is2 (V c main_v113_0 : S4096x64.Idx → EReal) yf)
    (hmu : Is2 (V c main_v128 : S1x64.Idx → EReal) (fun (_ : Fin 1) o => μ o))
    (hvar : Is2 (V c main_v129 : S1x64.Idx → EReal) (fun (_ : Fin 1) o => v o))
    (hg : Is2 (V c main_v130 : S1x64.Idx → EReal) (fun (_ : Fin 1) o => g o))
    (hb : Is2 (V c main_v131 : S1x64.Idx → EReal) (fun (_ : Fin 1) o => β o))
    (hv : ∀ o, 0 ≤ v o) :
    (dat9 V c).arrAt 5 cfg9.N = (fun i : S4096x64.Idx => ((bnReluR yf μ v g β (i 0) (i 1) : ℝ) : EReal)) := by
  refine (dat9 V c).arrAt_eq_of_cover 5 _ (fun t _ => ?_) fun i => ?_
  · show (cfg9.win 5).cut (grid9.coords t) ((dat9 V c).after 5 t) = _
    rw [after9_5]
    unfold out9_5 k9_pay1
    rw [View.canon_unit_zero hz2]
    simp only [View.ld_unit_zero (S := S2048x64) hz2, View.ld_unit_zero (S := S1x64) hz2, shapeCast_self]
    funext j
    obtain ⟨p, q, rfl⟩ : ∃ (p : Fin 2048) (q : Fin 64), j = ix2 p q := ⟨j 0, j 1, eq_ix2 j⟩
    have hr : 2048 * t.val + p.val < 4096 := by have := (idx9 t).1; omega
    obtain ⟨e0, e5⟩ := emb9 t p q ⟨_, hr⟩ rfl
    have hz := (idx9 t).2.2.2.2.2
    refine (bn_relu_tree _ _ _ _ _ broadcasts_S1x64_S2048x64 p q (yf ⟨_, hr⟩ q) _ _ _ _ ?_
      ((congrFun (whole_read main_v128 _ (fun a => (hz a).1) _ _) _).trans (hmu 0 q))
      ((congrFun (whole_read main_v129 _ (fun a => (hz a).2.1) _ _) _).trans (hvar 0 q))
      ((congrFun (whole_read main_v130 _ (fun a => (hz a).2.2.1) _ _) _).trans (hg 0 q))
      ((congrFun (whole_read main_v131 _ (fun a => (hz a).2.2.2) _ _) _).trans (hb 0 q)) (hv q)).trans ?_
    · unfold iblk9
      rw [View.read_apply]
      exact (congrArg (V c main_v113_0 : S4096x64.Idx → EReal) e0).trans (hy _ q)
    · rw [View.read_apply]
      exact (congrArg (fun i : S4096x64.Idx => ((bnReluR yf μ v g β (i 0) (i 1) : ℝ) : EReal)) e5).symm
  · obtain ⟨t, hf, h⟩ := tile_cover win9_5 N_9 (by decide) flush9_5 (0 : Fin 2) (by decide +kernel) i
    exact ⟨t, hf, (View.set_slice_whole main_v132 (win9_5.rect t)).symm ▸ h⟩

end Region9

variable (m : (ℓ : Loc nD τ sig) → Buf (Elt Ideal) ℓ) (ρ : Dev nD → PrngReg) (c : Dev nD) (I : Inp)

theorem stage_h4
    (hy : Is2 (W15 (F := Ideal) m ρ c (Proc.devRef .tc main_v91_0)) (y4f epsR slopeR I))
    (hmu : Is2 (W15 (F := Ideal) m ρ c (Proc.devRef .tc main_v106)) (fun (_ : Fin 1) o => mean2 (y4 epsR slopeR I) o))
    (hvar : Is2 (W15 (F := Ideal) m ρ c (Proc.devRef .tc main_v107)) (fun (_ : Fin 1) o => var2 (y4 epsR slopeR I) o))
    (hg : Is2 (W15 (F := Ideal) m ρ c (Proc.devRef .tc main_v108)) (fun (_ : Fin 1) o => I.g4 o))
    (hb : Is2 (W15 (F := Ideal) m ρ c (Proc.devRef .tc main_v109)) (fun (_ : Fin 1) o => I.b4 o)) :
    Is2 (W16 (F := Ideal) m ρ c (Proc.devRef .tc main_v110)) (h4f epsR slopeR I) := by
  intro r o
  rw [show W16 (F := Ideal) m ρ c (Proc.devRef .tc main_v110) = _ from W16_arr (F := Ideal) m ρ c 5,
    final7 (V15 (F := Ideal) m ρ) c (y4f epsR slopeR I) (mean2 (y4 epsR slopeR I)) (var2 (y4 epsR slopeR I)) I.g4 I.b4
      hy hmu hvar hg hb (fun o => var2_nonneg _ o)]
  rfl

theorem stage_h5
    (hy : Is2 (W19 (F := Ideal) m ρ c (Proc.devRef .tc main_v113_0)) (y5f epsR slopeR I))
    (hmu : Is2 (W19 (F := Ideal) m ρ c (Proc.devRef .tc main_v128)) (fun (_ : Fin 1) o => mean2 (y5 epsR slopeR I) o))
    (hvar : Is2 (W19 (F := Ideal) m ρ c (Proc.devRef .tc main_v129)) (fun (_ : Fin 1) o => var2 (y5 epsR slopeR I) o))
    (hg : Is2 (W19 (F := Ideal) m ρ c (Proc.devRef .tc main_v130)) (fun (_ : Fin 1) o => I.g5 o))
    (hb : Is2 (W19 (F := Ideal) m ρ c (Proc.devRef .tc main_v131)) (fun (_ : Fin 1) o => I.b5 o)) :
    Is3 (W21 (F := Ideal) m ρ c (Proc.devRef .tc main_v133)) (h5 epsR slopeR I) := by
  intro b n o
  have hbn : b.val * 2048 + n.val < 4096 := by omega
  after_results_simp
  refine (shapeCast_apply (t := S2x2048x64) _ _ (ix3 b n o) (ix2 (⟨_, hbn⟩ : Fin 4096) o) (by
    rw [Shape.rowMajor_val_two, Shape.rowMajor_val_three]; rfl)).trans ?_
  rw [show W20 (F := Ideal) m ρ c (Proc.devRef .tc main_v132) = _ from W20_arr (F := Ideal) m ρ c 5,
    final9 (V19 (F := Ideal) m ρ) c (y5f epsR slopeR I) (mean2 (y5 epsR slopeR I)) (var2 (y5 epsR slopeR I)) I.g5 I.b5
      hy hmu hvar hg hb (fun o => var2_nonneg _ o)]
  show ((h5 epsR slopeR I (rB ⟨_, hbn⟩) (rN ⟨_, hbn⟩) o : ℝ) : EReal) = _
  rw [show rB ⟨_, hbn⟩ = b from Fin.ext (by simp only [rB]; omega),
    show rN ⟨_, hbn⟩ = n from Fin.ext (by simp only [rN]; omega)]

end Cert.KRN.BnRelu

end
-- ==== Proof.KArgs.lean ====
import proofs.«428405_j30648886624750_3_alg».proof.Proof.Gen.KernelIdeal.Frame

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

abbrev params : List (Ref sig .tc) :=
  [main_arg3, main_arg4, main_arg5, main_arg6, main_arg7, main_arg8, main_arg9, main_arg10, main_arg11, main_arg12,
   main_arg13, main_arg14, main_arg15, main_arg16, main_arg17, main_arg18]

/-- No host operation before the last region writes a parameter array. -/
theorem host_keeps {ops : List (HloOp τ sig (Elt F))}
    (hops : ops ∈ [hostOps0, hostOps1, hostOps2, hostOps3, hostOps4, hostOps5, hostOps6, hostOps7, hostOps8])
    (V : Valuation τ sig (Elt F)) {r : Ref sig .tc} (hr : r ∈ params) :
    StableHlo.after ops V (Proc.devRef .tc r) = V (Proc.devRef .tc r) := by
  refine StableHlo.after_of_forall_not_mem _ _ (List.forall_iff_forall_mem.mp ?_)
  simp only [List.mem_cons, List.not_mem_nil, or_false] at hops
  rcases hops with rfl | rfl | rfl | rfl | rfl | rfl | rfl | rfl | rfl
  all_goals
    simp only [hostOps0, hostOps1, hostOps2, hostOps3, hostOps4, hostOps5, hostOps6, hostOps7, hostOps8,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (ne_of_mem_of_not_mem hr (by decide))

variable {r : Ref sig .tc} (hr : r ∈ params)
include hr

/-- A parameter array is none of a region's arrays until the region that uses it, so it is as launched at every boundary before. -/
theorem W2_param : W2 m ρ c (Proc.devRef .tc r) = m ((c : Thread nD τ).loc r) :=
  (W2_of_ne m ρ c r fun w e => (by decide : ∀ w, Pipeline.arrRef spec0 w ∉ params) w (e ▸ hr)).trans
    (host_keeps (by simp) _ hr)
theorem W4_param : W4 m ρ c (Proc.devRef .tc r) = m ((c : Thread nD τ).loc r) :=
  (W4_of_ne m ρ c r fun w e => (by decide : ∀ w, Pipeline.arrRef spec1 w ∉ params) w (e ▸ hr)).trans
    ((host_keeps (by simp) _ hr).trans (W2_param m ρ c hr))
theorem W6_param : W6 m ρ c (Proc.devRef .tc r) = m ((c : Thread nD τ).loc r) :=
  (W6_of_ne m ρ c r fun w e => (by decide : ∀ w, Pipeline.arrRef spec2 w ∉ params) w (e ▸ hr)).trans
    ((host_keeps (by simp) _ hr).trans (W4_param m ρ c hr))
theorem W8_param : W8 m ρ c (Proc.devRef .tc r) = m ((c : Thread nD τ).loc r) :=
  (W8_of_ne m ρ c r fun w e => (by decide : ∀ w, Pipeline.arrRef spec3 w ∉ params) w (e ▸ hr)).trans
    ((host_keeps (by simp) _ hr).trans (W6_param m ρ c hr))
theorem W10_param : W10 m ρ c (Proc.devRef .tc r) = m ((c : Thread nD τ).loc r) :=
  (W10_of_ne m ρ c r fun w e => (by decide : ∀ w, Pipeline.arrRef spec4 w ∉ params) w (e ▸ hr)).trans
    ((host_keeps (by simp) _ hr).trans (W8_param m ρ c hr))
theorem W12_param : W12 m ρ c (Proc.devRef .tc r) = m ((c : Thread nD τ).loc r) :=
  (W12_of_ne m ρ c r fun w e => (by decide : ∀ w, Pipeline.arrRef spec5 w ∉ params) w (e ▸ hr)).trans
    ((host_keeps (by simp) _ hr).trans (W10_param m ρ c hr))
theorem W14_param : W14 m ρ c (Proc.devRef .tc r) = m ((c : Thread nD τ).loc r) :=
  (W14_of_ne m ρ c r fun w e => (by decide : ∀ w, Pipeline.arrRef spec6 w ∉ params) w (e ▸ hr)).trans
    ((host_keeps (by simp) _ hr).trans (W12_param m ρ c hr))
theorem W16_param : W16 m ρ c (Proc.devRef .tc r) = m ((c : Thread nD τ).loc r) :=
  (W16_of_ne m ρ c r fun w e => (by decide : ∀ w, Pipeline.arrRef spec7 w ∉ params) w (e ▸ hr)).trans
    ((host_keeps (by simp) _ hr).trans (W14_param m ρ c hr))
theorem W18_param : W18 m ρ c (Proc.devRef .tc r) = m ((c : Thread nD τ).loc r) :=
  (W18_of_ne m ρ c r fun w e => (by decide : ∀ w, Pipeline.arrRef spec8 w ∉ params) w (e ▸ hr)).trans
    ((host_keeps (by simp) _ hr).trans (W16_param m ρ c hr))

end Cert.KernelIdeal.Gen

end
-- ==== Proof.KChain.lean ====
import proofs.«428405_j30648886624750_3_alg».proof.Proof.KProj
import proofs.«428405_j30648886624750_3_alg».proof.Proof.KStats1
import proofs.«428405_j30648886624750_3_alg».proof.Proof.KLayer1
import proofs.«428405_j30648886624750_3_alg».proof.Proof.KConv2
import proofs.«428405_j30648886624750_3_alg».proof.Proof.KStats23
import proofs.«428405_j30648886624750_3_alg».proof.Proof.KConv3
import proofs.«428405_j30648886624750_3_alg».proof.Proof.KPool
import proofs.«428405_j30648886624750_3_alg».proof.Proof.KFc
import proofs.«428405_j30648886624750_3_alg».proof.Proof.KStats45
import proofs.«428405_j30648886624750_3_alg».proof.Proof.KBnRelu
import proofs.«428405_j30648886624750_3_alg».proof.Proof.KArgs

noncomputable section

namespace Cert.KRN

open Idealize.ShloMosaic Idealize.ShloMosaic.TcCoe Idealize.SL.Sem Cert.KernelIdeal Cert.KernelIdeal.Gen Cert.RN
open Cert.KRN.Proj Cert.KRN.Stats1 Cert.KRN.Conv3 Cert.KRN.Pool Cert.KRN.Fc Cert.KRN.BnRelu Cert.KRN.Stats23 Cert.KRN.Stats45

variable (m : (ℓ : Loc nD τ sig) → Buf (Elt Ideal) ℓ) (ρ : Dev nD → PrngReg) (c : Dev nD) (I : Inp)

theorem kernel_value
    (a0 : Is3 (m ((c.tc : Thread nD τ).loc main_arg0)) I.x)
    (a1 : Is3 (m ((c.tc : Thread nD τ).loc main_arg1)) I.ce)
    (a2 : Is2 (m ((c.tc : Thread nD τ).loc main_arg2)) I.W1)
    (a3 : Is1 (m ((c.tc : Thread nD τ).loc main_arg3)) I.g1)
    (a4 : Is1 (m ((c.tc : Thread nD τ).loc main_arg4)) I.b1)
    (a5 : Is2 (m ((c.tc : Thread nD τ).loc main_arg5)) I.W2)
    (a6 : Is1 (m ((c.tc : Thread nD τ).loc main_arg6)) I.g2)
    (a7 : Is1 (m ((c.tc : Thread nD τ).loc main_arg7)) I.b2)
    (a8 : Is2 (m ((c.tc : Thread nD τ).loc main_arg8)) I.W3)
    (a9 : Is1 (m ((c.tc : Thread nD τ).loc main_arg9)) I.g3)
    (a10 : Is1 (m ((c.tc : Thread nD τ).loc main_arg10)) I.b3)
    (a11 : Is2 (m ((c.tc : Thread nD τ).loc main_arg11)) I.F1)
    (a12 : Is1 (m ((c.tc : Thread nD τ).loc main_arg12)) I.f1b)
    (a13 : Is1 (m ((c.tc : Thread nD τ).loc main_arg13)) I.g4)
    (a14 : Is1 (m ((c.tc : Thread nD τ).loc main_arg14)) I.b4)
    (a15 : Is2 (m ((c.tc : Thread nD τ).loc main_arg15)) I.F2)
    (a16 : Is1 (m ((c.tc : Thread nD τ).loc main_arg16)) I.f2b)
    (a17 : Is1 (m ((c.tc : Thread nD τ).loc main_arg17)) I.g5)
    (a18 : Is1 (m ((c.tc : Thread nD τ).loc main_arg18)) I.b5) :
    Is3 (W21 (F := Ideal) m ρ c (Proc.devRef .tc main_v133)) (h5 epsR slopeR I) := by
  have hpp := stage_pp m ρ c I a0 a2
  have hcp := stage_cp m ρ c I a1 a2
  obtain ⟨p5, q5, mu1, va1, g1', b1'⟩ := stage_stats1 m ρ c I hpp hcp (by rw [W4_param (F := Ideal) m ρ c (r := main_arg3) (by decide)]; exact a3) (by rw [W4_param (F := Ideal) m ρ c (r := main_arg4) (by decide)]; exact a4)
  have hh1 := stage_h1 m ρ c I p5 q5 mu1 va1 g1' b1'
  obtain ⟨y2a, s2, q2⟩ := stage_y2 m ρ c I hh1 (by rw [W6_param (F := Ideal) m ρ c (r := main_arg5) (by decide)]; exact a5)
  obtain ⟨y2b, mu2, va2, g2', b2', w3t⟩ := stage_stats2 m ρ c I y2a s2 q2 (by rw [W8_param (F := Ideal) m ρ c (r := main_arg6) (by decide)]; exact a6) (by rw [W8_param (F := Ideal) m ρ c (r := main_arg7) (by decide)]; exact a7) (by rw [W8_param (F := Ideal) m ρ c (r := main_arg8) (by decide)]; exact a8)
  obtain ⟨y3a, s3, q3⟩ := stage_y3 m ρ c I y2b mu2 va2 g2' b2' w3t
  obtain ⟨y3b, mu3, va3, g3', b3'⟩ := stage_stats3 m ρ c I y3a s3 q3 (by rw [W10_param (F := Ideal) m ρ c (r := main_arg9) (by decide)]; exact a9) (by rw [W10_param (F := Ideal) m ρ c (r := main_arg10) (by decide)]; exact a10)
  have hmx := stage_hmax m ρ c I y3b mu3 va3 g3' b3'
  obtain ⟨y4a, s4, q4⟩ := stage_y4 m ρ c I hmx (by rw [W12_param (F := Ideal) m ρ c (r := main_arg11) (by decide)]; exact a11) (by rw [W12_param (F := Ideal) m ρ c (r := main_arg12) (by decide)]; exact a12)
  obtain ⟨y4b, mu4, va4, g4', b4'⟩ := stage_stats4 m ρ c I y4a s4 q4 (by rw [W14_param (F := Ideal) m ρ c (r := main_arg13) (by decide)]; exact a13) (by rw [W14_param (F := Ideal) m ρ c (r := main_arg14) (by decide)]; exact a14)
  have hh4 := stage_h4 m ρ c I y4b mu4 va4 g4' b4'
  obtain ⟨y5a, s5, q5'⟩ := stage_y5 m ρ c I hh4 (by rw [W16_param (F := Ideal) m ρ c (r := main_arg15) (by decide)]; exact a15) (by rw [W16_param (F := Ideal) m ρ c (r := main_arg16) (by decide)]; exact a16)
  obtain ⟨y5b, mu5, va5, g5', b5'⟩ := stage_stats5 m ρ c I y5a s5 q5' (by rw [W18_param (F := Ideal) m ρ c (r := main_arg17) (by decide)]; exact a17) (by rw [W18_param (F := Ideal) m ρ c (r := main_arg18) (by decide)]; exact a18)
  exact stage_h5 m ρ c I y5b mu5 va5 g5' b5'

end Cert.KRN

end
-- ==== Proof.RefS45.lean ====
import proofs.«428405_j30648886624750_3_alg».proof.ReferenceIdeal
import proofs.«428405_j30648886624750_3_alg».proof.Proof.Gen.ReferenceIdeal
import proofs.«428405_j30648886624750_3_alg».proof.Proof.Spec
import proofs.«428405_j30648886624750_3_alg».proof.Proof.LibReal
import proofs.«428405_j30648886624750_3_alg».proof.Proof.LibReduce
import proofs.«428405_j30648886624750_3_alg».proof.Proof.Consts
import Idealize.ShloMosaic.Lib.IdealHost
import Idealize.ShloMosaic.Lib.Pipeline.Value

noncomputable section

namespace Cert.RRN

open Idealize.ShloMosaic Idealize.ShloMosaic.TcCoe Idealize.ShloMosaic.ValueIdx Cert.ReferenceIdeal Cert.ReferenceIdeal.Gen Cert.RN

-- With no batch axis and both operands contracted on their last axis, entry (i, j, o) is Σ_k h[i,j,k] · w[o,k].
theorem dot3_apply {A B K C : Nat} {d : DotDims ⟨3, ![A, B, K]⟩ ⟨2, ![C, K]⟩ ⟨3, ![A, B, C]⟩} {wf}
    (hd : d = ⟨[2], [1], [0, 1], [0], [], [], wf⟩) (h : FVec Ideal ⟨3, ![A, B, K]⟩ .f32)
    (w : FVec Ideal ⟨2, ![C, K]⟩ .f32) (i : Fin A) (j : Fin B) (o : Fin C) :
    Host.dotGeneral d none h w (ix3 i j o) = ∑ k : Fin K, h (ix3 i j k) * w (ix2 o k) := by
  subst hd
  simp only [Host.dotGeneral]
  rw [Ideal.dotGeneral_apply, ← Equiv.sum_comp (contrEquiv1 _ K rfl rfl).symm]
  refine Finset.sum_congr rfl fun k _ =>
    congrArg₂ (· * ·) (congrArg h (funext fun a => Fin.ext ?_)) (congrArg w (funext fun a => Fin.ext ?_))
  · match a with
    | ⟨0, _⟩ => rfl
    | ⟨1, _⟩ => rfl
    | ⟨2, _⟩ => rfl
  · match a with
    | ⟨0, _⟩ => rfl
    | ⟨1, _⟩ => rfl

theorem chan_val {C : Nat} (o : Fin C) : o.val = if C = 1 then 0 else o.val := by
  split
  · have := o.isLt; omega
  · rfl

namespace FC

class Lay (C : Nat) : Prop where
  bc : (⟨1, ![C]⟩ : Shape).BroadcastsInDim ⟨3, ![1, 1, C]⟩ ![2]
  br : (⟨3, ![1, 1, C]⟩ : Shape).BroadcastsInDim ⟨3, ![2, 2048, C]⟩ ![0, 1, 2]
  bs : S_.BroadcastsInDim ⟨3, ![1, 1, C]⟩ ![]
  bf : S_.BroadcastsInDim ⟨3, ![2, 2048, C]⟩ ![]
  rd : (⟨3, ![2, 2048, C]⟩ : Shape).ReducesTo [0, 1] ⟨1, ![C]⟩

instance : Lay 128 := ⟨bcast_S128_S1x1x128_2, bcast_S1x1x128_S2x2048x128_0_1_2, bcast_S_S1x1x128, bcast_S_S2x2048x128,
  reducesTo_S2x2048x128_S128_d0_1⟩
instance : Lay 64 := ⟨bcast_S64_S1x1x64_2, bcast_S1x1x64_S2x2048x64_0_1_2, bcast_S_S1x1x64, bcast_S_S2x2048x64,
  reducesTo_S2x2048x64_S64_d0_1⟩

variable {K C : Nat} [Lay C]

def row (v : FVec Ideal ⟨1, ![C]⟩ .f32) : FVec Ideal ⟨3, ![1, 1, C]⟩ .f32 :=
  broadcastInDim ⟨3, ![1, 1, C]⟩ ![2] Lay.bc v
def full (r : FVec Ideal ⟨3, ![1, 1, C]⟩ .f32) : FVec Ideal ⟨3, ![2, 2048, C]⟩ .f32 :=
  broadcastInDim ⟨3, ![2, 2048, C]⟩ ![0, 1, 2] Lay.br r
def scal {α : Type} (s : S_.Idx → α) : (⟨3, ![1, 1, C]⟩ : Shape).Idx → α :=
  broadcastInDim ⟨3, ![1, 1, C]⟩ ![] Lay.bs s

theorem row_apply (v : FVec Ideal ⟨1, ![C]⟩ .f32) (o : Fin C) : row v (ix3 0 0 o) = v (ix1 o) :=
  broadcastInDim_apply _ Lay.bc v _ (ix1 o) (fun a => by
    match a with
    | ⟨0, _⟩ => exact chan_val o)

theorem full_apply (r : FVec Ideal ⟨3, ![1, 1, C]⟩ .f32) (i : Fin 2) (j : Fin 2048) (o : Fin C) :
    full r (ix3 i j o) = r (ix3 0 0 o) :=
  broadcastInDim_apply _ Lay.br r _ (ix3 0 0 o) (fun a => by
    match a with
    | ⟨0, _⟩ => rfl
    | ⟨1, _⟩ => rfl
    | ⟨2, _⟩ => exact chan_val o)

theorem scal_apply {α : Type} (s : S_.Idx → α) (j : (⟨3, ![1, 1, C]⟩ : Shape).Idx) : scal s j = s ix0 :=
  broadcastInDim_scalar_apply _ s j

variable (d : DotDims ⟨3, ![2, 2048, K]⟩ ⟨2, ![C, K]⟩ ⟨3, ![2, 2048, C]⟩)
  (h : FVec Ideal ⟨3, ![2, 2048, K]⟩ .f32) (w : FVec Ideal ⟨2, ![C, K]⟩ .f32)
  (y : FVec Ideal ⟨3, ![2, 2048, C]⟩ .f32) (fb g b : FVec Ideal ⟨1, ![C]⟩ .f32)

def pre : FVec Ideal ⟨3, ![2, 2048, C]⟩ .f32 := addf (Host.dotGeneral d none h w) (full (row fb))

def csum : FVec Ideal ⟨1, ![C]⟩ .f32 :=
  Host.reduceAdd y (constant (F := Ideal) S_ .f32 0x00000000#32) Lay.rd h_S_

def mean : FVec Ideal ⟨3, ![1, 1, C]⟩ .f32 :=
  Host.divf (row (csum y)) (scal (constant (F := Ideal) S_ .f32 0x45800000#32))

def dev : FVec Ideal ⟨3, ![2, 2048, C]⟩ .f32 := subf y (full (mean y))

def cnt : FVec Ideal S_ .f32 :=
  subf (constant (F := Ideal) S_ .f32 0x45800000#32) (sitofp .f32 (constantI S_ 32 0#32))

def vari : FVec Ideal ⟨3, ![1, 1, C]⟩ .f32 :=
  select (scal (cmpf .ogt cnt (constant (F := Ideal) S_ .f32 0x00000000#32)))
    (Host.divf (row (csum (mulf (dev y) (dev y)))) (scal cnt))
    (scal (id (constant (F := Ideal) S_ .f32 0x7FC00000#32)))

def normed : FVec Ideal ⟨3, ![2, 2048, C]⟩ .f32 :=
  addf
    (mulf (mulf (full (row g)) (dev y))
      (full (Host.rsqrt (addf (vari y) (scal (constant (F := Ideal) S_ .f32 0x3727C5AC#32))))))
    (full (row b))

def out : FVec Ideal ⟨3, ![2, 2048, C]⟩ .f32 :=
  maximumf (normed y g b)
    (broadcastInDim ⟨3, ![2, 2048, C]⟩ ![] Lay.bf (constant (F := Ideal) S_ .f32 0x00000000#32))

variable {d h w y fb g b} {H : Fin 2 → Fin 2048 → Fin K → ℝ} {W : Fin C → Fin K → ℝ}
  {Y : Fin 2 → Fin 2048 → Fin C → ℝ} {Fb G B : Fin C → ℝ}

theorem pre_is {wf} (hd : d = ⟨[2], [1], [0, 1], [0], [], [], wf⟩) (hh : Is3 h H) (hw : Is2 w W) (hfb : Is1 fb Fb) :
    Is3 (pre d h w fb) (fun i j o => (∑ k, H i j k * W o k) + Fb o) := fun i j o => by
  unfold pre
  rw [addf_apply, dot3_apply hd, full_apply, row_apply, hfb o,
    show (∑ k, h (ix3 i j k) * w (ix2 o k)) = ∑ k, ((H i j k * W o k : ℝ) : EReal) from
      Finset.sum_congr rfl fun k _ => by rw [hh i j k, hw o k, EReal.coe_mul],
    coe_sum, ← EReal.coe_add]

theorem csum_is (hy : Is3 y Y) (o : Fin C) : csum y (ix1 o) = ((∑ i, ∑ j, Y i j o : ℝ) : EReal) := by
  unfold csum
  rw [hostReduceAdd_apply, hostReduceAdd_01, constant_apply, c0]
  simp only [show ∀ i j, y (ix3 i j o) = ((Y i j o : ℝ) : EReal) from fun i j => hy i j o, coe_sum]
  rw [← EReal.coe_add, zero_add]

theorem mean_is (hy : Is3 y Y) (o : Fin C) : mean y (ix3 0 0 o) = ((mean2 Y o : ℝ) : EReal) := by
  unfold mean
  rw [hostDivf_apply, row_apply, scal_apply, csum_is hy, constant_apply, c4096, div_coe_coe _ _ (by norm_num)]
  rfl

theorem dev_is (hy : Is3 y Y) (i : Fin 2) (j : Fin 2048) (o : Fin C) :
    dev y (ix3 i j o) = ((Y i j o - mean2 Y o : ℝ) : EReal) := by
  unfold dev
  rw [subf_apply, full_apply, mean_is hy, hy i j o, ← EReal.coe_sub]

theorem cnt_is : cnt ix0 = ((4096 : ℝ) : EReal) := by
  show Ideal.ofBits .f32 0x45800000#32 - (((0#32 : BitVec 32).toInt : ℝ) : EReal) = _
  rw [c4096, show (0#32 : BitVec 32).toInt = 0 from rfl, Int.cast_zero, EReal.coe_zero, sub_zero]

-- The count 4096 is positive, so the select takes the quotient: the mean of the squared deviations.
theorem vari_is (hy : Is3 y Y) (o : Fin C) : vari y (ix3 0 0 o) = ((var2 Y o : ℝ) : EReal) := by
  have hs : Is3 (mulf (dev y) (dev y)) (fun i j o => (Y i j o - mean2 Y o) * (Y i j o - mean2 Y o)) := fun i j o => by
    rw [mulf_apply, dev_is hy, ← EReal.coe_mul]
  unfold vari
  simp only [select_apply, scal_apply, cmpf_apply, hostDivf_apply]
  rw [cnt_is, constant_apply, c0, Ideal.cmpf_def,
    show Ideal.cmp .ogt ((4096 : ℝ) : EReal) ((0 : ℝ) : EReal) = 1#1 by simp [Ideal.cmp],
    select_one, row_apply, csum_is hs, div_coe_coe _ _ (by norm_num)]
  simp only [var2, pow_two]

theorem out_is (hy : Is3 y Y) (hg : Is1 g G) (hb : Is1 b B) :
    Is3 (out y g b) (fun i j o => max (bnv epsR (G o) (B o) (mean2 Y o) (var2 Y o) (Y i j o)) 0) := fun i j o => by
  have hr : Host.rsqrt (addf (vari y) (scal (constant (F := Ideal) S_ .f32 0x3727C5AC#32))) (ix3 0 0 o)
      = Ideal.rsqrt (((var2 Y o : ℝ) : EReal) + ((epsR : ℝ) : EReal)) := by
    show Ideal.rsqrt (addf (vari y) _ _) = _
    rw [addf_apply, vari_is hy, scal_apply, constant_apply, eps_eq]
  unfold out normed
  rw [maximumf_apply, addf_apply, mulf_apply, mulf_apply, full_apply, full_apply, full_apply, row_apply, row_apply,
    hr, dev_is hy, hg o, hb o, EReal.coe_sub,
    bnv_coe epsR _ _ _ _ _ (add_pos_of_nonneg_of_pos (var2_nonneg Y o) eps_pos),
    broadcastInDim_scalar_apply, constant_apply, c0, EReal.coe_zero, relu_coe]

end FC

def RS4 (h : FVec Ideal S2x2048x256 .f32) (f1 : FVec Ideal S128x256 .f32) (fb g b : FVec Ideal S128 .f32) :
    FVec Ideal S2x2048x128 .f32 :=
  FC.out (FC.pre dot_S2x2048x256_S128x256_S2x2048x128_2_1_01_0_n_n h f1 fb) g b

theorem RS4_is (I : Inp) (h : FVec Ideal S2x2048x256 .f32) (f1 : FVec Ideal S128x256 .f32) (fb g b : FVec Ideal S128 .f32)
    (hh : Is3 h (hmax epsR slopeR I)) (hw : Is2 f1 I.F1) (hfb : Is1 fb I.f1b) (hg : Is1 g I.g4) (hb : Is1 b I.b4) :
    Is3 (RS4 h f1 fb g b) (h4 epsR slopeR I) :=
  FC.out_is (FC.pre_is rfl hh hw hfb) hg hb

def RS5 (h : FVec Ideal S2x2048x128 .f32) (f2 : FVec Ideal S64x128 .f32) (fb g b : FVec Ideal S64 .f32) :
    FVec Ideal S2x2048x64 .f32 :=
  FC.out (FC.pre dot_S2x2048x128_S64x128_S2x2048x64_2_1_01_0_n_n h f2 fb) g b

theorem RS5_is (I : Inp) (h : FVec Ideal S2x2048x128 .f32) (f2 : FVec Ideal S64x128 .f32) (fb g b : FVec Ideal S64 .f32)
    (hh : Is3 h (h4 epsR slopeR I)) (hw : Is2 f2 I.F2) (hfb : Is1 fb I.f2b) (hg : Is1 g I.g5) (hb : Is1 b I.b5) :
    Is3 (RS5 h f2 fb g b) (h5 epsR slopeR I) :=
  FC.out_is (FC.pre_is rfl hh hw hfb) hg hb

end Cert.RRN

end
-- ==== Proof.RefS23.lean ====
import proofs.«428405_j30648886624750_3_alg».proof.Proof.RefS45

noncomputable section

namespace Cert.RRN

open Idealize.ShloMosaic Idealize.ShloMosaic.TcCoe Idealize.ShloMosaic.ValueIdx Cert.ReferenceIdeal Cert.ReferenceIdeal.Gen Cert.RN

namespace CV

-- With no batch axis and both operands contracted on their last axis, entry (i, n, m, o) is Σ_k h[i,n,m,k] · w[o,k].
theorem conv_is {A B M K C : Nat} {d : DotDims ⟨4, ![A, B, M, K]⟩ ⟨2, ![C, K]⟩ ⟨4, ![A, B, M, C]⟩} {wf}
    (hd : d = ⟨[3], [1], [0, 1, 2], [0], [], [], wf⟩) {h : FVec Ideal ⟨4, ![A, B, M, K]⟩ .f32}
    {w : FVec Ideal ⟨2, ![C, K]⟩ .f32} {H : Fin A → Fin B → Fin M → Fin K → ℝ} {W : Fin C → Fin K → ℝ}
    (hh : Is4 h H) (hw : Is2 w W) :
    Is4 (Host.dotGeneral d none h w) (fun i n m o => ∑ k, H i n m k * W o k) := fun i n m o => by
  subst hd
  simp only [Host.dotGeneral]
  rw [Ideal.dotGeneral_apply, ← Equiv.sum_comp (contrEquiv1 _ K rfl rfl).symm, ← coe_sum]
  refine Finset.sum_congr rfl fun k _ => ?_
  rw [EReal.coe_mul, ← hh i n m k, ← hw o k]
  refine congrArg₂ (· * ·) (congrArg h (funext fun a => Fin.ext ?_)) (congrArg w (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

class Lay (C : Nat) : Prop where
  bc : (⟨1, ![C]⟩ : Shape).BroadcastsInDim ⟨4, ![1, 1, 1, C]⟩ ![3]
  br : (⟨4, ![1, 1, 1, C]⟩ : Shape).BroadcastsInDim ⟨4, ![2, 2048, 64, C]⟩ ![0, 1, 2, 3]
  bs : S_.BroadcastsInDim ⟨4, ![1, 1, 1, C]⟩ ![]
  bf : S_.BroadcastsInDim ⟨4, ![2, 2048, 64, C]⟩ ![]
  rd : (⟨4, ![2, 2048, 64, C]⟩ : Shape).ReducesTo [0, 1, 2] ⟨1, ![C]⟩

instance : Lay 256 := ⟨bcast_S256_S1x1x1x256_3, bcast_S1x1x1x256_S2x2048x64x256_0_1_2_3, bcast_S_S1x1x1x256,
  bcast_S_S2x2048x64x256, reducesTo_S2x2048x64x256_S256_d0_1_2⟩

variable {C : Nat} [Lay C]

def row (v : FVec Ideal ⟨1, ![C]⟩ .f32) : FVec Ideal ⟨4, ![1, 1, 1, C]⟩ .f32 :=
  broadcastInDim ⟨4, ![1, 1, 1, C]⟩ ![3] Lay.bc v
def full (r : FVec Ideal ⟨4, ![1, 1, 1, C]⟩ .f32) : FVec Ideal ⟨4, ![2, 2048, 64, C]⟩ .f32 :=
  broadcastInDim ⟨4, ![2, 2048, 64, C]⟩ ![0, 1, 2, 3] Lay.br r
def scal {α : Type} (s : S_.Idx → α) : (⟨4, ![1, 1, 1, C]⟩ : Shape).Idx → α :=
  broadcastInDim ⟨4, ![1, 1, 1, C]⟩ ![] Lay.bs s
def scalFull {α : Type} (s : S_.Idx → α) : (⟨4, ![2, 2048, 64, C]⟩ : Shape).Idx → α :=
  broadcastInDim ⟨4, ![2, 2048, 64, C]⟩ ![] Lay.bf s

theorem row_apply (v : FVec Ideal ⟨1, ![C]⟩ .f32) (c : Fin C) : row v (ix4 0 0 0 c) = v (ix1 c) :=
  broadcastInDim_apply _ Lay.bc v _ (ix1 c) (fun a => by
    match a with
    | ⟨0, _⟩ => exact chan_val c)

theorem full_apply (r : FVec Ideal ⟨4, ![1, 1, 1, C]⟩ .f32) (i : Fin 2) (n : Fin 2048) (m : Fin 64) (c : Fin C) :
    full r (ix4 i n m c) = r (ix4 0 0 0 c) :=
  broadcastInDim_apply _ Lay.br r _ (ix4 0 0 0 c) (fun a => by
    match a with
    | ⟨0, _⟩ => rfl
    | ⟨1, _⟩ => rfl
    | ⟨2, _⟩ => rfl
    | ⟨3, _⟩ => exact chan_val c)

theorem scal_apply {α : Type} (s : S_.Idx → α) (j : (⟨4, ![1, 1, 1, C]⟩ : Shape).Idx) : scal s j = s ix0 :=
  broadcastInDim_scalar_apply _ s j

theorem scalFull_apply {α : Type} (s : S_.Idx → α) (j : (⟨4, ![2, 2048, 64, C]⟩ : Shape).Idx) :
    scalFull s j = s ix0 :=
  broadcastInDim_scalar_apply _ s j

variable (y : FVec Ideal ⟨4, ![2, 2048, 64, C]⟩ .f32) (g b : FVec Ideal ⟨1, ![C]⟩ .f32)

def csum : FVec Ideal ⟨1, ![C]⟩ .f32 :=
  Host.reduceAdd y (constant (F := Ideal) S_ .f32 0x00000000#32) Lay.rd h_S_

def mean : FVec Ideal ⟨4, ![1, 1, 1, C]⟩ .f32 :=
  Host.divf (row (csum y)) (scal (constant (F := Ideal) S_ .f32 0x48800000#32))

def dev : FVec Ideal ⟨4, ![2, 2048, 64, C]⟩ .f32 := subf y (full (mean y))

def cnt : FVec Ideal S_ .f32 :=
  subf (constant (F := Ideal) S_ .f32 0x48800000#32) (sitofp .f32 (constantI S_ 32 0#32))

def vari : FVec Ideal ⟨4, ![1, 1, 1, C]⟩ .f32 :=
  select (scal (cmpf .ogt cnt (constant (F := Ideal) S_ .f32 0x00000000#32)))
    (Host.divf (row (csum (mulf (dev y) (dev y)))) (scal cnt))
    (scal (id (constant (F := Ideal) S_ .f32 0x7FC00000#32)))

def normed : FVec Ideal ⟨4, ![2, 2048, 64, C]⟩ .f32 :=
  addf
    (mulf (mulf (full (row g)) (dev y))
      (full (Host.rsqrt (addf (vari y) (scal (constant (F := Ideal) S_ .f32 0x3727C5AC#32))))))
    (full (row b))

def rect : FVec Ideal ⟨4, ![2, 2048, 64, C]⟩ .f32 :=
  select (cmpf .oge (normed y g b) (scalFull (constant (F := Ideal) S_ .f32 0x00000000#32))) (normed y g b)
    (mulf (scalFull (constant (F := Ideal) S_ .f32 0x3E4CCCCD#32)) (normed y g b))

variable {y g b} {Y : Fin 2 → Fin 2048 → Fin 64 → Fin C → ℝ} {G B : Fin C → ℝ}

theorem csum_is (hy : Is4 y Y) (c : Fin C) : csum y (ix1 c) = ((∑ i, ∑ n, ∑ m, Y i n m c : ℝ) : EReal) := by
  unfold csum
  rw [hostReduceAdd_apply, hostReduceAdd_012, constant_apply, c0]
  simp only [show ∀ i n m, y (ix4 i n m c) = ((Y i n m c : ℝ) : EReal) from fun i n m => hy i n m c, coe_sum]
  rw [← EReal.coe_add, zero_add]

theorem mean_is (hy : Is4 y Y) (c : Fin C) : mean y (ix4 0 0 0 c) = ((mean3 Y c : ℝ) : EReal) := by
  unfold mean
  rw [hostDivf_apply, row_apply, scal_apply, csum_is hy, constant_apply, c262144, div_coe_coe _ _ (by norm_num)]
  rfl

theorem dev_is (hy : Is4 y Y) (i : Fin 2) (n : Fin 2048) (m : Fin 64) (c : Fin C) :
    dev y (ix4 i n m c) = ((Y i n m c - mean3 Y c : ℝ) : EReal) := by
  unfold dev
  rw [subf_apply, full_apply, mean_is hy, hy i n m c, ← EReal.coe_sub]

theorem cnt_is : cnt ix0 = ((262144 : ℝ) : EReal) := by
  show Ideal.ofBits .f32 0x48800000#32 - (((0#32 : BitVec 32).toInt : ℝ) : EReal) = _
  rw [c262144, show (0#32 : BitVec 32).toInt = 0 from rfl, Int.cast_zero, EReal.coe_zero, sub_zero]

-- The count 262144 is positive, so the select takes the quotient: the mean of the squared deviations.
theorem vari_is (hy : Is4 y Y) (c : Fin C) : vari y (ix4 0 0 0 c) = ((var3 Y c : ℝ) : EReal) := by
  have hs : Is4 (mulf (dev y) (dev y)) (fun i n m c => (Y i n m c - mean3 Y c) * (Y i n m c - mean3 Y c)) :=
    fun i n m c => by rw [mulf_apply, dev_is hy, ← EReal.coe_mul]
  unfold vari
  simp only [select_apply, scal_apply, cmpf_apply, hostDivf_apply]
  rw [cnt_is, constant_apply, c0, Ideal.cmpf_def,
    show Ideal.cmp .ogt ((262144 : ℝ) : EReal) ((0 : ℝ) : EReal) = 1#1 by simp [Ideal.cmp],
    select_one, row_apply, csum_is hs, div_coe_coe _ _ (by norm_num)]
  simp only [var3, pow_two]

theorem rect_is (hy : Is4 y Y) (hg : Is1 g G) (hb : Is1 b B) :
    Is4 (rect y g b) (fun i n m c => lrelu slopeR (bnv epsR (G c) (B c) (mean3 Y c) (var3 Y c) (Y i n m c))) :=
  fun i n m c => by
  have hr : Host.rsqrt (addf (vari y) (scal (constant (F := Ideal) S_ .f32 0x3727C5AC#32))) (ix4 0 0 0 c)
      = Ideal.rsqrt (((var3 Y c : ℝ) : EReal) + ((epsR : ℝ) : EReal)) := by
    show Ideal.rsqrt (addf (vari y) _ _) = _
    rw [addf_apply, vari_is hy, scal_apply, constant_apply, eps_eq]
  have hn : normed y g b (ix4 i n m c) = ((bnv epsR (G c) (B c) (mean3 Y c) (var3 Y c) (Y i n m c) : ℝ) : EReal) := by
    unfold normed
    rw [addf_apply, mulf_apply, mulf_apply, full_apply, full_apply, full_apply, row_apply, row_apply, hr, dev_is hy,
      hg c, hb c, EReal.coe_sub]
    exact bnv_coe epsR _ _ _ _ _ (add_pos_of_nonneg_of_pos (var3_nonneg Y c) eps_pos)
  unfold rect
  rw [select_apply, cmpf_apply, mulf_apply, scalFull_apply, scalFull_apply, constant_apply, constant_apply, hn, c0,
    slope_eq, EReal.coe_zero, Ideal.cmpf_def]
  exact lrelu_coe slopeR _

end CV

theorem lift_centre (h : S2x2048x64x256.Reduces [2] S2x2048x256) (i : Fin 2) (n : Fin 2048) (c : Fin 256)
    (k : Fin (S2x2048x64x256.size 2)) : h.lift (ix3 i n c) k = ix4 i n (⟨k.val, k.isLt⟩ : Fin 64) c := by
  funext a; apply Fin.ext
  fin_cases a <;> rfl

-- The fold of the maximum from −∞ over the 64 centres is the coerced real maximum.
theorem max_is (x : FVec Ideal S2x2048x64x256 .f32) (X : Fin 2 → Fin 2048 → Fin 64 → Fin 256 → ℝ) (hx : Is4 x X) :
    Is3 (Host.reduce (FloatOps.maximumf (F := Ideal) (φ := .f32)) x (constant (F := Ideal) S_ .f32 0xFF800000#32)
        reducesTo_S2x2048x64x256_S2x2048x256_d2 h_S_)
      (fun i n c => Finset.univ.sup' Finset.univ_nonempty fun m : Fin 64 => X i n m c) := fun i n c => by
  have hred : S2x2048x64x256.Reduces [2] S2x2048x256 := by decide
  rw [Host.reduce_eq_fold_single (FloatOps.maximumf (F := Ideal) (φ := .f32)) x _ reducesTo_S2x2048x64x256_S2x2048x256_d2 hred h_S_]
  have hf : (x ∘ hred.lift (ix3 i n c)) = fun m : Fin 64 => ((X i n m c : ℝ) : EReal) :=
    funext fun k => (congrArg x (lift_centre hred i n c k)).trans (hx i n _ c)
  show Finset.fold max (Ideal.ofBits .f32 0xFF800000#32) (x ∘ hred.lift (ix3 i n c)) (Finset.univ : Finset (Fin 64)) = _
  rw [hf, cNegInf]
  exact fold_max_coe Finset.univ_nonempty fun m : Fin 64 => X i n m c

def RS2 (h : FVec Ideal S2x2048x64x128 .f32) (w2 : FVec Ideal S256x128 .f32) (g b : FVec Ideal S256 .f32) :
    FVec Ideal S2x2048x64x256 .f32 :=
  CV.rect (Host.dotGeneral dot_S2x2048x64x128_S256x128_S2x2048x64x256_3_1_012_0_n_n none h w2) g b

theorem RS2_is (I : Inp) (h : FVec Ideal S2x2048x64x128 .f32) (w2 : FVec Ideal S256x128 .f32) (g b : FVec Ideal S256 .f32)
    (hh : Is4 h (h1 epsR slopeR I)) (hw : Is2 w2 I.W2) (hg : Is1 g I.g2) (hb : Is1 b I.b2) :
    Is4 (RS2 h w2 g b) (h2 epsR slopeR I) :=
  CV.rect_is (CV.conv_is rfl hh hw) hg hb

def RS3 (h : FVec Ideal S2x2048x64x256 .f32) (w3 : FVec Ideal S256x256 .f32) (g b : FVec Ideal S256 .f32) :
    FVec Ideal S2x2048x256 .f32 :=
  Host.reduce (FloatOps.maximumf (F := Ideal) (φ := .f32))
    (CV.rect (Host.dotGeneral dot_S2x2048x64x256_S256x256_S2x2048x64x256_3_1_012_0_n_n none h w3) g b)
    (constant (F := Ideal) S_ .f32 0xFF800000#32) reducesTo_S2x2048x64x256_S2x2048x256_d2 h_S_

theorem RS3_is (I : Inp) (h : FVec Ideal S2x2048x64x256 .f32) (w3 : FVec Ideal S256x256 .f32) (g b : FVec Ideal S256 .f32)
    (hh : Is4 h (h2 epsR slopeR I)) (hw : Is2 w3 I.W3) (hg : Is1 g I.g3) (hb : Is1 b I.b3) :
    Is3 (RS3 h w3 g b) (hmax epsR slopeR I) :=
  max_is _ (h3 epsR slopeR I) (CV.rect_is (CV.conv_is rfl hh hw) hg hb)

end Cert.RRN

end
-- ==== Proof.RefS1.lean ====
import proofs.«428405_j30648886624750_3_alg».proof.Proof.RefS23

noncomputable section

namespace Cert.RRN

open Idealize.ShloMosaic Idealize.ShloMosaic.TcCoe Idealize.ShloMosaic.ValueIdx Cert.ReferenceIdeal Cert.ReferenceIdeal.Gen Cert.RN

namespace S1

instance : CV.Lay 128 := ⟨bcast_S128_S1x1x1x128_3, bcast_S1x1x1x128_S2x2048x64x128_0_1_2_3, bcast_S_S1x1x1x128,
  bcast_S_S2x2048x64x128, reducesTo_S2x2048x64x128_S128_d0_1_2⟩

def pre (x : FVec Ideal S2x2048x128 .f32) (ce : FVec Ideal S2x64x128 .f32) (w1 : FVec Ideal S128x256 .f32) :
    FVec Ideal S2x2048x64x128 .f32 :=
  addf
    (broadcastInDim S2x2048x64x128 ![0, 1, 2, 3] bcast_S2x2048x1x128_S2x2048x64x128_0_1_2_3
      (broadcastInDim S2x2048x1x128 ![0, 1, 3] bcast_S2x2048x128_S2x2048x1x128_0_1_3
        (Host.dotGeneral dot_S2x2048x128_S128x128_S2x2048x128_2_1_01_0_n_n none x
          (extractStridedSlice S128x128 ![0, 0] w1 slices_S128x256_S128x128_0_0))))
    (broadcastInDim S2x2048x64x128 ![0, 1, 2, 3] bcast_S2x1x64x128_S2x2048x64x128_0_1_2_3
      (broadcastInDim S2x1x64x128 ![0, 2, 3] bcast_S2x64x128_S2x1x64x128_0_2_3
        (Host.dotGeneral dot_S2x64x128_S128x128_S2x64x128_2_1_01_0_n_n none ce
          (extractStridedSlice S128x128 ![0, 128] w1 slices_S128x256_S128x128_0_128))))

-- The product of an array of reals with the 128 columns of W from column s on.
theorem proj_is {R s : Nat} (d : DotDims ⟨3, ![2, R, 128]⟩ S128x128 ⟨3, ![2, R, 128]⟩) {wf}
    (hd : d = ⟨[2], [1], [0, 1], [0], [], [], wf⟩) {x : FVec Ideal ⟨3, ![2, R, 128]⟩ .f32}
    {X : Fin 2 → Fin R → Fin 128 → ℝ} (hx : Is3 x X) {w1 : FVec Ideal S128x256 .f32} {W : Fin 128 → Fin 256 → ℝ}
    (hw : Is2 w1 W) (hs : S128x256.Slices ![0, s] S128x128) (h256 : s + 128 ≤ 256) :
    Is3 (Host.dotGeneral d none x (extractStridedSlice S128x128 ![0, s] w1 hs))
      (fun p r o => ∑ k : Fin 128, X p r k * W o ⟨k.val + s, by omega⟩) := fun p r o => by
  rw [dot3_apply hd, ← coe_sum]
  refine Finset.sum_congr rfl fun k _ => ?_
  rw [hx p r k, EReal.coe_mul, ← hw o _]
  exact congrArg _ (extractStridedSlice_apply _ w1 hs (ix2 o k) (ix2 o ⟨k.val + s, by omega⟩) fun a => by
    match a with
    | ⟨0, _⟩ => exact (Nat.zero_add _).symm
    | ⟨1, _⟩ => exact Nat.add_comm _ _)

theorem pre_is {I : Inp} {x : FVec Ideal S2x2048x128 .f32} {ce : FVec Ideal S2x64x128 .f32}
    {w1 : FVec Ideal S128x256 .f32} (hx : Is3 x I.x) (hce : Is3 ce I.ce) (hw : Is2 w1 I.W1) :
    Is4 (pre x ce w1) (h0 I) := fun p n m c => by
  unfold pre
  rw [addf_apply,
    broadcastInDim_apply _ _ _ (ix4 p n m c) (ix4 p n (0 : Fin 1) c) (fun a => by
      match a with | ⟨0, _⟩ => rfl | ⟨1, _⟩ => rfl | ⟨2, _⟩ => rfl | ⟨3, _⟩ => rfl),
    broadcastInDim_apply _ _ _ (ix4 p n (0 : Fin 1) c) (ix3 p n c) (fun a => by
      match a with | ⟨0, _⟩ => rfl | ⟨1, _⟩ => rfl | ⟨2, _⟩ => rfl),
    broadcastInDim_apply _ _ _ (ix4 p n m c) (ix4 p (0 : Fin 1) m c) (fun a => by
      match a with | ⟨0, _⟩ => rfl | ⟨1, _⟩ => rfl | ⟨2, _⟩ => rfl | ⟨3, _⟩ => rfl),
    broadcastInDim_apply _ _ _ (ix4 p (0 : Fin 1) m c) (ix3 p m c) (fun a => by
      match a with | ⟨0, _⟩ => rfl | ⟨1, _⟩ => rfl | ⟨2, _⟩ => rfl),
    proj_is dot_S2x2048x128_S128x128_S2x2048x128_2_1_01_0_n_n rfl hx hw _ (by omega) p n c,
    proj_is dot_S2x64x128_S128x128_S2x64x128_2_1_01_0_n_n rfl hce hw _ (by omega) p m c, ← EReal.coe_add]
  rfl

end S1

def RS1 (x : FVec Ideal S2x2048x128 .f32) (ce : FVec Ideal S2x64x128 .f32) (w1 : FVec Ideal S128x256 .f32)
    (g b : FVec Ideal S128 .f32) : FVec Ideal S2x2048x64x128 .f32 :=
  CV.rect (S1.pre x ce w1) g b

theorem RS1_is (I : Inp) (x : FVec Ideal S2x2048x128 .f32) (ce : FVec Ideal S2x64x128 .f32) (w1 : FVec Ideal S128x256 .f32)
    (g b : FVec Ideal S128 .f32)
    (hx : Is3 x I.x) (hce : Is3 ce I.ce) (hw : Is2 w1 I.W1) (hg : Is1 g I.g1) (hb : Is1 b I.b1) :
    Is4 (RS1 x ce w1 g b) (h1 epsR slopeR I) :=
  CV.rect_is (S1.pre_is hx hce hw) hg hb

end Cert.RRN

end
-- ==== Proof.RefRun.lean ====
import proofs.«428405_j30648886624750_3_alg».proof.ReferenceIdeal
import proofs.«428405_j30648886624750_3_alg».proof.Proof.Gen.ReferenceIdeal
import proofs.«428405_j30648886624750_3_alg».proof.Proof.RefS1
import proofs.«428405_j30648886624750_3_alg».proof.Proof.RefS23
import proofs.«428405_j30648886624750_3_alg».proof.Proof.RefS45
import Idealize.ShloMosaic.Lib.StableHlo.Run

noncomputable section

namespace Cert.RRN

open Cert.ReferenceIdeal Cert.ReferenceIdeal.Gen Idealize.ShloMosaic Idealize.ShloMosaic.TcCoe Idealize.SL.Sem Idealize.ShloMosaic.StableHlo

variable {F : FTy → Type} [FloatOps F]

abbrev opsL1 : List (HloOp τ sig (Elt F)) :=
  [ StableHlo.unary main_arg2 main_v0 ((extractStridedSlice S128x128 ![0, 0] · slices_S128x256_S128x128_0_0) : (⟨S128x256, .f32⟩ : BufTy).Contents (Elt F) → (⟨S128x128, .f32⟩ : BufTy).Contents (Elt F)),
    StableHlo.unary main_arg2 main_v1 ((extractStridedSlice S128x128 ![0, 128] · slices_S128x256_S128x128_0_128) : (⟨S128x256, .f32⟩ : BufTy).Contents (Elt F) → (⟨S128x128, .f32⟩ : BufTy).Contents (Elt F)),
    StableHlo.binary main_arg0 main_v0 main_v2 ((fun l r => Host.dotGeneral dot_S2x2048x128_S128x128_S2x2048x128_2_1_01_0_n_n none l r) : (⟨S2x2048x128, .f32⟩ : BufTy).Contents (Elt F) → (⟨S128x128, .f32⟩ : BufTy).Contents (Elt F) → (⟨S2x2048x128, .f32⟩ : BufTy).Contents (Elt F)),
    StableHlo.unary main_v2 main_v3 (broadcastInDim S2x2048x1x128 ![0, 1, 3] bcast_S2x2048x128_S2x2048x1x128_0_1_3 : (⟨S2x2048x128, .f32⟩ : BufTy).Contents (Elt F) → (⟨S2x2048x1x128, .f32⟩ : BufTy).Contents (Elt F)),
    StableHlo.binary main_arg1 main_v1 main_v4 ((fun l r => Host.dotGeneral dot_S2x64x128_S128x128_S2x64x128_2_1_01_0_n_n none l r) : (⟨S2x64x128, .f32⟩ : BufTy).Contents (Elt F) → (⟨S128x128, .f32⟩ : BufTy).Contents (Elt F) → (⟨S2x64x128, .f32⟩ : BufTy).Contents (Elt F)),
    StableHlo.unary main_v4 main_v5 (broadcastInDim S2x1x64x128 ![0, 2, 3] bcast_S2x64x128_S2x1x64x128_0_2_3 : (⟨S2x64x128, .f32⟩ : BufTy).Contents (Elt F) → (⟨S2x1x64x128, .f32⟩ : BufTy).Contents (Elt F)),
    StableHlo.unary main_v3 main_v6 (broadcastInDim S2x2048x64x128 ![0, 1, 2, 3] bcast_S2x2048x1x128_S2x2048x64x128_0_1_2_3 : (⟨S2x2048x1x128, .f32⟩ : BufTy).Contents (Elt F) → (⟨S2x2048x64x128, .f32⟩ : BufTy).Contents (Elt F)),
    StableHlo.unary main_v5 main_v7 (broadcastInDim S2x2048x64x128 ![0, 1, 2, 3] bcast_S2x1x64x128_S2x2048x64x128_0_1_2_3 : (⟨S2x1x64x128, .f32⟩ : BufTy).Contents (Elt F) → (⟨S2x2048x64x128, .f32⟩ : BufTy).Contents (Elt F)),
    StableHlo.binary main_v6 main_v7 main_v8 (addf : (⟨S2x2048x64x128, .f32⟩ : BufTy).Contents (Elt F) → (⟨S2x2048x64x128, .f32⟩ : BufTy).Contents (Elt F) → (⟨S2x2048x64x128, .f32⟩ : BufTy).Contents (Elt F)),
    StableHlo.nullary main_cst (constant S_ .f32 0x00000000#32),
    StableHlo.binary main_v8 main_cst main_v9 ((fun x v => Host.reduceAdd x v reducesTo_S2x2048x64x128_S128_d0_1_2 h_S_) : (⟨S2x2048x64x128, .f32⟩ : BufTy).Contents (Elt F) → (⟨S_, .f32⟩ : BufTy).Contents (Elt F) → (⟨S128, .f32⟩ : BufTy).Contents (Elt F)),
    StableHlo.unary main_v9 main_v10 (broadcastInDim S1x1x1x128 ![3] bcast_S128_S1x1x1x128_3 : (⟨S128, .f32⟩ : BufTy).Contents (Elt F) → (⟨S1x1x1x128, .f32⟩ : BufTy).Contents (Elt F)),
    StableHlo.nullary main_cst_0 (constant S_ .f32 0x48800000#32),
    StableHlo.unary main_cst_0 main_v11 (broadcastInDim S1x1x1x128 ![] bcast_S_S1x1x1x128 : (⟨S_, .f32⟩ : BufTy).Contents (Elt F) → (⟨S1x1x1x128, .f32⟩ : BufTy).Contents (Elt F)),
    StableHlo.binary main_v10 main_v11 main_v12 (Host.divf : (⟨S1x1x1x128, .f32⟩ : BufTy).Contents (Elt F) → (⟨S1x1x1x128, .f32⟩ : BufTy).Contents (Elt F) → (⟨S1x1x1x128, .f32⟩ : BufTy).Contents (Elt F)),
    StableHlo.nullary main_c (constantI S_ 32 0#32),
    StableHlo.TRef.nullary main_call0.cst (constant S_ .f32 0x00000000#32),
    StableHlo.TRef.binary (.of main_v8 : StableHlo.TRef sig ⟨S2x2048x64x128, .f32⟩) main_call0.cst main_call0.v0 (fun x v => Host.reduceAdd x v reducesTo_S2x2048x64x128_S128_d0_1_2 h_S_),
    StableHlo.TRef.unary main_call0.v0 main_call0.v1 (broadcastInDim S1x1x1x128 ![3] bcast_S128_S1x1x1x128_3),
    StableHlo.TRef.nullary main_call0.cst_0 (constant S_ .f32 0x48800000#32),
    StableHlo.TRef.unary main_call0.cst_0 main_call0.v2 (broadcastInDim S1x1x1x128 ![] bcast_S_S1x1x1x128),
    StableHlo.TRef.binary main_call0.v1 main_call0.v2 main_call0.v3 Host.divf,
    StableHlo.TRef.unary main_call0.v3 main_call0.v4 (broadcastInDim S2x2048x64x128 ![0, 1, 2, 3] bcast_S1x1x1x128_S2x2048x64x128_0_1_2_3),
    StableHlo.TRef.binary (.of main_v8 : StableHlo.TRef sig ⟨S2x2048x64x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x2048x64x128_S128_d0_1_2 h_S_),
    StableHlo.TRef.unary main_call0.v9 main_call0.v10 (broadcastInDim S1x1x1x128 ![3] bcast_S128_S1x1x1x128_3),
    StableHlo.TRef.unary main_call0.v8 main_call0.v11 (broadcastInDim S1x1x1x128 ![] bcast_S_S1x1x1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x1x1x128 ![] bcast_S_S1x1x1x128),
    StableHlo.TRef.ternary main_call0.v13 main_call0.v12 main_call0.call0.v1 main_call0.call0.v2 (fun p a b => select (broadcastInDim S1x1x1x128 ![] bcast_S_S1x1x1x128 p) a b),
    StableHlo.unary main_v12 main_v14 (broadcastInDim S2x2048x64x128 ![0, 1, 2, 3] bcast_S1x1x1x128_S2x2048x64x128_0_1_2_3 : (⟨S1x1x1x128, .f32⟩ : BufTy).Contents (Elt F) → (⟨S2x2048x64x128, .f32⟩ : BufTy).Contents (Elt F)),
    StableHlo.binary main_v8 main_v14 main_v15 (subf : (⟨S2x2048x64x128, .f32⟩ : BufTy).Contents (Elt F) → (⟨S2x2048x64x128, .f32⟩ : BufTy).Contents (Elt F) → (⟨S2x2048x64x128, .f32⟩ : BufTy).Contents (Elt F)),
    StableHlo.unary main_arg3 main_v16 (broadcastInDim S1x1x1x128 ![3] bcast_S128_S1x1x1x128_3 : (⟨S128, .f32⟩ : BufTy).Contents (Elt F) → (⟨S1x1x1x128, .f32⟩ : BufTy).Contents (Elt F)),
    StableHlo.unary main_v16 main_v17 (broadcastInDim S2x2048x64x128 ![0, 1, 2, 3] bcast_S1x1x1x128_S2x2048x64x128_0_1_2_3 : (⟨S1x1x1x128, .f32⟩ : BufTy).Contents (Elt F) → (⟨S2x2048x64x128, .f32⟩ : BufTy).Contents (Elt F)),
    StableHlo.binary main_v17 main_v15 main_v18 (mulf : (⟨S2x2048x64x128, .f32⟩ : BufTy).Contents (Elt F) → (⟨S2x2048x64x128, .f32⟩ : BufTy).Contents (Elt F) → (⟨S2x2048x64x128, .f32⟩ : BufTy).Contents (Elt F)),
    StableHlo.nullary main_cst_1 (constant S_ .f32 0x3727C5AC#32),
    StableHlo.unary main_cst_1 main_v19 (broadcastInDim S1x1x1x128 ![] bcast_S_S1x1x1x128 : (⟨S_, .f32⟩ : BufTy).Contents (Elt F) → (⟨S1x1x1x128, .f32⟩ : BufTy).Contents (Elt F)),
    StableHlo.binary main_v13 main_v19 main_v20 (addf : (⟨S1x1x1x128, .f32⟩ : BufTy).Contents (Elt F) → (⟨S1x1x1x128, .f32⟩ : BufTy).Contents (Elt F) → (⟨S1x1x1x128, .f32⟩ : BufTy).Contents (Elt F)),
    StableHlo.unary main_v20 main_v21 (Host.rsqrt : (⟨S1x1x1x128, .f32⟩ : BufTy).Contents (Elt F) → (⟨S1x1x1x128, .f32⟩ : BufTy).Contents (Elt F)),
    StableHlo.unary main_v21 main_v22 (broadcastInDim S2x2048x64x128 ![0, 1, 2, 3] bcast_S1x1x1x128_S2x2048x64x128_0_1_2_3 : (⟨S1x1x1x128, .f32⟩ : BufTy).Contents (Elt F) → (⟨S2x2048x64x128, .f32⟩ : BufTy).Contents (Elt F)),
    StableHlo.binary main_v18 main_v22 main_v23 (mulf : (⟨S2x2048x64x128, .f32⟩ : BufTy).Contents (Elt F) → (⟨S2x2048x64x128, .f32⟩ : BufTy).Contents (Elt F) → (⟨S2x2048x64x128, .f32⟩ : BufTy).Contents (Elt F)),
    StableHlo.unary main_arg4 main_v24 (broadcastInDim S1x1x1x128 ![3] bcast_S128_S1x1x1x128_3 : (⟨S128, .f32⟩ : BufTy).Contents (Elt F) → (⟨S1x1x1x128, .f32⟩ : BufTy).Contents (Elt F)),
    StableHlo.unary main_v24 main_v25 (broadcastInDim S2x2048x64x128 ![0, 1, 2, 3] bcast_S1x1x1x128_S2x2048x64x128_0_1_2_3 : (⟨S1x1x1x128, .f32⟩ : BufTy).Contents (Elt F) → (⟨S2x2048x64x128, .f32⟩ : BufTy).Contents (Elt F)),
    StableHlo.binary main_v23 main_v25 main_v26 (addf : (⟨S2x2048x64x128, .f32⟩ : BufTy).Contents (Elt F) → (⟨S2x2048x64x128, .f32⟩ : BufTy).Contents (Elt F) → (⟨S2x2048x64x128, .f32⟩ : BufTy).Contents (Elt F)),
    StableHlo.nullary main_cst_2 (constant S_ .f32 0x00000000#32),
    StableHlo.unary main_cst_2 main_v27 (broadcastInDim S2x2048x64x128 ![] bcast_S_S2x2048x64x128 : (⟨S_, .f32⟩ : BufTy).Contents (Elt F) → (⟨S2x2048x64x128, .f32⟩ : BufTy).Contents (Elt F)),
    StableHlo.binary main_v26 main_v27 main_v28 (cmpf .oge : (⟨S2x2048x64x128, .f32⟩ : BufTy).Contents (Elt F) → (⟨S2x2048x64x128, .f32⟩ : BufTy).Contents (Elt F) → (⟨S2x2048x64x128, .i1⟩ : BufTy).Contents (Elt F)),
    StableHlo.nullary main_cst_3 (constant S_ .f32 0x3E4CCCCD#32),
    StableHlo.unary main_cst_3 main_v29 (broadcastInDim S2x2048x64x128 ![] bcast_S_S2x2048x64x128 : (⟨S_, .f32⟩ : BufTy).Contents (Elt F) → (⟨S2x2048x64x128, .f32⟩ : BufTy).Contents (Elt F)),
    StableHlo.binary main_v29 main_v26 main_v30 (mulf : (⟨S2x2048x64x128, .f32⟩ : BufTy).Contents (Elt F) → (⟨S2x2048x64x128, .f32⟩ : BufTy).Contents (Elt F) → (⟨S2x2048x64x128, .f32⟩ : BufTy).Contents (Elt F)),
    StableHlo.TRef.ternary (.of main_v28 : StableHlo.TRef sig ⟨S2x2048x64x128, .i1⟩) (.of main_v26 : StableHlo.TRef sig ⟨S2x2048x64x128, .f32⟩) (.of main_v30 : StableHlo.TRef sig ⟨S2x2048x64x128, .f32⟩) main_call1.v0 select ]

abbrev opsL2a : List (HloOp τ sig (Elt F)) :=
  [ StableHlo.binary main_v31 main_arg5 main_v32 ((fun l r => Host.dotGeneral dot_S2x2048x64x128_S256x128_S2x2048x64x256_3_1_012_0_n_n none l r) : (⟨S2x2048x64x128, .f32⟩ : BufTy).Contents (Elt F) → (⟨S256x128, .f32⟩ : BufTy).Contents (Elt F) → (⟨S2x2048x64x256, .f32⟩ : BufTy).Contents (Elt F)),
    StableHlo.nullary main_cst_4 (constant S_ .f32 0x00000000#32),
    StableHlo.binary main_v32 main_cst_4 main_v33 ((fun x v => Host.reduceAdd x v reducesTo_S2x2048x64x256_S256_d0_1_2 h_S_) : (⟨S2x2048x64x256, .f32⟩ : BufTy).Contents (Elt F) → (⟨S_, .f32⟩ : BufTy).Contents (Elt F) → (⟨S256, .f32⟩ : BufTy).Contents (Elt F)),
    StableHlo.unary main_v33 main_v34 (broadcastInDim S1x1x1x256 ![3] bcast_S256_S1x1x1x256_3 : (⟨S256, .f32⟩ : BufTy).Contents (Elt F) → (⟨S1x1x1x256, .f32⟩ : BufTy).Contents (Elt F)),
    StableHlo.nullary main_cst_5 (constant S_ .f32 0x48800000#32),
    StableHlo.unary main_cst_5 main_v35 (broadcastInDim S1x1x1x256 ![] bcast_S_S1x1x1x256 : (⟨S_, .f32⟩ : BufTy).Contents (Elt F) → (⟨S1x1x1x256, .f32⟩ : BufTy).Contents (Elt F)),
    StableHlo.binary main_v34 main_v35 main_v36 (Host.divf : (⟨S1x1x1x256, .f32⟩ : BufTy).Contents (Elt F) → (⟨S1x1x1x256, .f32⟩ : BufTy).Contents (Elt F) → (⟨S1x1x1x256, .f32⟩ : BufTy).Contents (Elt F)),
    StableHlo.nullary main_c_6 (constantI S_ 32 0#32),
    StableHlo.TRef.nullary main_call2.cst (constant S_ .f32 0x00000000#32),
    StableHlo.TRef.binary (.of main_v32 : StableHlo.TRef sig ⟨S2x2048x64x256, .f32⟩) main_call2.cst main_call2.v0 (fun x v => Host.reduceAdd x v reducesTo_S2x2048x64x256_S256_d0_1_2 h_S_),
    StableHlo.TRef.unary main_call2.v0 main_call2.v1 (broadcastInDim S1x1x1x256 ![3] bcast_S256_S1x1x1x256_3),
    StableHlo.TRef.nullary main_call2.cst_0 (constant S_ .f32 0x48800000#32),
    StableHlo.TRef.unary main_call2.cst_0 main_call2.v2 (broadcastInDim S1x1x1x256 ![] bcast_S_S1x1x1x256),
    StableHlo.TRef.binary main_call2.v1 main_call2.v2 main_call2.v3 Host.divf,
    StableHlo.TRef.unary main_call2.v3 main_call2.v4 (broadcastInDim S2x2048x64x256 ![0, 1, 2, 3] bcast_S1x1x1x256_S2x2048x64x256_0_1_2_3),
    StableHlo.TRef.binary (.of main_v32 : StableHlo.TRef sig ⟨S2x2048x64x256, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x48800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2x2048x64x256_S256_d0_1_2 h_S_),
    StableHlo.TRef.unary main_call2.v9 main_call2.v10 (broadcastInDim S1x1x1x256 ![3] bcast_S256_S1x1x1x256_3),
    StableHlo.TRef.unary main_call2.v8 main_call2.v11 (broadcastInDim S1x1x1x256 ![] bcast_S_S1x1x1x256),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x1x1x256 ![] bcast_S_S1x1x1x256),
    StableHlo.TRef.ternary main_call2.v13 main_call2.v12 main_call2.call0.v1 main_call2.call0.v2 (fun p a b => select (broadcastInDim S1x1x1x256 ![] bcast_S_S1x1x1x256 p) a b),
    StableHlo.unary main_v36 main_v38 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v32 main_v38 main_v39 (subf : (⟨S2x2048x64x256, .f32⟩ : BufTy).Contents (Elt F) → (⟨S2x2048x64x256, .f32⟩ : BufTy).Contents (Elt F) → (⟨S2x2048x64x256, .f32⟩ : BufTy).Contents (Elt F)),
    StableHlo.unary main_arg6 main_v40 (broadcastInDim S1x1x1x256 ![3] bcast_S256_S1x1x1x256_3 : (⟨S256, .f32⟩ : BufTy).Contents (Elt F) → (⟨S1x1x1x256, .f32⟩ : BufTy).Contents (Elt F)),
    StableHlo.unary main_v40 main_v41 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v41 main_v39 main_v42 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.nullary main_cst_7 (constant S_ .f32 0x3727C5AC#32),
    StableHlo.unary main_cst_7 main_v43 (broadcastInDim S1x1x1x256 ![] bcast_S_S1x1x1x256 : (⟨S_, .f32⟩ : BufTy).Contents (Elt F) → (⟨S1x1x1x256, .f32⟩ : BufTy).Contents (Elt F)),
    StableHlo.binary main_v37 main_v43 main_v44 (addf : (⟨S1x1x1x256, .f32⟩ : BufTy).Contents (Elt F) → (⟨S1x1x1x256, .f32⟩ : BufTy).Contents (Elt F) → (⟨S1x1x1x256, .f32⟩ : BufTy).Contents (Elt F)),
    StableHlo.unary main_v44 main_v45 (Host.rsqrt : (⟨S1x1x1x256, .f32⟩ : BufTy).Contents (Elt F) → (⟨S1x1x1x256, .f32⟩ : BufTy).Contents (Elt F)),
    StableHlo.unary main_v45 main_v46 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v42 main_v46 main_v47 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.unary main_arg7 main_v48 (broadcastInDim S1x1x1x256 ![3] bcast_S256_S1x1x1x256_3 : (⟨S256, .f32⟩ : BufTy).Contents (Elt F) → (⟨S1x1x1x256, .f32⟩ : BufTy).Contents (Elt F)),
    StableHlo.unary main_v48 main_v49 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)) ]

abbrev opsL2b : List (HloOp τ sig (Elt F)) :=
  [ StableHlo.binary main_v47 main_v49 main_v50 (addf : (⟨S2x2048x64x256, .f32⟩ : BufTy).Contents (Elt F) → (⟨S2x2048x64x256, .f32⟩ : BufTy).Contents (Elt F) → (⟨S2x2048x64x256, .f32⟩ : BufTy).Contents (Elt F)),
    StableHlo.nullary main_cst_8 (constant S_ .f32 0x00000000#32),
    StableHlo.unary main_cst_8 main_v51 (broadcastInDim S2x2048x64x256 ![] bcast_S_S2x2048x64x256 : (⟨S_, .f32⟩ : BufTy).Contents (Elt F) → (⟨S2x2048x64x256, .f32⟩ : BufTy).Contents (Elt F)),
    StableHlo.binary main_v50 main_v51 main_v52 (cmpf .oge : (⟨S2x2048x64x256, .f32⟩ : BufTy).Contents (Elt F) → (⟨S2x2048x64x256, .f32⟩ : BufTy).Contents (Elt F) → (⟨S2x2048x64x256, .i1⟩ : BufTy).Contents (Elt F)),
    StableHlo.nullary main_cst_9 (constant S_ .f32 0x3E4CCCCD#32),
    StableHlo.unary main_cst_9 main_v53 (broadcastInDim S2x2048x64x256 ![] bcast_S_S2x2048x64x256 : (⟨S_, .f32⟩ : BufTy).Contents (Elt F) → (⟨S2x2048x64x256, .f32⟩ : BufTy).Contents (Elt F)),
    StableHlo.binary main_v53 main_v50 main_v54 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.TRef.ternary (.of main_v52 : StableHlo.TRef sig ⟨S2x2048x64x256, .i1⟩) (.of main_v50 : StableHlo.TRef sig ⟨S2x2048x64x256, .f32⟩) (.of main_v54 : StableHlo.TRef sig ⟨S2x2048x64x256, .f32⟩) main_call3.v0 select ]

abbrev opsL3 : List (HloOp τ sig (Elt F)) :=
  [ StableHlo.binary main_v55 main_arg8 main_v56 ((fun l r => Host.dotGeneral dot_S2x2048x64x256_S256x256_S2x2048x64x256_3_1_012_0_n_n none l r) : (⟨S2x2048x64x256, .f32⟩ : BufTy).Contents (Elt F) → (⟨S256x256, .f32⟩ : BufTy).Contents (Elt F) → (⟨S2x2048x64x256, .f32⟩ : BufTy).Contents (Elt F)),
    StableHlo.nullary main_cst_10 (constant S_ .f32 0x00000000#32),
    StableHlo.binary main_v56 main_cst_10 main_v57 ((fun x v => Host.reduceAdd x v reducesTo_S2x2048x64x256_S256_d0_1_2 h_S_) : (⟨S2x2048x64x256, .f32⟩ : BufTy).Contents (Elt F) → (⟨S_, .f32⟩ : BufTy).Contents (Elt F) → (⟨S256, .f32⟩ : BufTy).Contents (Elt F)),
    StableHlo.unary main_v57 main_v58 (broadcastInDim S1x1x1x256 ![3] bcast_S256_S1x1x1x256_3 : (⟨S256, .f32⟩ : BufTy).Contents (Elt F) → (⟨S1x1x1x256, .f32⟩ : BufTy).Contents (Elt F)),
    StableHlo.nullary main_cst_11 (constant S_ .f32 0x48800000#32),
    StableHlo.unary main_cst_11 main_v59 (broadcastInDim S1x1x1x256 ![] bcast_S_S1x1x1x256 : (⟨S_, .f32⟩ : BufTy).Contents (Elt F) → (⟨S1x1x1x256, .f32⟩ : BufTy).Contents (Elt F)),
    StableHlo.binary main_v58 main_v59 main_v60 (Host.divf : (⟨S1x1x1x256, .f32⟩ : BufTy).Contents (Elt F) → (⟨S1x1x1x256, .f32⟩ : BufTy).Contents (Elt F) → (⟨S1x1x1x256, .f32⟩ : BufTy).Contents (Elt F)),
    StableHlo.nullary main_c_12 (constantI S_ 32 0#32),
    StableHlo.TRef.nullary main_call4.cst (constant S_ .f32 0x00000000#32),
    StableHlo.TRef.binary (.of main_v56 : StableHlo.TRef sig ⟨S2x2048x64x256, .f32⟩) main_call4.cst main_call4.v0 (fun x v => Host.reduceAdd x v reducesTo_S2x2048x64x256_S256_d0_1_2 h_S_),
    StableHlo.TRef.unary main_call4.v0 main_call4.v1 (broadcastInDim S1x1x1x256 ![3] bcast_S256_S1x1x1x256_3),
    StableHlo.TRef.nullary main_call4.cst_0 (constant S_ .f32 0x48800000#32),
    StableHlo.TRef.unary main_call4.cst_0 main_call4.v2 (broadcastInDim S1x1x1x256 ![] bcast_S_S1x1x1x256),
    StableHlo.TRef.binary main_call4.v1 main_call4.v2 main_call4.v3 Host.divf,
    StableHlo.TRef.unary main_call4.v3 main_call4.v4 (broadcastInDim S2x2048x64x256 ![0, 1, 2, 3] bcast_S1x1x1x256_S2x2048x64x256_0_1_2_3),
    StableHlo.TRef.binary (.of main_v56 : StableHlo.TRef sig ⟨S2x2048x64x256, .f32⟩) main_call4.v4 main_call4.v5 subf,
    StableHlo.TRef.binary main_call4.v5 main_call4.v5 main_call4.v6 mulf,
    StableHlo.TRef.unary (.of main_c_12 : StableHlo.TRef sig ⟨S_, .i32⟩) main_call4.v7 (sitofp .f32),
    StableHlo.TRef.nullary main_call4.cst_1 (constant S_ .f32 0x48800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S2x2048x64x256_S256_d0_1_2 h_S_),
    StableHlo.TRef.unary main_call4.v9 main_call4.v10 (broadcastInDim S1x1x1x256 ![3] bcast_S256_S1x1x1x256_3),
    StableHlo.TRef.unary main_call4.v8 main_call4.v11 (broadcastInDim S1x1x1x256 ![] bcast_S_S1x1x1x256),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x1x1x256 ![] bcast_S_S1x1x1x256),
    StableHlo.TRef.ternary main_call4.v13 main_call4.v12 main_call4.call0.v1 main_call4.call0.v2 (fun p a b => select (broadcastInDim S1x1x1x256 ![] bcast_S_S1x1x1x256 p) a b),
    StableHlo.unary main_v60 main_v62 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v56 main_v62 main_v63 (subf : (⟨S2x2048x64x256, .f32⟩ : BufTy).Contents (Elt F) → (⟨S2x2048x64x256, .f32⟩ : BufTy).Contents (Elt F) → (⟨S2x2048x64x256, .f32⟩ : BufTy).Contents (Elt F)),
    StableHlo.unary main_arg9 main_v64 (broadcastInDim S1x1x1x256 ![3] bcast_S256_S1x1x1x256_3 : (⟨S256, .f32⟩ : BufTy).Contents (Elt F) → (⟨S1x1x1x256, .f32⟩ : BufTy).Contents (Elt F)),
    StableHlo.unary main_v64 main_v65 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v65 main_v63 main_v66 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.nullary main_cst_13 (constant S_ .f32 0x3727C5AC#32),
    StableHlo.unary main_cst_13 main_v67 (broadcastInDim S1x1x1x256 ![] bcast_S_S1x1x1x256 : (⟨S_, .f32⟩ : BufTy).Contents (Elt F) → (⟨S1x1x1x256, .f32⟩ : BufTy).Contents (Elt F)),
    StableHlo.binary main_v61 main_v67 main_v68 (addf : (⟨S1x1x1x256, .f32⟩ : BufTy).Contents (Elt F) → (⟨S1x1x1x256, .f32⟩ : BufTy).Contents (Elt F) → (⟨S1x1x1x256, .f32⟩ : BufTy).Contents (Elt F)),
    StableHlo.unary main_v68 main_v69 (Host.rsqrt : (⟨S1x1x1x256, .f32⟩ : BufTy).Contents (Elt F) → (⟨S1x1x1x256, .f32⟩ : BufTy).Contents (Elt F)),
    StableHlo.unary main_v69 main_v70 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v66 main_v70 main_v71 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.unary main_arg10 main_v72 (broadcastInDim S1x1x1x256 ![3] bcast_S256_S1x1x1x256_3 : (⟨S256, .f32⟩ : BufTy).Contents (Elt F) → (⟨S1x1x1x256, .f32⟩ : BufTy).Contents (Elt F)),
    StableHlo.unary main_v72 main_v73 (broadcastInDim S2x2048x64x256 ![0, 1, 2, 3] bcast_S1x1x1x256_S2x2048x64x256_0_1_2_3 : (⟨S1x1x1x256, .f32⟩ : BufTy).Contents (Elt F) → (⟨S2x2048x64x256, .f32⟩ : BufTy).Contents (Elt F)),
    StableHlo.binary main_v71 main_v73 main_v74 (addf : (⟨S2x2048x64x256, .f32⟩ : BufTy).Contents (Elt F) → (⟨S2x2048x64x256, .f32⟩ : BufTy).Contents (Elt F) → (⟨S2x2048x64x256, .f32⟩ : BufTy).Contents (Elt F)),
    StableHlo.nullary main_cst_14 (constant S_ .f32 0x00000000#32),
    StableHlo.unary main_cst_14 main_v75 (broadcastInDim S2x2048x64x256 ![] bcast_S_S2x2048x64x256 : (⟨S_, .f32⟩ : BufTy).Contents (Elt F) → (⟨S2x2048x64x256, .f32⟩ : BufTy).Contents (Elt F)),
    StableHlo.binary main_v74 main_v75 main_v76 (cmpf .oge : (⟨S2x2048x64x256, .f32⟩ : BufTy).Contents (Elt F) → (⟨S2x2048x64x256, .f32⟩ : BufTy).Contents (Elt F) → (⟨S2x2048x64x256, .i1⟩ : BufTy).Contents (Elt F)),
    StableHlo.nullary main_cst_15 (constant S_ .f32 0x3E4CCCCD#32),
    StableHlo.unary main_cst_15 main_v77 (broadcastInDim S2x2048x64x256 ![] bcast_S_S2x2048x64x256 : (⟨S_, .f32⟩ : BufTy).Contents (Elt F) → (⟨S2x2048x64x256, .f32⟩ : BufTy).Contents (Elt F)),
    StableHlo.binary main_v77 main_v74 main_v78 (mulf : (⟨S2x2048x64x256, .f32⟩ : BufTy).Contents (Elt F) → (⟨S2x2048x64x256, .f32⟩ : BufTy).Contents (Elt F) → (⟨S2x2048x64x256, .f32⟩ : BufTy).Contents (Elt F)),
    StableHlo.TRef.ternary (.of main_v76 : StableHlo.TRef sig ⟨S2x2048x64x256, .i1⟩) (.of main_v74 : StableHlo.TRef sig ⟨S2x2048x64x256, .f32⟩) (.of main_v78 : StableHlo.TRef sig ⟨S2x2048x64x256, .f32⟩) main_call5.v0 select,
    StableHlo.nullary main_cst_16 (constant S_ .f32 0xFF800000#32),
    StableHlo.binary main_v79 main_cst_16 main_v80 ((fun x v => Host.reduce FloatOps.maximumf x v reducesTo_S2x2048x64x256_S2x2048x256_d2 h_S_) : (⟨S2x2048x64x256, .f32⟩ : BufTy).Contents (Elt F) → (⟨S_, .f32⟩ : BufTy).Contents (Elt F) → (⟨S2x2048x256, .f32⟩ : BufTy).Contents (Elt F)) ]

abbrev opsL4a : List (HloOp τ sig (Elt F)) :=
  [ StableHlo.binary main_v80 main_arg11 main_v81 ((fun l r => Host.dotGeneral dot_S2x2048x256_S128x256_S2x2048x128_2_1_01_0_n_n none l r) : (⟨S2x2048x256, .f32⟩ : BufTy).Contents (Elt F) → (⟨S128x256, .f32⟩ : BufTy).Contents (Elt F) → (⟨S2x2048x128, .f32⟩ : BufTy).Contents (Elt F)),
    StableHlo.unary main_arg12 main_v82 (broadcastInDim S1x1x128 ![2] bcast_S128_S1x1x128_2 : (⟨S128, .f32⟩ : BufTy).Contents (Elt F) → (⟨S1x1x128, .f32⟩ : BufTy).Contents (Elt F)),
    StableHlo.unary main_v82 main_v83 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v81 main_v83 main_v84 (addf : (⟨S2x2048x128, .f32⟩ : BufTy).Contents (Elt F) → (⟨S2x2048x128, .f32⟩ : BufTy).Contents (Elt F) → (⟨S2x2048x128, .f32⟩ : BufTy).Contents (Elt F)),
    StableHlo.nullary main_cst_17 (constant S_ .f32 0x00000000#32),
    StableHlo.binary main_v84 main_cst_17 main_v85 ((fun x v => Host.reduceAdd x v reducesTo_S2x2048x128_S128_d0_1 h_S_) : (⟨S2x2048x128, .f32⟩ : BufTy).Contents (Elt F) → (⟨S_, .f32⟩ : BufTy).Contents (Elt F) → (⟨S128, .f32⟩ : BufTy).Contents (Elt F)),
    StableHlo.unary main_v85 main_v86 (broadcastInDim S1x1x128 ![2] bcast_S128_S1x1x128_2 : (⟨S128, .f32⟩ : BufTy).Contents (Elt F) → (⟨S1x1x128, .f32⟩ : BufTy).Contents (Elt F)),
    StableHlo.nullary main_cst_18 (constant S_ .f32 0x45800000#32),
    StableHlo.unary main_cst_18 main_v87 (broadcastInDim S1x1x128 ![] bcast_S_S1x1x128 : (⟨S_, .f32⟩ : BufTy).Contents (Elt F) → (⟨S1x1x128, .f32⟩ : BufTy).Contents (Elt F)),
    StableHlo.binary main_v86 main_v87 main_v88 (Host.divf : (⟨S1x1x128, .f32⟩ : BufTy).Contents (Elt F) → (⟨S1x1x128, .f32⟩ : BufTy).Contents (Elt F) → (⟨S1x1x128, .f32⟩ : BufTy).Contents (Elt F)),
    StableHlo.nullary main_c_19 (constantI S_ 32 0#32),
    StableHlo.TRef.nullary main_call6.cst (constant S_ .f32 0x00000000#32),
    StableHlo.TRef.binary (.of main_v84 : StableHlo.TRef sig ⟨S2x2048x128, .f32⟩) main_call6.cst main_call6.v0 (fun x v => Host.reduceAdd x v reducesTo_S2x2048x128_S128_d0_1 h_S_),
    StableHlo.TRef.unary main_call6.v0 main_call6.v1 (broadcastInDim S1x1x128 ![2] bcast_S128_S1x1x128_2),
    StableHlo.TRef.nullary main_call6.cst_0 (constant S_ .f32 0x45800000#32),
    StableHlo.TRef.unary main_call6.cst_0 main_call6.v2 (broadcastInDim S1x1x128 ![] bcast_S_S1x1x128),
    StableHlo.TRef.binary main_call6.v1 main_call6.v2 main_call6.v3 Host.divf,
    StableHlo.TRef.unary main_call6.v3 main_call6.v4 (broadcastInDim S2x2048x128 ![0, 1, 2] bcast_S1x1x128_S2x2048x128_0_1_2),
    StableHlo.TRef.binary (.of main_v84 : StableHlo.TRef sig ⟨S2x2048x128, .f32⟩) main_call6.v4 main_call6.v5 subf,
    StableHlo.TRef.binary main_call6.v5 main_call6.v5 main_call6.v6 mulf,
    StableHlo.TRef.unary (.of main_c_19 : StableHlo.TRef sig ⟨S_, .i32⟩) main_call6.v7 (sitofp .f32),
    StableHlo.TRef.nullary main_call6.cst_1 (constant S_ .f32 0x45800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2x2048x128_S128_d0_1 h_S_),
    StableHlo.TRef.unary main_call6.v9 main_call6.v10 (broadcastInDim S1x1x128 ![2] bcast_S128_S1x1x128_2),
    StableHlo.TRef.unary main_call6.v8 main_call6.v11 (broadcastInDim S1x1x128 ![] bcast_S_S1x1x128),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x1x128 ![] bcast_S_S1x1x128),
    StableHlo.TRef.ternary main_call6.v13 main_call6.v12 main_call6.call0.v1 main_call6.call0.v2 (fun p a b => select (broadcastInDim S1x1x128 ![] bcast_S_S1x1x128 p) a b),
    StableHlo.unary main_v88 main_v90 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v84 main_v90 main_v91 (subf : (⟨S2x2048x128, .f32⟩ : BufTy).Contents (Elt F) → (⟨S2x2048x128, .f32⟩ : BufTy).Contents (Elt F) → (⟨S2x2048x128, .f32⟩ : BufTy).Contents (Elt F)),
    StableHlo.unary main_arg13 main_v92 (broadcastInDim S1x1x128 ![2] bcast_S128_S1x1x128_2 : (⟨S128, .f32⟩ : BufTy).Contents (Elt F) → (⟨S1x1x128, .f32⟩ : BufTy).Contents (Elt F)),
    StableHlo.unary main_v92 main_v93 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v93 main_v91 main_v94 (mulf : (⟨S2x2048x128, .f32⟩ : BufTy).Contents (Elt F) → (⟨S2x2048x128, .f32⟩ : BufTy).Contents (Elt F) → (⟨S2x2048x128, .f32⟩ : BufTy).Contents (Elt F)),
    StableHlo.nullary main_cst_20 (constant S_ .f32 0x3727C5AC#32),
    StableHlo.unary main_cst_20 main_v95 (broadcastInDim S1x1x128 ![] bcast_S_S1x1x128 : (⟨S_, .f32⟩ : BufTy).Contents (Elt F) → (⟨S1x1x128, .f32⟩ : BufTy).Contents (Elt F)),
    StableHlo.binary main_v89 main_v95 main_v96 (addf : (⟨S1x1x128, .f32⟩ : BufTy).Contents (Elt F) → (⟨S1x1x128, .f32⟩ : BufTy).Contents (Elt F) → (⟨S1x1x128, .f32⟩ : BufTy).Contents (Elt F)) ]

abbrev opsL4b : List (HloOp τ sig (Elt F)) :=
  [ StableHlo.unary main_v96 main_v97 (Host.rsqrt : (⟨S1x1x128, .f32⟩ : BufTy).Contents (Elt F) → (⟨S1x1x128, .f32⟩ : BufTy).Contents (Elt F)),
    StableHlo.unary main_v97 main_v98 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v94 main_v98 main_v99 (mulf : (⟨S2x2048x128, .f32⟩ : BufTy).Contents (Elt F) → (⟨S2x2048x128, .f32⟩ : BufTy).Contents (Elt F) → (⟨S2x2048x128, .f32⟩ : BufTy).Contents (Elt F)),
    StableHlo.unary main_arg14 main_v100 (broadcastInDim S1x1x128 ![2] bcast_S128_S1x1x128_2 : (⟨S128, .f32⟩ : BufTy).Contents (Elt F) → (⟨S1x1x128, .f32⟩ : BufTy).Contents (Elt F)),
    StableHlo.unary main_v100 main_v101 (broadcastInDim S2x2048x128 ![0, 1, 2] bcast_S1x1x128_S2x2048x128_0_1_2 : (⟨S1x1x128, .f32⟩ : BufTy).Contents (Elt F) → (⟨S2x2048x128, .f32⟩ : BufTy).Contents (Elt F)),
    StableHlo.binary main_v99 main_v101 main_v102 (addf : (⟨S2x2048x128, .f32⟩ : BufTy).Contents (Elt F) → (⟨S2x2048x128, .f32⟩ : BufTy).Contents (Elt F) → (⟨S2x2048x128, .f32⟩ : BufTy).Contents (Elt F)),
    StableHlo.TRef.nullary main_call7.cst (constant S_ .f32 0x00000000#32),
    StableHlo.TRef.unary main_call7.cst main_call7.v0 (broadcastInDim S2x2048x128 ![] bcast_S_S2x2048x128),
    StableHlo.TRef.binary (.of main_v102 : StableHlo.TRef sig ⟨S2x2048x128, .f32⟩) main_call7.v0 main_call7.v1 maximumf ]

abbrev opsL5 : List (HloOp τ sig (Elt F)) :=
  [ StableHlo.binary main_v103 main_arg15 main_v104 ((fun l r => Host.dotGeneral dot_S2x2048x128_S64x128_S2x2048x64_2_1_01_0_n_n none l r) : (⟨S2x2048x128, .f32⟩ : BufTy).Contents (Elt F) → (⟨S64x128, .f32⟩ : BufTy).Contents (Elt F) → (⟨S2x2048x64, .f32⟩ : BufTy).Contents (Elt F)),
    StableHlo.unary main_arg16 main_v105 (broadcastInDim S1x1x64 ![2] bcast_S64_S1x1x64_2 : (⟨S64, .f32⟩ : BufTy).Contents (Elt F) → (⟨S1x1x64, .f32⟩ : BufTy).Contents (Elt F)),
    StableHlo.unary main_v105 main_v106 (broadcastInDim S2x2048x64 ![0, 1, 2] bcast_S1x1x64_S2x2048x64_0_1_2 : (⟨S1x1x64, .f32⟩ : BufTy).Contents (Elt F) → (⟨S2x2048x64, .f32⟩ : BufTy).Contents (Elt F)),
    StableHlo.binary main_v104 main_v106 main_v107 (addf : (⟨S2x2048x64, .f32⟩ : BufTy).Contents (Elt F) → (⟨S2x2048x64, .f32⟩ : BufTy).Contents (Elt F) → (⟨S2x2048x64, .f32⟩ : BufTy).Contents (Elt F)),
    StableHlo.nullary main_cst_21 (constant S_ .f32 0x00000000#32),
    StableHlo.binary main_v107 main_cst_21 main_v108 ((fun x v => Host.reduceAdd x v reducesTo_S2x2048x64_S64_d0_1 h_S_) : (⟨S2x2048x64, .f32⟩ : BufTy).Contents (Elt F) → (⟨S_, .f32⟩ : BufTy).Contents (Elt F) → (⟨S64, .f32⟩ : BufTy).Contents (Elt F)),
    StableHlo.unary main_v108 main_v109 (broadcastInDim S1x1x64 ![2] bcast_S64_S1x1x64_2 : (⟨S64, .f32⟩ : BufTy).Contents (Elt F) → (⟨S1x1x64, .f32⟩ : BufTy).Contents (Elt F)),
    StableHlo.nullary main_cst_22 (constant S_ .f32 0x45800000#32),
    StableHlo.unary main_cst_22 main_v110 (broadcastInDim S1x1x64 ![] bcast_S_S1x1x64 : (⟨S_, .f32⟩ : BufTy).Contents (Elt F) → (⟨S1x1x64, .f32⟩ : BufTy).Contents (Elt F)),
    StableHlo.binary main_v109 main_v110 main_v111 (Host.divf : (⟨S1x1x64, .f32⟩ : BufTy).Contents (Elt F) → (⟨S1x1x64, .f32⟩ : BufTy).Contents (Elt F) → (⟨S1x1x64, .f32⟩ : BufTy).Contents (Elt F)),
    StableHlo.nullary main_c_23 (constantI S_ 32 0#32),
    StableHlo.TRef.nullary main_call8.cst (constant S_ .f32 0x00000000#32),
    StableHlo.TRef.binary (.of main_v107 : StableHlo.TRef sig ⟨S2x2048x64, .f32⟩) main_call8.cst main_call8.v0 (fun x v => Host.reduceAdd x v reducesTo_S2x2048x64_S64_d0_1 h_S_),
    StableHlo.TRef.unary main_call8.v0 main_call8.v1 (broadcastInDim S1x1x64 ![2] bcast_S64_S1x1x64_2),
    StableHlo.TRef.nullary main_call8.cst_0 (constant S_ .f32 0x45800000#32),
    StableHlo.TRef.unary main_call8.cst_0 main_call8.v2 (broadcastInDim S1x1x64 ![] bcast_S_S1x1x64),
    StableHlo.TRef.binary main_call8.v1 main_call8.v2 main_call8.v3 Host.divf,
    StableHlo.TRef.unary main_call8.v3 main_call8.v4 (broadcastInDim S2x2048x64 ![0, 1, 2] bcast_S1x1x64_S2x2048x64_0_1_2),
    StableHlo.TRef.binary (.of main_v107 : StableHlo.TRef sig ⟨S2x2048x64, .f32⟩) main_call8.v4 main_call8.v5 subf,
    StableHlo.TRef.binary main_call8.v5 main_call8.v5 main_call8.v6 mulf,
    StableHlo.TRef.unary (.of main_c_23 : StableHlo.TRef sig ⟨S_, .i32⟩) main_call8.v7 (sitofp .f32),
    StableHlo.TRef.nullary main_call8.cst_1 (constant S_ .f32 0x45800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2x2048x64_S64_d0_1 h_S_),
    StableHlo.TRef.unary main_call8.v9 main_call8.v10 (broadcastInDim S1x1x64 ![2] bcast_S64_S1x1x64_2),
    StableHlo.TRef.unary main_call8.v8 main_call8.v11 (broadcastInDim S1x1x64 ![] bcast_S_S1x1x64),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S1x1x64 ![] bcast_S_S1x1x64),
    StableHlo.TRef.ternary main_call8.v13 main_call8.v12 main_call8.call0.v1 main_call8.call0.v2 (fun p a b => select (broadcastInDim S1x1x64 ![] bcast_S_S1x1x64 p) a b),
    StableHlo.unary main_v111 main_v113 (broadcastInDim S2x2048x64 ![0, 1, 2] bcast_S1x1x64_S2x2048x64_0_1_2 : (⟨S1x1x64, .f32⟩ : BufTy).Contents (Elt F) → (⟨S2x2048x64, .f32⟩ : BufTy).Contents (Elt F)),
    StableHlo.binary main_v107 main_v113 main_v114 (subf : (⟨S2x2048x64, .f32⟩ : BufTy).Contents (Elt F) → (⟨S2x2048x64, .f32⟩ : BufTy).Contents (Elt F) → (⟨S2x2048x64, .f32⟩ : BufTy).Contents (Elt F)),
    StableHlo.unary main_arg17 main_v115 (broadcastInDim S1x1x64 ![2] bcast_S64_S1x1x64_2 : (⟨S64, .f32⟩ : BufTy).Contents (Elt F) → (⟨S1x1x64, .f32⟩ : BufTy).Contents (Elt F)),
    StableHlo.unary main_v115 main_v116 (broadcastInDim S2x2048x64 ![0, 1, 2] bcast_S1x1x64_S2x2048x64_0_1_2 : (⟨S1x1x64, .f32⟩ : BufTy).Contents (Elt F) → (⟨S2x2048x64, .f32⟩ : BufTy).Contents (Elt F)),
    StableHlo.binary main_v116 main_v114 main_v117 (mulf : (⟨S2x2048x64, .f32⟩ : BufTy).Contents (Elt F) → (⟨S2x2048x64, .f32⟩ : BufTy).Contents (Elt F) → (⟨S2x2048x64, .f32⟩ : BufTy).Contents (Elt F)),
    StableHlo.nullary main_cst_24 (constant S_ .f32 0x3727C5AC#32),
    StableHlo.unary main_cst_24 main_v118 (broadcastInDim S1x1x64 ![] bcast_S_S1x1x64 : (⟨S_, .f32⟩ : BufTy).Contents (Elt F) → (⟨S1x1x64, .f32⟩ : BufTy).Contents (Elt F)),
    StableHlo.binary main_v112 main_v118 main_v119 (addf : (⟨S1x1x64, .f32⟩ : BufTy).Contents (Elt F) → (⟨S1x1x64, .f32⟩ : BufTy).Contents (Elt F) → (⟨S1x1x64, .f32⟩ : BufTy).Contents (Elt F)),
    StableHlo.unary main_v119 main_v120 (Host.rsqrt : (⟨S1x1x64, .f32⟩ : BufTy).Contents (Elt F) → (⟨S1x1x64, .f32⟩ : BufTy).Contents (Elt F)),
    StableHlo.unary main_v120 main_v121 (broadcastInDim S2x2048x64 ![0, 1, 2] bcast_S1x1x64_S2x2048x64_0_1_2 : (⟨S1x1x64, .f32⟩ : BufTy).Contents (Elt F) → (⟨S2x2048x64, .f32⟩ : BufTy).Contents (Elt F)),
    StableHlo.binary main_v117 main_v121 main_v122 (mulf : (⟨S2x2048x64, .f32⟩ : BufTy).Contents (Elt F) → (⟨S2x2048x64, .f32⟩ : BufTy).Contents (Elt F) → (⟨S2x2048x64, .f32⟩ : BufTy).Contents (Elt F)),
    StableHlo.unary main_arg18 main_v123 (broadcastInDim S1x1x64 ![2] bcast_S64_S1x1x64_2 : (⟨S64, .f32⟩ : BufTy).Contents (Elt F) → (⟨S1x1x64, .f32⟩ : BufTy).Contents (Elt F)),
    StableHlo.unary main_v123 main_v124 (broadcastInDim S2x2048x64 ![0, 1, 2] bcast_S1x1x64_S2x2048x64_0_1_2 : (⟨S1x1x64, .f32⟩ : BufTy).Contents (Elt F) → (⟨S2x2048x64, .f32⟩ : BufTy).Contents (Elt F)),
    StableHlo.binary main_v122 main_v124 main_v125 (addf : (⟨S2x2048x64, .f32⟩ : BufTy).Contents (Elt F) → (⟨S2x2048x64, .f32⟩ : BufTy).Contents (Elt F) → (⟨S2x2048x64, .f32⟩ : BufTy).Contents (Elt F)),
    StableHlo.TRef.nullary main_call9.cst (constant S_ .f32 0x00000000#32),
    StableHlo.TRef.unary main_call9.cst main_call9.v0 (broadcastInDim S2x2048x64 ![] bcast_S_S2x2048x64),
    StableHlo.TRef.binary (.of main_v125 : StableHlo.TRef sig ⟨S2x2048x64, .f32⟩) main_call9.v0 main_call9.v1 maximumf ]

abbrev ops : List (HloOp τ sig (Elt F)) :=
  (opsL1 ++ opsL2a) ++ ((opsL2b ++ (opsL3 ++ opsL4a)) ++ (opsL4b ++ opsL5))

theorem part0_eq (c : Dev nD) : main_part0 (F := F) c = seq (opsL1 ++ opsL2a) := rfl
theorem part1_eq (c : Dev nD) : main_part1 (F := F) c = seq (opsL2b ++ (opsL3 ++ opsL4a)) := rfl
theorem part2_eq (c : Dev nD) : main_part2 (F := F) c = seq (opsL4b ++ opsL5) := rfl

theorem main_eq (c : Dev nD) : main (F := F) c = seq ops := by
  show main (F := F) c = seq ((opsL1 ++ opsL2a) ++ ((opsL2b ++ (opsL3 ++ opsL4a)) ++ (opsL4b ++ opsL5)))
  rw [seq_append (opsL1 ++ opsL2a) _, seq_append (opsL2b ++ (opsL3 ++ opsL4a)) (opsL4b ++ opsL5),
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

private theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

abbrev parts : List (List (HloOp τ sig (Elt F))) := [opsL1, opsL2a, opsL2b, opsL3, opsL4a, opsL4b, opsL5]

theorem parts_ok {l : List (HloOp τ sig (Elt F))} (hl : l ∈ parts) :
    (l.Forall fun op => op.bufs ⊆ tcRefs τ sig) ∧ l.Forall fun op => op.fresh = ∅ := by
  simp only [parts, List.mem_cons, List.not_mem_nil, or_false] at hl
  rcases hl with rfl | rfl | rfl | rfl | rfl | rfl | rfl
  all_goals
    refine ⟨by simp only [List.Forall, nullary_bufs_sub, unary_bufs_sub, binary_bufs_sub, ternary_bufs_sub, and_self], ?_⟩
    repeat' apply And.intro
    all_goals rfl

theorem ops_sub : (ops : List (HloOp τ sig (Elt F))).Forall fun op => op.bufs ⊆ tcRefs τ sig :=
  forall_app (forall_app (parts_ok (.head _)).1 (parts_ok (.tail _ (.head _))).1)
    (forall_app (forall_app (parts_ok (.tail _ (.tail _ (.head _)))).1 (forall_app (parts_ok (.tail _ (.tail _ (.tail _ (.head _))))).1 (parts_ok (.tail _ (.tail _ (.tail _ (.tail _ (.head _)))))).1))
      (forall_app (parts_ok (.tail _ (.tail _ (.tail _ (.tail _ (.tail _ (.head _))))))).1 (parts_ok (.tail _ (.tail _ (.tail _ (.tail _ (.tail _ (.tail _ (.head _)))))))).1))

theorem ops_fresh : ∀ op ∈ (ops : List (HloOp τ sig (Elt F))), op.fresh = ∅ :=
  List.forall_iff_forall_mem.mp (forall_app (forall_app (parts_ok (.head _)).2 (parts_ok (.tail _ (.head _))).2)
    (forall_app (forall_app (parts_ok (.tail _ (.tail _ (.head _)))).2 (forall_app (parts_ok (.tail _ (.tail _ (.tail _ (.head _))))).2 (parts_ok (.tail _ (.tail _ (.tail _ (.tail _ (.head _)))))).2))
      (forall_app (parts_ok (.tail _ (.tail _ (.tail _ (.tail _ (.tail _ (.head _))))))).2 (parts_ok (.tail _ (.tail _ (.tail _ (.tail _ (.tail _ (.tail _ (.head _)))))))).2)))

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

/-- No operation of the program writes an argument buffer. -/
theorem arg_keep {l : List (HloOp τ sig (Elt F))} (hl : l ∈ parts)
    (V : Valuation τ sig (Elt F)) {r : Ref sig .tc} (hr : r ∈ argRefs) :
    after l V (Proc.devRef .tc r) = V (Proc.devRef .tc r) := by
  refine after_of_forall_not_mem _ _ (List.forall_iff_forall_mem.mp ?_)
  simp only [parts, List.mem_cons, List.not_mem_nil, or_false] at hl
  rcases hl with rfl | rfl | rfl | rfl | rfl | rfl | rfl
  all_goals
    simp only [List.Forall, nullary_writes, unary_writes, binary_writes, ternary_writes, Finset.mem_singleton]
    repeat' apply And.intro
    all_goals exact devRef_ne_of_ne (ne_of_mem_of_not_mem hr (by decide))

def X1 (V : Valuation τ sig (Elt Ideal)) : Valuation τ sig (Elt Ideal) := after opsL1 V
def X2 (V : Valuation τ sig (Elt Ideal)) : Valuation τ sig (Elt Ideal) := after opsL2b (after opsL2a (X1 V))
def X3 (V : Valuation τ sig (Elt Ideal)) : Valuation τ sig (Elt Ideal) := after opsL3 (X2 V)
def X4 (V : Valuation τ sig (Elt Ideal)) : Valuation τ sig (Elt Ideal) := after opsL4b (after opsL4a (X3 V))
theorem after_ops (V : Valuation τ sig (Elt Ideal)) : after ops V = after opsL5 (X4 V) := by
  show after ((opsL1 ++ opsL2a) ++ ((opsL2b ++ (opsL3 ++ opsL4a)) ++ (opsL4b ++ opsL5))) V = _
  simp only [after_app, X1, X2, X3, X4]

section
variable (V : Valuation τ sig (Elt Ideal)) {r : Ref sig .tc} (hr : r ∈ argRefs)
include hr
theorem X1_arg : X1 V (Proc.devRef .tc r) = V (Proc.devRef .tc r) := arg_keep (.head _) V hr
theorem X2_arg : X2 V (Proc.devRef .tc r) = V (Proc.devRef .tc r) :=
  (arg_keep (.tail _ (.tail _ (.head _))) _ hr).trans ((arg_keep (.tail _ (.head _)) _ hr).trans (X1_arg V hr))
theorem X3_arg : X3 V (Proc.devRef .tc r) = V (Proc.devRef .tc r) := (arg_keep (.tail _ (.tail _ (.tail _ (.head _)))) _ hr).trans (X2_arg V hr)
theorem X4_arg : X4 V (Proc.devRef .tc r) = V (Proc.devRef .tc r) :=
  (arg_keep (.tail _ (.tail _ (.tail _ (.tail _ (.tail _ (.head _)))))) _ hr).trans ((arg_keep (.tail _ (.tail _ (.tail _ (.tail _ (.head _))))) _ hr).trans (X3_arg V hr))
theorem ops_arg : after ops V (Proc.devRef .tc r) = V (Proc.devRef .tc r) := by
  rw [after_ops]; exact (arg_keep (.tail _ (.tail _ (.tail _ (.tail _ (.tail _ (.tail _ (.head _))))))) _ hr).trans (X4_arg V hr)
end

theorem L1_out (V : Valuation τ sig (Elt Ideal)) :
    after opsL1 V (Proc.devRef .tc main_v31) = RS1 (V (Proc.devRef .tc main_arg0)) (V (Proc.devRef .tc main_arg1)) (V (Proc.devRef .tc main_arg2)) (V (Proc.devRef .tc main_arg3)) (V (Proc.devRef .tc main_arg4)) := by
  after_results_simp
  rfl

theorem L2_out (V : Valuation τ sig (Elt Ideal)) :
    after opsL2b (after opsL2a V) (Proc.devRef .tc main_v55) = RS2 (V (Proc.devRef .tc main_v31)) (V (Proc.devRef .tc main_arg5)) (V (Proc.devRef .tc main_arg6)) (V (Proc.devRef .tc main_arg7)) := by
  after_results_simp
  rfl

theorem L3_out (V : Valuation τ sig (Elt Ideal)) :
    after opsL3 V (Proc.devRef .tc main_v80) = RS3 (V (Proc.devRef .tc main_v55)) (V (Proc.devRef .tc main_arg8)) (V (Proc.devRef .tc main_arg9)) (V (Proc.devRef .tc main_arg10)) := by
  after_results_simp
  rfl

theorem L4_out (V : Valuation τ sig (Elt Ideal)) :
    after opsL4b (after opsL4a V) (Proc.devRef .tc main_v103) = RS4 (V (Proc.devRef .tc main_v80)) (V (Proc.devRef .tc main_arg11)) (V (Proc.devRef .tc main_arg12)) (V (Proc.devRef .tc main_arg13)) (V (Proc.devRef .tc main_arg14)) := by
  after_results_simp
  rfl

theorem L5_out (V : Valuation τ sig (Elt Ideal)) :
    after opsL5 V (Proc.devRef .tc main_v126) = RS5 (V (Proc.devRef .tc main_v103)) (V (Proc.devRef .tc main_arg15)) (V (Proc.devRef .tc main_arg16)) (V (Proc.devRef .tc main_arg17)) (V (Proc.devRef .tc main_arg18)) := by
  after_results_simp
  rfl

def RS (a0 : FVec Ideal S2x2048x128 .f32) (a1 : FVec Ideal S2x64x128 .f32) (a2 : FVec Ideal S128x256 .f32)
    (a3 a4 : FVec Ideal S128 .f32) (a5 : FVec Ideal S256x128 .f32) (a6 a7 : FVec Ideal S256 .f32)
    (a8 : FVec Ideal S256x256 .f32) (a9 a10 : FVec Ideal S256 .f32) (a11 : FVec Ideal S128x256 .f32)
    (a12 a13 a14 : FVec Ideal S128 .f32) (a15 : FVec Ideal S64x128 .f32) (a16 a17 a18 : FVec Ideal S64 .f32) :
    FVec Ideal S2x2048x64 .f32 :=
  RS5 (RS4 (RS3 (RS2 (RS1 a0 a1 a2 a3 a4) a5 a6 a7) a8 a9 a10) a11 a12 a13 a14) a15 a16 a17 a18

theorem ops_out (V : Valuation τ sig (Elt Ideal)) :
    after ops V (Proc.devRef .tc main_v126) = RS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops, L5_out, X4, L4_out, X3, L3_out, X2, L2_out, X1, L1_out, ← X1, ← X2, ← X3,
    X1_arg V (r := main_arg5) (by decide), X1_arg V (r := main_arg6) (by decide), X1_arg V (r := main_arg7) (by decide),
    X2_arg V (r := main_arg8) (by decide), X2_arg V (r := main_arg9) (by decide), X2_arg V (r := main_arg10) (by decide),
    X3_arg V (r := main_arg11) (by decide), X3_arg V (r := main_arg12) (by decide), X3_arg V (r := main_arg13) (by decide),
    X3_arg V (r := main_arg14) (by decide), ← X4,
    X4_arg V (r := main_arg15) (by decide), X4_arg V (r := main_arg16) (by decide), X4_arg V (r := main_arg17) (by decide),
    X4_arg V (r := main_arg18) (by decide)]
  rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v126) = RS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18) := by
  refine (θ_run defs _ _).mono (fun _ h c => ?_) (run_all m ρ)
  exact ⟨(h c main_v126).trans (ops_out _),
    (h c main_arg0).trans (ops_arg _ (by decide)), (h c main_arg1).trans (ops_arg _ (by decide)),
    (h c main_arg2).trans (ops_arg _ (by decide)), (h c main_arg3).trans (ops_arg _ (by decide)),
    (h c main_arg4).trans (ops_arg _ (by decide)), (h c main_arg5).trans (ops_arg _ (by decide)),
    (h c main_arg6).trans (ops_arg _ (by decide)), (h c main_arg7).trans (ops_arg _ (by decide)),
    (h c main_arg8).trans (ops_arg _ (by decide)), (h c main_arg9).trans (ops_arg _ (by decide)),
    (h c main_arg10).trans (ops_arg _ (by decide)), (h c main_arg11).trans (ops_arg _ (by decide)),
    (h c main_arg12).trans (ops_arg _ (by decide)), (h c main_arg13).trans (ops_arg _ (by decide)),
    (h c main_arg14).trans (ops_arg _ (by decide)), (h c main_arg15).trans (ops_arg _ (by decide)),
    (h c main_arg16).trans (ops_arg _ (by decide)), (h c main_arg17).trans (ops_arg _ (by decide)),
    (h c main_arg18).trans (ops_arg _ (by decide))⟩

end Cert.RRN

end
-- ==== Proof.Finite.lean ====
import proofs.«428405_j30648886624750_3_alg».proof.Defs
import proofs.«428405_j30648886624750_3_alg».proof.Proof.Gen.Pre_finite_inputs
import proofs.«428405_j30648886624750_3_alg».proof.Proof.Spec
import Idealize.ShloMosaic.Lib.ReduceAll

noncomputable section

namespace Cert.KRN

open Idealize.ShloMosaic Idealize.SL.Sem Cert.RN Idealize.ShloMosaic.ValueIdx

instance subsingleton_idx0 : Subsingleton (⟨0, ![]⟩ : Shape).Idx := ⟨fun _ _ => funext fun d => d.elim0⟩

-- An entry whose absolute value compares below +∞ at every index is a real number.
theorem real_of_pre {s : Shape} {axes : List (Fin s.rank)} {A : FVec Ideal s .f32}
    {hb : (⟨0, ![]⟩ : Shape).BroadcastsInDim s (![] : Fin 0 → Fin s.rank)}
    {hr : s.ReducesTo axes ⟨0, ![]⟩} {hu : 0 < (⟨0, ![]⟩ : Shape).numel}
    (e : Host.reduce IntOp.andi
          (cmpf .olt (Host.absf A) (broadcastInDim s ![] hb (constant (F := Ideal) ⟨0, ![]⟩ .f32 0x7F800000#32)))
          (constantI ⟨0, ![]⟩ 1 1#1) hr hu ix0 = 1#1) (i : s.Idx) : A i = (((A i).toReal : ℝ) : EReal) := by
  have h : Ideal.cmp .olt (max (A i) (-A i)) (Ideal.ofBits .f32 0x7F800000#32) = 1#1 :=
    Host.reduce_andi_all _ _ hr hu ix0 e i
  rw [show Ideal.ofBits .f32 0x7F800000#32 = (⊤ : EReal) by simp [Ideal.ofBits, Ideal.ieee]] at h
  have hlt : max (A i) (-A i) < ⊤ := by
    by_contra hn
    simp [Ideal.cmp, hn] at h
  refine (EReal.coe_toReal ?_ ?_).symm <;> intro hx <;> rw [hx] at hlt <;> simp at hlt

theorem andi_ix0 {a b : IVec (⟨0, ![]⟩ : Shape) 1} (h : andi a b ix0 = 1#1) : a ix0 = 1#1 ∧ b ix0 = 1#1 :=
  IntOp.andi_eq_one.1 h

theorem inp_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ I : Inp,
      Is3 (m ((c.tc : Thread Cert.KernelIdeal.nD Cert.KernelIdeal.τ).loc Cert.KernelIdeal.main_arg0)) I.x
      ∧ Is3 (m ((c.tc : Thread Cert.KernelIdeal.nD Cert.KernelIdeal.τ).loc Cert.KernelIdeal.main_arg1)) I.ce
      ∧ Is2 (m ((c.tc : Thread Cert.KernelIdeal.nD Cert.KernelIdeal.τ).loc Cert.KernelIdeal.main_arg2)) I.W1
      ∧ Is1 (m ((c.tc : Thread Cert.KernelIdeal.nD Cert.KernelIdeal.τ).loc Cert.KernelIdeal.main_arg3)) I.g1
      ∧ Is1 (m ((c.tc : Thread Cert.KernelIdeal.nD Cert.KernelIdeal.τ).loc Cert.KernelIdeal.main_arg4)) I.b1
      ∧ Is2 (m ((c.tc : Thread Cert.KernelIdeal.nD Cert.KernelIdeal.τ).loc Cert.KernelIdeal.main_arg5)) I.W2
      ∧ Is1 (m ((c.tc : Thread Cert.KernelIdeal.nD Cert.KernelIdeal.τ).loc Cert.KernelIdeal.main_arg6)) I.g2
      ∧ Is1 (m ((c.tc : Thread Cert.KernelIdeal.nD Cert.KernelIdeal.τ).loc Cert.KernelIdeal.main_arg7)) I.b2
      ∧ Is2 (m ((c.tc : Thread Cert.KernelIdeal.nD Cert.KernelIdeal.τ).loc Cert.KernelIdeal.main_arg8)) I.W3
      ∧ Is1 (m ((c.tc : Thread Cert.KernelIdeal.nD Cert.KernelIdeal.τ).loc Cert.KernelIdeal.main_arg9)) I.g3
      ∧ Is1 (m ((c.tc : Thread Cert.KernelIdeal.nD Cert.KernelIdeal.τ).loc Cert.KernelIdeal.main_arg10)) I.b3
      ∧ Is2 (m ((c.tc : Thread Cert.KernelIdeal.nD Cert.KernelIdeal.τ).loc Cert.KernelIdeal.main_arg11)) I.F1
      ∧ Is1 (m ((c.tc : Thread Cert.KernelIdeal.nD Cert.KernelIdeal.τ).loc Cert.KernelIdeal.main_arg12)) I.f1b
      ∧ Is1 (m ((c.tc : Thread Cert.KernelIdeal.nD Cert.KernelIdeal.τ).loc Cert.KernelIdeal.main_arg13)) I.g4
      ∧ Is1 (m ((c.tc : Thread Cert.KernelIdeal.nD Cert.KernelIdeal.τ).loc Cert.KernelIdeal.main_arg14)) I.b4
      ∧ Is2 (m ((c.tc : Thread Cert.KernelIdeal.nD Cert.KernelIdeal.τ).loc Cert.KernelIdeal.main_arg15)) I.F2
      ∧ Is1 (m ((c.tc : Thread Cert.KernelIdeal.nD Cert.KernelIdeal.τ).loc Cert.KernelIdeal.main_arg16)) I.f2b
      ∧ Is1 (m ((c.tc : Thread Cert.KernelIdeal.nD Cert.KernelIdeal.τ).loc Cert.KernelIdeal.main_arg17)) I.g5
      ∧ Is1 (m ((c.tc : Thread Cert.KernelIdeal.nD Cert.KernelIdeal.τ).loc Cert.KernelIdeal.main_arg18)) I.b5 := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  obtain ⟨h, h18⟩ := andi_ix0 h
  obtain ⟨h, h17⟩ := andi_ix0 h
  obtain ⟨h, h16⟩ := andi_ix0 h
  obtain ⟨h, h15⟩ := andi_ix0 h
  obtain ⟨h, h14⟩ := andi_ix0 h
  obtain ⟨h, h13⟩ := andi_ix0 h
  obtain ⟨h, h12⟩ := andi_ix0 h
  obtain ⟨h, h11⟩ := andi_ix0 h
  obtain ⟨h, h10⟩ := andi_ix0 h
  obtain ⟨h, h9⟩ := andi_ix0 h
  obtain ⟨h, h8⟩ := andi_ix0 h
  obtain ⟨h, h7⟩ := andi_ix0 h
  obtain ⟨h, h6⟩ := andi_ix0 h
  obtain ⟨h, h5⟩ := andi_ix0 h
  obtain ⟨h, h4⟩ := andi_ix0 h
  obtain ⟨h, h3⟩ := andi_ix0 h
  obtain ⟨h, h2⟩ := andi_ix0 h
  obtain ⟨h0, h1⟩ := andi_ix0 h
  exact ⟨⟨_, _, _, _, _, _, _, _, _, _, _, _, _, _, _, _, _, _, _⟩,
    fun _ _ _ => real_of_pre h0 _, fun _ _ _ => real_of_pre h1 _, fun _ _ => real_of_pre h2 _,
    fun _ => real_of_pre h3 _, fun _ => real_of_pre h4 _, fun _ _ => real_of_pre h5 _,
    fun _ => real_of_pre h6 _, fun _ => real_of_pre h7 _, fun _ _ => real_of_pre h8 _,
    fun _ => real_of_pre h9 _, fun _ => real_of_pre h10 _, fun _ _ => real_of_pre h11 _,
    fun _ => real_of_pre h12 _, fun _ => real_of_pre h13 _, fun _ => real_of_pre h14 _,
    fun _ _ => real_of_pre h15 _, fun _ => real_of_pre h16 _, fun _ => real_of_pre h17 _,
    fun _ => real_of_pre h18 _⟩

end Cert.KRN

end
-- ==== Proof.lean ====
import proofs.«428405_j30648886624750_3_alg».proof.Defs
import proofs.«428405_j30648886624750_3_alg».proof.Proof.Gen.Kernel
import proofs.«428405_j30648886624750_3_alg».proof.Proof.Gen.Kernel.Frame
import proofs.«428405_j30648886624750_3_alg».proof.Proof.Gen.KernelIdeal
import proofs.«428405_j30648886624750_3_alg».proof.Proof.Gen.KernelIdeal.Frame
import proofs.«428405_j30648886624750_3_alg».proof.Proof.Gen.ReferenceIdeal
import proofs.«428405_j30648886624750_3_alg».proof.Proof.Gen.Pre_finite_inputs
import proofs.«428405_j30648886624750_3_alg».proof.Proof.KChain
import proofs.«428405_j30648886624750_3_alg».proof.Proof.KRun
import proofs.«428405_j30648886624750_3_alg».proof.Proof.RefRun
import proofs.«428405_j30648886624750_3_alg».proof.Proof.Finite
import Idealize.ShloMosaic.Adequacy
import Idealize.ShloMosaic.Init

noncomputable section

namespace Cert.Proof

open Idealize.ShloMosaic Idealize.ShloMosaic.TcCoe Idealize.SL.Sem Cert.RN

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RRN.ref_run m ρ)

theorem eq_of_is3 {a b d : Nat} (A : (⟨3, ![a, b, d]⟩ : Shape).Idx → EReal) (f : Fin a → Fin b → Fin d → ℝ) (h : Is3 A f) :
    A = fun i => ((f (i 0) (i 1) (i 2) : ℝ) : EReal) := by
  funext i
  rw [ValueIdx.eq_ix3 i]
  exact h _ _ _

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hI := fun c => Cert.KRN.inp_of_pre (hP := Cert.Pre_finite_inputs.Gen.facts) m hpre c
  choose I hI using hI
  refine ⟨fun c => fun i => ((h5 epsR slopeR (I c) (i 0) (i 1) (i 2) : ℝ) : EReal), ?_, ?_⟩
  · refine (θ_run (Cert.KernelIdeal.defs (F := Ideal)) _ _).mono (fun r h c => ⟨(h c).1.trans ?_, (h c).2⟩)
      (Cert.KernelIdeal.Gen.run_result (F := Ideal) m ρ)
    obtain ⟨a0, a1, a2, a3, a4, a5, a6, a7, a8, a9, a10, a11, a12, a13, a14, a15, a16, a17, a18⟩ := hI c
    exact eq_of_is3 _ _ (Cert.KRN.kernel_value m ρ c (I c) a0 a1 a2 a3 a4 a5 a6 a7 a8 a9 a10 a11 a12 a13 a14 a15 a16 a17 a18)
  · refine (θ_run (Cert.ReferenceIdeal.defs (F := Ideal)) _ _).mono (fun r h c => ⟨(h c).1.trans ?_, (h c).2⟩)
      (Cert.RRN.ref_run m' ρ')
    obtain ⟨a0, a1, a2, a3, a4, a5, a6, a7, a8, a9, a10, a11, a12, a13, a14, a15, a16, a17, a18⟩ := hI c
    obtain ⟨g0, g1, g2, g3, g4, g5, g6, g7, g8, g9, g10, g11, g12, g13, g14, g15, g16, g17, g18⟩ := hagree c
    rw [g0, g1, g2, g3, g4, g5, g6, g7, g8, g9, g10, g11, g12, g13, g14, g15, g16, g17, g18]
    refine eq_of_is3 _ _ ?_
    unfold Cert.RRN.RS
    exact Cert.RRN.RS5_is (I c) _ _ _ _ _
      (Cert.RRN.RS4_is (I c) _ _ _ _ _
        (Cert.RRN.RS3_is (I c) _ _ _ _
          (Cert.RRN.RS2_is (I c) _ _ _ _
            (Cert.RRN.RS1_is (I c) _ _ _ _ _ a0 a1 a2 a3 a4) a5 a6 a7) a8 a9 a10) a11 a12 a13 a14) a15 a16 a17 a18

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
